-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v70)) (v1 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_v61) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v221) = v0 c
          ∧ r.2.mem ((c.tc : Thread Cert.ReferenceIdeal.nD Cert.ReferenceIdeal.τ).loc Cert.ReferenceIdeal.main_v189) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2000000 : Shape := ⟨2, ![2, 2000000]⟩
abbrev S100000x16 : Shape := ⟨2, ![100000, 16]⟩
abbrev S50000x16 : Shape := ⟨2, ![50000, 16]⟩
abbrev S16x64 : Shape := ⟨2, ![16, 64]⟩
abbrev S64 : Shape := ⟨1, ![64]⟩
abbrev S64x64 : Shape := ⟨2, ![64, 64]⟩
abbrev S32x64 : Shape := ⟨2, ![32, 64]⟩
abbrev S64x1 : Shape := ⟨2, ![64, 1]⟩
abbrev S1 : Shape := ⟨1, ![1]⟩
abbrev S_ : Shape := ⟨0, ![]⟩
abbrev S1x2000000 : Shape := ⟨2, ![1, 2000000]⟩
abbrev S2000000 : Shape := ⟨1, ![2000000]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S50000x16 : S_.BroadcastsInDim S50000x16 (![] : Fin 0 → Fin S50000x16.rank)
  reducesTo_S50000x16_S_d0_1 : S50000x16.ReducesTo [0, 1] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S32x64 : S_.BroadcastsInDim S32x64 (![] : Fin 0 → Fin S32x64.rank)
  reducesTo_S32x64_S_d0_1 : S32x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  slices_S2x2000000_S1x2000000_0_0 : S2x2000000.Slices ![0, 0] S1x2000000
  shapeCasts_S1x2000000_S2000000 : S1x2000000.ShapeCasts S2000000
  bcast_S_S2000000 : S_.BroadcastsInDim S2000000 (![] : Fin 0 → Fin S2000000.rank)
  reducesTo_S2000000_S_d0 : S2000000.ReducesTo [0] S_
  slices_S2x2000000_S1x2000000_1_0 : S2x2000000.Slices ![1, 0] S1x2000000

variable [Facts]

def fn_part5 {F : FTy → Type} [FloatOps F] (main_arg0 : IVec S2x2000000 32) (main_v78 : IVec S_ 1) (main_v82 : IVec S2000000 1) (main_v84 : IVec S2000000 32) (main_v85 : IVec S2000000 32) : IVec S_ 1 :=
  let main_v86 : IVec S2000000 1 := cmpi .slt main_v84 main_v85
  let main_v87 : IVec S2000000 1 := andi main_v82 main_v86
  let main_c_32 : IVec S_ 1 := constantI S_ 1 1#1
  let main_v88 : IVec S_ 1 := (fun x v => Host.reduce IntOp.andi x v reducesTo_S2000000_S_d0 h_S_) main_v87 main_c_32
  let main_v89 : IVec S_ 1 := andi main_v78 main_v88
  let main_v90 : IVec S1x2000000 32 := (extractStridedSlice S1x2000000 ![1, 0] · slices_S2x2000000_S1x2000000_1_0) main_arg0
  let main_v91 : IVec S2000000 32 := shapeCast S2000000 main_v90 shapeCasts_S1x2000000_S2000000
  let main_c_33 : IVec S_ 32 := constantI S_ 32 100000#32
  let main_v92 : IVec S2000000 32 := broadcastInDim S2000000 ![] bcast_S_S2000000 main_c_33
  let main_v93 : IVec S2000000 1 := cmpi .sge main_v91 main_v92
  let main_v94 : IVec S1x2000000 32 := (extractStridedSlice S1x2000000 ![1, 0] · slices_S2x2000000_S1x2000000_1_0) main_arg0
  let main_v95 : IVec S2000000 32 := shapeCast S2000000 main_v94 shapeCasts_S1x2000000_S2000000
  let main_c_34 : IVec S_ 32 := constantI S_ 32 150000#32
  let main_v96 : IVec S2000000 32 := broadcastInDim S2000000 ![] bcast_S_S2000000 main_c_34
  let main_v97 : IVec S2000000 1 := cmpi .slt main_v95 main_v96
  let main_v98 : IVec S2000000 1 := andi main_v93 main_v97
  let main_c_35 : IVec S_ 1 := constantI S_ 1 1#1
  let main_v99 : IVec S_ 1 := (fun x v => Host.reduce IntOp.andi x v reducesTo_S2000000_S_d0 h_S_) main_v98 main_c_35
  let main_v100 : IVec S_ 1 := andi main_v89 main_v99
  main_v100

def fn_part4 {F : FTy → Type} [FloatOps F] (main_arg0 : IVec S2x2000000 32) (main_arg15 : FVec F S64x1 .f32) (main_arg16 : FVec F S1 .f32) (main_v63 : IVec S_ 1) (main_v67 : IVec S_ 1) : IVec S_ 1 :=
  let main_v68 : IVec S_ 1 := andi main_v63 main_v67
  let main_v69 : FVec F S64x1 .f32 := Host.absf main_arg15
  let main_cst_26 : FVec F S_ .f32 := constant S_ .f32 0x7F800000#32
  let main_v70 : FVec F S64x1 .f32 := broadcastInDim S64x1 ![] bcast_S_S64x1 main_cst_26
  let main_v71 : IVec S64x1 1 := cmpf .olt main_v69 main_v70
  let main_c_27 : IVec S_ 1 := constantI S_ 1 1#1
  let main_v72 : IVec S_ 1 := (fun x v => Host.reduce IntOp.andi x v reducesTo_S64x1_S_d0_1 h_S_) main_v71 main_c_27
  let main_v73 : IVec S_ 1 := andi main_v68 main_v72
  let main_v74 : FVec F S1 .f32 := Host.absf main_arg16
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  let main_v79 : IVec S1x2000000 32 := (extractStridedSlice S1x2000000 ![0, 0] · slices_S2x2000000_S1x2000000_0_0) main_arg0
  let main_v80 : IVec S2000000 32 := shapeCast S2000000 main_v79 shapeCasts_S1x2000000_S2000000
  let main_c_30 : IVec S_ 32 := constantI S_ 32 0#32
  let main_v81 : IVec S2000000 32 := broadcastInDim S2000000 ![] bcast_S_S2000000 main_c_30
  let main_v82 : IVec S2000000 1 := cmpi .sge main_v80 main_v81
  let main_v83 : IVec S1x2000000 32 := (extractStridedSlice S1x2000000 ![0, 0] · slices_S2x2000000_S1x2000000_0_0) main_arg0
  let main_v84 : IVec S2000000 32 := shapeCast S2000000 main_v83 shapeCasts_S1x2000000_S2000000
  let main_c_31 : IVec S_ 32 := constantI S_ 32 100000#32
  let main_v85 : IVec S2000000 32 := broadcastInDim S2000000 ![] bcast_S_S2000000 main_c_31
  fn_part5 (F := F) main_arg0 main_v78 main_v82 main_v84 main_v85

def fn_part3 {F : FTy → Type} [FloatOps F] (main_arg0 : IVec S2x2000000 32) (main_arg12 : FVec F S64 .f32) (main_arg13 : FVec F S32x64 .f32) (main_arg14 : FVec F S64 .f32) (main_arg15 : FVec F S64x1 .f32) (main_arg16 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S32x64 .f32 := Host.absf main_arg13
  let main_cst_22 : FVec F S_ .f32 := constant S_ .f32 0x7F800000#32
  let main_v60 : FVec F S32x64 .f32 := broadcastInDim S32x64 ![] bcast_S_S32x64 main_cst_22
  let main_v61 : IVec S32x64 1 := cmpf .olt main_v59 main_v60
  let main_c_23 : IVec S_ 1 := constantI S_ 1 1#1
  let main_v62 : IVec S_ 1 := (fun x v => Host.reduce IntOp.andi x v reducesTo_S32x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg0 main_arg15 main_arg16 main_v63 main_v67

def fn_part2 {F : FTy → Type} [FloatOps F] (main_arg0 : IVec S2x2000000 32) (main_arg8 : FVec F S64 .f32) (main_arg9 : FVec F S64 .f32) (main_arg10 : FVec F S64 .f32) (main_arg11 : FVec F S64 .f32) (main_arg12 : FVec F S64 .f32) (main_arg13 : FVec F S32x64 .f32) (main_arg14 : FVec F S64 .f32) (main_arg15 : FVec F S64x1 .f32) (main_arg16 : FVec F S1 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg0 main_arg12 main_arg13 main_arg14 main_arg15 main_arg16 main_v48 main_v49 main_v50

def fn_part1 {F : FTy → Type} [FloatOps F] (main_arg0 : IVec S2x2000000 32) (main_arg5 : FVec F S64x64 .f32) (main_arg6 : FVec F S64 .f32) (main_arg7 : FVec F S64x64 .f32) (main_arg8 : FVec F S64 .f32) (main_arg9 : FVec F S64 .f32) (main_arg10 : FVec F S64 .f32) (main_arg11 : FVec F S64 .f32) (main_arg12 : FVec F S64 .f32) (main_arg13 : FVec F S32x64 .f32) (main_arg14 : FVec F S64 .f32) (main_arg15 : FVec F S64x1 .f32) (main_arg16 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg0 main_arg8 main_arg9 main_arg10 main_arg11 main_arg12 main_arg13 main_arg14 main_arg15 main_arg16 main_v33

def fn {F : FTy → Type} [FloatOps F] (main_arg0 : IVec S2x2000000 32) (main_arg1 : FVec F S100000x16 .f32) (main_arg2 : FVec F S50000x16 .f32) (main_arg3 : FVec F S16x64 .f32) (main_arg4 : FVec F S64 .f32) (main_arg5 : FVec F S64x64 .f32) (main_arg6 : FVec F S64 .f32) (main_arg7 : FVec F S64x64 .f32) (main_arg8 : FVec F S64 .f32) (main_arg9 : FVec F S64 .f32) (main_arg10 : FVec F S64 .f32) (main_arg11 : FVec F S64 .f32) (main_arg12 : FVec F S64 .f32) (main_arg13 : FVec F S32x64 .f32) (main_arg14 : FVec F S64 .f32) (main_arg15 : FVec F S64x1 .f32) (main_arg16 : FVec F S1 .f32) : IVec S_ 1 :=
  let main_v0 : FVec F S100000x16 .f32 := Host.absf main_arg1
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S50000x16 .f32 := Host.absf main_arg2
  let main_cst_0 : FVec F S_ .f32 := constant S_ .f32 0x7F800000#32
  let main_v5 : FVec F S50000x16 .f32 := broadcastInDim S50000x16 ![] bcast_S_S50000x16 main_cst_0
  let main_v6 : IVec S50000x16 1 := cmpf .olt main_v4 main_v5
  let main_c_1 : IVec S_ 1 := constantI S_ 1 1#1
  let main_v7 : IVec S_ 1 := (fun x v => Host.reduce IntOp.andi x v reducesTo_S50000x16_S_d0_1 h_S_) main_v6 main_c_1
  let main_v8 : IVec S_ 1 := andi main_v3 main_v7
  let main_v9 : FVec F S16x64 .f32 := Host.absf main_arg3
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg0 main_arg5 main_arg6 main_arg7 main_arg8 main_arg9 main_arg10 main_arg11 main_arg12 main_arg13 main_arg14 main_arg15 main_arg16 main_v13 main_v16
-- ==== Kernel.lean ====
abbrev S2x2000000 : Shape := ⟨2, ![2, 2000000]⟩
abbrev S100000x16 : Shape := ⟨2, ![100000, 16]⟩
abbrev S50000x16 : Shape := ⟨2, ![50000, 16]⟩
abbrev S16x64 : Shape := ⟨2, ![16, 64]⟩
abbrev S64 : Shape := ⟨1, ![64]⟩
abbrev S64x64 : Shape := ⟨2, ![64, 64]⟩
abbrev S32x64 : Shape := ⟨2, ![32, 64]⟩
abbrev S64x1 : Shape := ⟨2, ![64, 1]⟩
abbrev S1 : Shape := ⟨1, ![1]⟩
abbrev S1x2000000 : Shape := ⟨2, ![1, 2000000]⟩
abbrev S2000000 : Shape := ⟨1, ![2000000]⟩
abbrev S150000x16 : Shape := ⟨2, ![150000, 16]⟩
abbrev S_ : Shape := ⟨0, ![]⟩
abbrev S150000 : Shape := ⟨1, ![150000]⟩
abbrev S2000000x1 : Shape := ⟨2, ![2000000, 1]⟩
abbrev S150000x1 : Shape := ⟨2, ![150000, 1]⟩
abbrev S1x64 : Shape := ⟨2, ![1, 64]⟩
abbrev S1x1 : Shape := ⟨2, ![1, 1]⟩
abbrev S2000000x16 : Shape := ⟨2, ![2000000, 16]⟩
abbrev S150000x64 : Shape := ⟨2, ![150000, 64]⟩
abbrev S5000x16 : Shape := ⟨2, ![5000, 16]⟩
abbrev S5000x1 : Shape := ⟨2, ![5000, 1]⟩
abbrev S5000x64 : Shape := ⟨2, ![5000, 64]⟩
abbrev S2000000x64 : Shape := ⟨2, ![2000000, 64]⟩

abbrev nBuf : Space → Nat
  | .hbm => 213
  | .vmem => 65
  | .smem => 0
  | _ => 0

abbrev hbmTy0_0 (i : Nat) : BufTy := match i % 128 with
  | 0 => ⟨S2x2000000, .i32⟩
  | 1 => ⟨S100000x16, .f32⟩
  | 2 => ⟨S50000x16, .f32⟩
  | 3 => ⟨S16x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64, .f32⟩
  | 10 => ⟨S64, .f32⟩
  | 11 => ⟨S64, .f32⟩
  | 12 => ⟨S64, .f32⟩
  | 13 => ⟨S32x64, .f32⟩
  | 14 => ⟨S64, .f32⟩
  | 15 => ⟨S64x1, .f32⟩
  | 16 => ⟨S1, .f32⟩
  | 17 => ⟨S1x2000000, .i32⟩
  | 18 => ⟨S2000000, .i32⟩
  | 19 => ⟨S1x2000000, .i32⟩
  | 20 => ⟨S2000000, .i32⟩
  | 21 => ⟨S150000x16, .f32⟩
  | 22 => ⟨S_, .f32⟩
  | 23 => ⟨S2000000, .f32⟩
  | 24 => ⟨S_, .f32⟩
  | 25 => ⟨S150000, .f32⟩
  | 26 => ⟨S2000000x1, .i32⟩
  | 27 => ⟨S150000, .f32⟩
  | 28 => ⟨S_, .f32⟩
  | 29 => ⟨S150000, .f32⟩
  | 30 => ⟨S150000, .f32⟩
  | 31 => ⟨S150000, .f32⟩
  | 32 => ⟨S150000x1, .f32⟩
  | 33 => ⟨S1x64, .f32⟩
  | 34 => ⟨S1x64, .f32⟩
  | 35 => ⟨S1x64, .f32⟩
  | 36 => ⟨S1x64, .f32⟩
  | 37 => ⟨S1x64, .f32⟩
  | 38 => ⟨S1x64, .f32⟩
  | 39 => ⟨S1x64, .f32⟩
  | 40 => ⟨S150000x16, .f32⟩
  | 41 => ⟨S150000x16, .f32⟩
  | 42 => ⟨S_, .i32⟩
  | 43 => ⟨S2000000, .i32⟩
  | 44 => ⟨S2000000, .i1⟩
  | 45 => ⟨S_, .i32⟩
  | 46 => ⟨S2000000, .i32⟩
  | 47 => ⟨S2000000, .i32⟩
  | 48 => ⟨S2000000, .i32⟩
  | 49 => ⟨S2000000x1, .i32⟩
  | 50 => ⟨S1, .i32⟩
  | 51 => ⟨S_, .i32⟩
  | 52 => ⟨S2000000x1, .i32⟩
  | 53 => ⟨S2000000x1, .i1⟩
  | 54 => ⟨S1x1, .i32⟩
  | 55 => ⟨S2000000x1, .i32⟩
  | 56 => ⟨S2000000x1, .i1⟩
  | 57 => ⟨S2000000x1, .i1⟩
  | 58 => ⟨S_, .i1⟩
  | 59 => ⟨S2000000, .i1⟩
  | 60 => ⟨S2000000x16, .f32⟩
  | 61 => ⟨S2000000x16, .i1⟩
  | 62 => ⟨S_, .f32⟩
  | 63 => ⟨S2000000x16, .f32⟩
  | 64 => ⟨S2000000x16, .f32⟩
  | 65 => ⟨S_, .f32⟩
  | 66 => ⟨S150000x16, .f32⟩
  | 67 => ⟨S2000000x1, .i32⟩
  | 68 => ⟨S150000x16, .f32⟩
  | 69 => ⟨S150000x64, .f32⟩
  | 70 => ⟨S_, .f32⟩
  | 71 => ⟨S64, .f32⟩
  | 72 => ⟨S1x64, .f32⟩
  | 73 => ⟨S_, .f32⟩
  | 74 => ⟨S1x64, .f32⟩
  | 75 => ⟨S1x64, .f32⟩
  | 76 => ⟨S150000x64, .f32⟩
  | 77 => ⟨S150000x64, .f32⟩
  | 78 => ⟨S150000x64, .f32⟩
  | 79 => ⟨S_, .f32⟩
  | 80 => ⟨S64, .f32⟩
  | 81 => ⟨S1x64, .f32⟩
  | 82 => ⟨S_, .f32⟩
  | 83 => ⟨S1x64, .f32⟩
  | 84 => ⟨S1x64, .f32⟩
  | 85 => ⟨S150000x64, .f32⟩
  | 86 => ⟨S_, .i32⟩
  | 87 => ⟨S2000000, .i32⟩
  | 88 => ⟨S2000000, .i1⟩
  | 89 => ⟨S_, .i32⟩
  | 90 => ⟨S2000000, .i32⟩
  | 91 => ⟨S2000000, .i32⟩
  | 92 => ⟨S2000000, .i32⟩
  | 93 => ⟨S2000000x1, .i32⟩
  | 94 => ⟨S1, .i32⟩
  | 95 => ⟨S_, .i32⟩
  | 96 => ⟨S2000000x1, .i32⟩
  | 97 => ⟨S2000000x1, .i1⟩
  | 98 => ⟨S1x1, .i32⟩
  | 99 => ⟨S2000000x1, .i32⟩
  | 100 => ⟨S2000000x1, .i1⟩
  | 101 => ⟨S2000000x1, .i1⟩
  | 102 => ⟨S_, .i1⟩
  | 103 => ⟨S2000000, .i1⟩
  | 104 => ⟨S2000000x64, .f32⟩
  | 105 => ⟨S2000000x64, .i1⟩
  | 106 => ⟨S_, .f32⟩
  | 107 => ⟨S2000000x64, .f32⟩
  | 108 => ⟨S2000000x64, .f32⟩
  | 109 => ⟨S_, .f32⟩
  | 110 => ⟨S150000x64, .f32⟩
  | 111 => ⟨S2000000x1, .i32⟩
  | 112 => ⟨S150000x64, .f32⟩
  | 113 => ⟨S150000x64, .f32⟩
  | 114 => ⟨S_, .f32⟩
  | 115 => ⟨S64, .f32⟩
  | 116 => ⟨S1x64, .f32⟩
  | 117 => ⟨S_, .f32⟩
  | 118 => ⟨S1x64, .f32⟩
  | 119 => ⟨S1x64, .f32⟩
  | 120 => ⟨S150000x64, .f32⟩
  | 121 => ⟨S150000x64, .f32⟩
  | 122 => ⟨S150000x64, .f32⟩
  | 123 => ⟨S_, .f32⟩
  | 124 => ⟨S64, .f32⟩
  | 125 => ⟨S1x64, .f32⟩
  | 126 => ⟨S_, .f32⟩
  | 127 => ⟨S1x64, .f32⟩
  | _ => ⟨S2x2000000, .i32⟩

abbrev hbmTy0_1 (i : Nat) : BufTy := match i % 128 with
  | 0 => ⟨S1x64, .f32⟩
  | 1 => ⟨S150000x64, .f32⟩
  | 2 => ⟨S_, .i32⟩
  | 3 => ⟨S2000000, .i32⟩
  | 4 => ⟨S2000000, .i1⟩
  | 5 => ⟨S_, .i32⟩
  | 6 => ⟨S2000000, .i32⟩
  | 7 => ⟨S2000000, .i32⟩
  | 8 => ⟨S2000000, .i32⟩
  | 9 => ⟨S2000000x1, .i32⟩
  | 10 => ⟨S1, .i32⟩
  | 11 => ⟨S_, .i32⟩
  | 12 => ⟨S2000000x1, .i32⟩
  | 13 => ⟨S2000000x1, .i1⟩
  | 14 => ⟨S1x1, .i32⟩
  | 15 => ⟨S2000000x1, .i32⟩
  | 16 => ⟨S2000000x1, .i1⟩
  | 17 => ⟨S2000000x1, .i1⟩
  | 18 => ⟨S_, .i1⟩
  | 19 => ⟨S2000000, .i1⟩
  | 20 => ⟨S2000000x64, .f32⟩
  | 21 => ⟨S2000000x64, .i1⟩
  | 22 => ⟨S_, .f32⟩
  | 23 => ⟨S2000000x64, .f32⟩
  | 24 => ⟨S2000000x64, .f32⟩
  | 25 => ⟨S_, .f32⟩
  | 26 => ⟨S150000x64, .f32⟩
  | 27 => ⟨S2000000x1, .i32⟩
  | 28 => ⟨S150000x64, .f32⟩
  | 29 => ⟨S150000x64, .f32⟩
  | 30 => ⟨S150000x64, .f32⟩
  | 31 => ⟨S_, .i32⟩
  | 32 => ⟨S2000000, .i32⟩
  | 33 => ⟨S2000000, .i1⟩
  | 34 => ⟨S_, .i32⟩
  | 35 => ⟨S2000000, .i32⟩
  | 36 => ⟨S2000000, .i32⟩
  | 37 => ⟨S2000000, .i32⟩
  | 38 => ⟨S2000000x1, .i32⟩
  | 39 => ⟨S1, .i32⟩
  | 40 => ⟨S_, .i32⟩
  | 41 => ⟨S2000000x1, .i32⟩
  | 42 => ⟨S2000000x1, .i1⟩
  | 43 => ⟨S1x1, .i32⟩
  | 44 => ⟨S2000000x1, .i32⟩
  | 45 => ⟨S2000000x1, .i1⟩
  | 46 => ⟨S2000000x1, .i1⟩
  | 47 => ⟨S_, .i1⟩
  | 48 => ⟨S2000000, .i1⟩
  | 49 => ⟨S2000000x16, .f32⟩
  | 50 => ⟨S2000000x16, .i1⟩
  | 51 => ⟨S_, .f32⟩
  | 52 => ⟨S2000000x16, .f32⟩
  | 53 => ⟨S2000000x16, .f32⟩
  | 54 => ⟨S_, .i32⟩
  | 55 => ⟨S2000000, .i32⟩
  | 56 => ⟨S2000000, .i32⟩
  | 57 => ⟨S_, .i32⟩
  | 58 => ⟨S2000000, .i32⟩
  | 59 => ⟨S2000000, .i1⟩
  | 60 => ⟨S_, .i32⟩
  | 61 => ⟨S2000000, .i32⟩
  | 62 => ⟨S2000000, .i32⟩
  | 63 => ⟨S2000000, .i32⟩
  | 64 => ⟨S2000000x1, .i32⟩
  | 65 => ⟨S1, .i32⟩
  | 66 => ⟨S_, .i32⟩
  | 67 => ⟨S2000000x1, .i32⟩
  | 68 => ⟨S2000000x1, .i1⟩
  | 69 => ⟨S1x1, .i32⟩
  | 70 => ⟨S2000000x1, .i32⟩
  | 71 => ⟨S2000000x1, .i1⟩
  | 72 => ⟨S2000000x1, .i1⟩
  | 73 => ⟨S_, .i1⟩
  | 74 => ⟨S2000000, .i1⟩
  | 75 => ⟨S2000000x16, .f32⟩
  | 76 => ⟨S2000000x16, .i1⟩
  | 77 => ⟨S_, .f32⟩
  | 78 => ⟨S2000000x16, .f32⟩
  | 79 => ⟨S2000000x16, .f32⟩
  | 80 => ⟨S16x64, .f32⟩
  | 81 => ⟨S16x64, .f32⟩
  | 82 => ⟨S1x64, .f32⟩
  | 83 => ⟨S1x1, .f32⟩
  | 84 => ⟨S2000000x1, .f32⟩
  | _ => ⟨S2x2000000, .i32⟩

abbrev hbmTy (i : Nat) : BufTy := match i / 128 with
  | 0 => hbmTy0_0 i
  | 1 => hbmTy0_1 i
  | _ => ⟨S2x2000000, .i32⟩

abbrev bufTy : (tb : Table) → Fin (tcTables nBuf tb) → BufTy
  | .hbm, ⟨i, _⟩ => hbmTy i
  | .local _ .vmem, ⟨0, _⟩ => ⟨S5000x16, .f32⟩
  | .local _ .vmem, ⟨1, _⟩ => ⟨S5000x16, .f32⟩
  | .local _ .vmem, ⟨2, _⟩ => ⟨S5000x16, .f32⟩
  | .local _ .vmem, ⟨3, _⟩ => ⟨S5000x16, .f32⟩
  | .local _ .vmem, ⟨4, _⟩ => ⟨S5000x1, .f32⟩
  | .local _ .vmem, ⟨5, _⟩ => ⟨S5000x1, .f32⟩
  | .local _ .vmem, ⟨6, _⟩ => ⟨S16x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S64x64, .f32⟩
  | .local _ .vmem, ⟨17, _⟩ => ⟨S5000x1, .f32⟩
  | .local _ .vmem, ⟨18, _⟩ => ⟨S5000x1, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x1, .f32⟩
  | .local _ .vmem, ⟨26, _⟩ => ⟨S5000x1, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S1x64, .f32⟩
  | .local _ .vmem, ⟨33, _⟩ => ⟨S1x64, .f32⟩
  | .local _ .vmem, ⟨34, _⟩ => ⟨S1x64, .f32⟩
  | .local _ .vmem, ⟨35, _⟩ => ⟨S1x64, .f32⟩
  | .local _ .vmem, ⟨36, _⟩ => ⟨S64x64, .f32⟩
  | .local _ .vmem, ⟨37, _⟩ => ⟨S5000x1, .f32⟩
  | .local _ .vmem, ⟨38, _⟩ => ⟨S5000x1, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x1, .f32⟩
  | .local _ .vmem, ⟨46, _⟩ => ⟨S5000x1, .f32⟩
  | .local _ .vmem, ⟨47, _⟩ => ⟨S1x64, .f32⟩
  | .local _ .vmem, ⟨48, _⟩ => ⟨S5000x64, .f32⟩
  | .local _ .vmem, ⟨49, _⟩ => ⟨S5000x64, .f32⟩
  | .local _ .vmem, ⟨50, _⟩ => ⟨S5000x64, .f32⟩
  | .local _ .vmem, ⟨51, _⟩ => ⟨S5000x64, .f32⟩
  | .local _ .vmem, ⟨52, _⟩ => ⟨S5000x64, .f32⟩
  | .local _ .vmem, ⟨53, _⟩ => ⟨S5000x64, .f32⟩
  | .local _ .vmem, ⟨54, _⟩ => ⟨S5000x16, .f32⟩
  | .local _ .vmem, ⟨55, _⟩ => ⟨S5000x16, .f32⟩
  | .local _ .vmem, ⟨56, _⟩ => ⟨S5000x16, .f32⟩
  | .local _ .vmem, ⟨57, _⟩ => ⟨S5000x16, .f32⟩
  | .local _ .vmem, ⟨58, _⟩ => ⟨S16x64, .f32⟩
  | .local _ .vmem, ⟨59, _⟩ => ⟨S16x64, .f32⟩
  | .local _ .vmem, ⟨60, _⟩ => ⟨S1x64, .f32⟩
  | .local _ .vmem, ⟨61, _⟩ => ⟨S64x1, .f32⟩
  | .local _ .vmem, ⟨62, _⟩ => ⟨S1x1, .f32⟩
  | .local _ .vmem, ⟨63, _⟩ => ⟨S5000x1, .f32⟩
  | .local _ .vmem, ⟨64, _⟩ => ⟨S5000x1, .f32⟩
  | _, _ => ⟨S2x2000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 0 → Bool
  | ⟨_, h⟩ => absurd h (Nat.not_lt_zero _)

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  ofTc nBuf bufTy 0 65 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_cst_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst_1 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_call0_c : Ref sig .tc := ⟨.hbm, 42, rfl⟩
abbrev main_call0_v0 : Ref sig .tc := ⟨.hbm, 43, rfl⟩
abbrev main_call0_v1 : Ref sig .tc := ⟨.hbm, 44, rfl⟩
abbrev main_call0_c_0 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_c_1 : Ref sig .tc := ⟨.hbm, 50, rfl⟩
abbrev main_call0_c_2 : Ref sig .tc := ⟨.hbm, 51, rfl⟩
abbrev main_call0_v6 : Ref sig .tc := ⟨.hbm, 52, rfl⟩
abbrev main_call0_v7 : Ref sig .tc := ⟨.hbm, 53, rfl⟩
abbrev main_call0_v8 : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_c_3 : Ref sig .tc := ⟨.hbm, 58, rfl⟩
abbrev main_call0_v12 : Ref sig .tc := ⟨.hbm, 59, rfl⟩
abbrev main_call0_v13 : Ref sig .tc := ⟨.hbm, 60, rfl⟩
abbrev main_call0_v14 : Ref sig .tc := ⟨.hbm, 61, rfl⟩
abbrev main_call0_cst : Ref sig .tc := ⟨.hbm, 62, rfl⟩
abbrev main_call0_v15 : Ref sig .tc := ⟨.hbm, 63, rfl⟩
abbrev main_v22 : Ref sig .tc := ⟨.hbm, 64, rfl⟩
abbrev main_cst_2 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_cst_3 : Ref sig .tc := ⟨.hbm, 70, rfl⟩
abbrev main_v27 : Ref sig .tc := ⟨.hbm, 71, rfl⟩
abbrev main_v28 : Ref sig .tc := ⟨.hbm, 72, rfl⟩
abbrev main_cst_4 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_cst_5 : Ref sig .tc := ⟨.hbm, 79, rfl⟩
abbrev main_v34 : Ref sig .tc := ⟨.hbm, 80, rfl⟩
abbrev main_v35 : Ref sig .tc := ⟨.hbm, 81, rfl⟩
abbrev main_cst_6 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_call1_c : Ref sig .tc := ⟨.hbm, 86, rfl⟩
abbrev main_call1_v0 : Ref sig .tc := ⟨.hbm, 87, rfl⟩
abbrev main_call1_v1 : Ref sig .tc := ⟨.hbm, 88, rfl⟩
abbrev main_call1_c_0 : Ref sig .tc := ⟨.hbm, 89, rfl⟩
abbrev main_call1_v2 : Ref sig .tc := ⟨.hbm, 90, rfl⟩
abbrev main_call1_v3 : Ref sig .tc := ⟨.hbm, 91, rfl⟩
abbrev main_call1_v4 : Ref sig .tc := ⟨.hbm, 92, rfl⟩
abbrev main_call1_v5 : Ref sig .tc := ⟨.hbm, 93, rfl⟩
abbrev main_call1_c_1 : Ref sig .tc := ⟨.hbm, 94, rfl⟩
abbrev main_call1_c_2 : Ref sig .tc := ⟨.hbm, 95, rfl⟩
abbrev main_call1_v6 : Ref sig .tc := ⟨.hbm, 96, rfl⟩
abbrev main_call1_v7 : Ref sig .tc := ⟨.hbm, 97, rfl⟩
abbrev main_call1_v8 : Ref sig .tc := ⟨.hbm, 98, rfl⟩
abbrev main_call1_v9 : Ref sig .tc := ⟨.hbm, 99, rfl⟩
abbrev main_call1_v10 : Ref sig .tc := ⟨.hbm, 100, rfl⟩
abbrev main_call1_v11 : Ref sig .tc := ⟨.hbm, 101, rfl⟩
abbrev main_call1_c_3 : Ref sig .tc := ⟨.hbm, 102, rfl⟩
abbrev main_call1_v12 : Ref sig .tc := ⟨.hbm, 103, rfl⟩
abbrev main_call1_v13 : Ref sig .tc := ⟨.hbm, 104, rfl⟩
abbrev main_call1_v14 : Ref sig .tc := ⟨.hbm, 105, rfl⟩
abbrev main_call1_cst : Ref sig .tc := ⟨.hbm, 106, rfl⟩
abbrev main_call1_v15 : Ref sig .tc := ⟨.hbm, 107, rfl⟩
abbrev main_v39 : Ref sig .tc := ⟨.hbm, 108, rfl⟩
abbrev main_cst_7 : Ref sig .tc := ⟨.hbm, 109, rfl⟩
abbrev main_v40 : Ref sig .tc := ⟨.hbm, 110, rfl⟩
abbrev main_v41 : Ref sig .tc := ⟨.hbm, 111, rfl⟩
abbrev main_v42 : Ref sig .tc := ⟨.hbm, 112, rfl⟩
abbrev main_v43 : Ref sig .tc := ⟨.hbm, 113, rfl⟩
abbrev main_cst_8 : Ref sig .tc := ⟨.hbm, 114, rfl⟩
abbrev main_v44 : Ref sig .tc := ⟨.hbm, 115, rfl⟩
abbrev main_v45 : Ref sig .tc := ⟨.hbm, 116, rfl⟩
abbrev main_cst_9 : Ref sig .tc := ⟨.hbm, 117, rfl⟩
abbrev main_v46 : Ref sig .tc := ⟨.hbm, 118, rfl⟩
abbrev main_v47 : Ref sig .tc := ⟨.hbm, 119, rfl⟩
abbrev main_v48 : Ref sig .tc := ⟨.hbm, 120, rfl⟩
abbrev main_v49 : Ref sig .tc := ⟨.hbm, 121, rfl⟩
abbrev main_v50 : Ref sig .tc := ⟨.hbm, 122, rfl⟩
abbrev main_cst_10 : Ref sig .tc := ⟨.hbm, 123, rfl⟩
abbrev main_v51 : Ref sig .tc := ⟨.hbm, 124, rfl⟩
abbrev main_v52 : Ref sig .tc := ⟨.hbm, 125, rfl⟩
abbrev main_cst_11 : Ref sig .tc := ⟨.hbm, 126, rfl⟩
abbrev main_v53 : Ref sig .tc := ⟨.hbm, 127, rfl⟩
abbrev main_v54 : Ref sig .tc := ⟨.hbm, 128, rfl⟩
abbrev main_v55 : Ref sig .tc := ⟨.hbm, 129, rfl⟩
abbrev main_call2_c : Ref sig .tc := ⟨.hbm, 130, rfl⟩
abbrev main_call2_v0 : Ref sig .tc := ⟨.hbm, 131, rfl⟩
abbrev main_call2_v1 : Ref sig .tc := ⟨.hbm, 132, rfl⟩
abbrev main_call2_c_0 : Ref sig .tc := ⟨.hbm, 133, rfl⟩
abbrev main_call2_v2 : Ref sig .tc := ⟨.hbm, 134, rfl⟩
abbrev main_call2_v3 : Ref sig .tc := ⟨.hbm, 135, rfl⟩
abbrev main_call2_v4 : Ref sig .tc := ⟨.hbm, 136, rfl⟩
abbrev main_call2_v5 : Ref sig .tc := ⟨.hbm, 137, rfl⟩
abbrev main_call2_c_1 : Ref sig .tc := ⟨.hbm, 138, rfl⟩
abbrev main_call2_c_2 : Ref sig .tc := ⟨.hbm, 139, rfl⟩
abbrev main_call2_v6 : Ref sig .tc := ⟨.hbm, 140, rfl⟩
abbrev main_call2_v7 : Ref sig .tc := ⟨.hbm, 141, rfl⟩
abbrev main_call2_v8 : Ref sig .tc := ⟨.hbm, 142, rfl⟩
abbrev main_call2_v9 : Ref sig .tc := ⟨.hbm, 143, rfl⟩
abbrev main_call2_v10 : Ref sig .tc := ⟨.hbm, 144, rfl⟩
abbrev main_call2_v11 : Ref sig .tc := ⟨.hbm, 145, rfl⟩
abbrev main_call2_c_3 : Ref sig .tc := ⟨.hbm, 146, rfl⟩
abbrev main_call2_v12 : Ref sig .tc := ⟨.hbm, 147, rfl⟩
abbrev main_call2_v13 : Ref sig .tc := ⟨.hbm, 148, rfl⟩
abbrev main_call2_v14 : Ref sig .tc := ⟨.hbm, 149, rfl⟩
abbrev main_call2_cst : Ref sig .tc := ⟨.hbm, 150, rfl⟩
abbrev main_call2_v15 : Ref sig .tc := ⟨.hbm, 151, rfl⟩
abbrev main_v56 : Ref sig .tc := ⟨.hbm, 152, rfl⟩
abbrev main_cst_12 : Ref sig .tc := ⟨.hbm, 153, rfl⟩
abbrev main_v57 : Ref sig .tc := ⟨.hbm, 154, rfl⟩
abbrev main_v58 : Ref sig .tc := ⟨.hbm, 155, rfl⟩
abbrev main_v59 : Ref sig .tc := ⟨.hbm, 156, rfl⟩
abbrev main_v60 : Ref sig .tc := ⟨.hbm, 157, rfl⟩
abbrev main_v61 : Ref sig .tc := ⟨.hbm, 158, rfl⟩
abbrev main_call3_c : Ref sig .tc := ⟨.hbm, 159, rfl⟩
abbrev main_call3_v0 : Ref sig .tc := ⟨.hbm, 160, rfl⟩
abbrev main_call3_v1 : Ref sig .tc := ⟨.hbm, 161, rfl⟩
abbrev main_call3_c_0 : Ref sig .tc := ⟨.hbm, 162, rfl⟩
abbrev main_call3_v2 : Ref sig .tc := ⟨.hbm, 163, rfl⟩
abbrev main_call3_v3 : Ref sig .tc := ⟨.hbm, 164, rfl⟩
abbrev main_call3_v4 : Ref sig .tc := ⟨.hbm, 165, rfl⟩
abbrev main_call3_v5 : Ref sig .tc := ⟨.hbm, 166, rfl⟩
abbrev main_call3_c_1 : Ref sig .tc := ⟨.hbm, 167, rfl⟩
abbrev main_call3_c_2 : Ref sig .tc := ⟨.hbm, 168, rfl⟩
abbrev main_call3_v6 : Ref sig .tc := ⟨.hbm, 169, rfl⟩
abbrev main_call3_v7 : Ref sig .tc := ⟨.hbm, 170, rfl⟩
abbrev main_call3_v8 : Ref sig .tc := ⟨.hbm, 171, rfl⟩
abbrev main_call3_v9 : Ref sig .tc := ⟨.hbm, 172, rfl⟩
abbrev main_call3_v10 : Ref sig .tc := ⟨.hbm, 173, rfl⟩
abbrev main_call3_v11 : Ref sig .tc := ⟨.hbm, 174, rfl⟩
abbrev main_call3_c_3 : Ref sig .tc := ⟨.hbm, 175, rfl⟩
abbrev main_call3_v12 : Ref sig .tc := ⟨.hbm, 176, rfl⟩
abbrev main_call3_v13 : Ref sig .tc := ⟨.hbm, 177, rfl⟩
abbrev main_call3_v14 : Ref sig .tc := ⟨.hbm, 178, rfl⟩
abbrev main_call3_cst : Ref sig .tc := ⟨.hbm, 179, rfl⟩
abbrev main_call3_v15 : Ref sig .tc := ⟨.hbm, 180, rfl⟩
abbrev main_v62 : Ref sig .tc := ⟨.hbm, 181, rfl⟩
abbrev main_c : Ref sig .tc := ⟨.hbm, 182, rfl⟩
abbrev main_v63 : Ref sig .tc := ⟨.hbm, 183, rfl⟩
abbrev main_v64 : Ref sig .tc := ⟨.hbm, 184, rfl⟩
abbrev main_call4_c : Ref sig .tc := ⟨.hbm, 185, rfl⟩
abbrev main_call4_v0 : Ref sig .tc := ⟨.hbm, 186, rfl⟩
abbrev main_call4_v1 : Ref sig .tc := ⟨.hbm, 187, rfl⟩
abbrev main_call4_c_0 : Ref sig .tc := ⟨.hbm, 188, rfl⟩
abbrev main_call4_v2 : Ref sig .tc := ⟨.hbm, 189, rfl⟩
abbrev main_call4_v3 : Ref sig .tc := ⟨.hbm, 190, rfl⟩
abbrev main_call4_v4 : Ref sig .tc := ⟨.hbm, 191, rfl⟩
abbrev main_call4_v5 : Ref sig .tc := ⟨.hbm, 192, rfl⟩
abbrev main_call4_c_1 : Ref sig .tc := ⟨.hbm, 193, rfl⟩
abbrev main_call4_c_2 : Ref sig .tc := ⟨.hbm, 194, rfl⟩
abbrev main_call4_v6 : Ref sig .tc := ⟨.hbm, 195, rfl⟩
abbrev main_call4_v7 : Ref sig .tc := ⟨.hbm, 196, rfl⟩
abbrev main_call4_v8 : Ref sig .tc := ⟨.hbm, 197, rfl⟩
abbrev main_call4_v9 : Ref sig .tc := ⟨.hbm, 198, rfl⟩
abbrev main_call4_v10 : Ref sig .tc := ⟨.hbm, 199, rfl⟩
abbrev main_call4_v11 : Ref sig .tc := ⟨.hbm, 200, rfl⟩
abbrev main_call4_c_3 : Ref sig .tc := ⟨.hbm, 201, rfl⟩
abbrev main_call4_v12 : Ref sig .tc := ⟨.hbm, 202, rfl⟩
abbrev main_call4_v13 : Ref sig .tc := ⟨.hbm, 203, rfl⟩
abbrev main_call4_v14 : Ref sig .tc := ⟨.hbm, 204, rfl⟩
abbrev main_call4_cst : Ref sig .tc := ⟨.hbm, 205, rfl⟩
abbrev main_call4_v15 : Ref sig .tc := ⟨.hbm, 206, rfl⟩
abbrev main_v65 : Ref sig .tc := ⟨.hbm, 207, rfl⟩
abbrev main_v66 : Ref sig .tc := ⟨.hbm, 208, rfl⟩
abbrev main_v67 : Ref sig .tc := ⟨.hbm, 209, rfl⟩
abbrev main_v68 : Ref sig .tc := ⟨.hbm, 210, rfl⟩
abbrev main_v69 : Ref sig .tc := ⟨.hbm, 211, rfl⟩
abbrev main_v70 : Ref sig .tc := ⟨.hbm, 212, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg4_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg6_1 : Ref sig .tc := ⟨.vmem, 38, rfl⟩
abbrev cc3_stg7_0 : Ref sig .tc := ⟨.vmem, 39, rfl⟩
abbrev cc3_stg7_1 : Ref sig .tc := ⟨.vmem, 40, rfl⟩
abbrev cc4_stg0_0 : Ref sig .tc := ⟨.vmem, 41, rfl⟩
abbrev cc4_stg0_1 : Ref sig .tc := ⟨.vmem, 42, rfl⟩
abbrev cc4_stg1_0 : Ref sig .tc := ⟨.vmem, 43, rfl⟩
abbrev cc4_stg1_1 : Ref sig .tc := ⟨.vmem, 44, rfl⟩
abbrev cc4_stg2_0 : Ref sig .tc := ⟨.vmem, 45, rfl⟩
abbrev cc4_stg2_1 : Ref sig .tc := ⟨.vmem, 46, rfl⟩
abbrev cc4_stg3_0 : Ref sig .tc := ⟨.vmem, 47, rfl⟩
abbrev cc4_stg4_0 : Ref sig .tc := ⟨.vmem, 48, rfl⟩
abbrev cc4_stg4_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg1_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg1_1 : Ref sig .tc := ⟨.vmem, 57, rfl⟩
abbrev cc6_stg2_0 : Ref sig .tc := ⟨.vmem, 58, rfl⟩
abbrev cc6_stg3_0 : Ref sig .tc := ⟨.vmem, 59, rfl⟩
abbrev cc6_stg4_0 : Ref sig .tc := ⟨.vmem, 60, rfl⟩
abbrev cc6_stg5_0 : Ref sig .tc := ⟨.vmem, 61, rfl⟩
abbrev cc6_stg6_0 : Ref sig .tc := ⟨.vmem, 62, rfl⟩
abbrev cc6_stg7_0 : Ref sig .tc := ⟨.vmem, 63, rfl⟩
abbrev cc6_stg7_1 : Ref sig .tc := ⟨.vmem, 64, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18
abbrev cc1_sem7_0 : DmaSem sig := 19
abbrev cc1_sem7_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem4_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem6_1 : DmaSem sig := 38
abbrev cc3_sem7_0 : DmaSem sig := 39
abbrev cc3_sem7_1 : DmaSem sig := 40
abbrev cc4_sem0_0 : DmaSem sig := 41
abbrev cc4_sem0_1 : DmaSem sig := 42
abbrev cc4_sem1_0 : DmaSem sig := 43
abbrev cc4_sem1_1 : DmaSem sig := 44
abbrev cc4_sem2_0 : DmaSem sig := 45
abbrev cc4_sem2_1 : DmaSem sig := 46
abbrev cc4_sem3_0 : DmaSem sig := 47
abbrev cc4_sem4_0 : DmaSem sig := 48
abbrev cc4_sem4_1 : DmaSem sig := 49
abbrev cc5_sem0_0 : DmaSem sig := 50
abbrev cc5_sem0_1 : DmaSem sig := 51
abbrev cc5_sem1_0 : DmaSem sig := 52
abbrev cc5_sem1_1 : DmaSem sig := 53
abbrev cc6_sem0_0 : DmaSem sig := 54
abbrev cc6_sem0_1 : DmaSem sig := 55
abbrev cc6_sem1_0 : DmaSem sig := 56
abbrev cc6_sem1_1 : DmaSem sig := 57
abbrev cc6_sem2_0 : DmaSem sig := 58
abbrev cc6_sem3_0 : DmaSem sig := 59
abbrev cc6_sem4_0 : DmaSem sig := 60
abbrev cc6_sem5_0 : DmaSem sig := 61
abbrev cc6_sem6_0 : DmaSem sig := 62
abbrev cc6_sem7_0 : DmaSem sig := 63
abbrev cc6_sem7_1 : DmaSem sig := 64

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![30], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![30], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![30], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x1 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S5000x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![30], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![30], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev grid6 : Pipeline.Grid := ⟨1, ![400], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x16 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x16 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S16x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S16x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S64x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x1 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S5000x1 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  concatenates_S100000x16_S50000x16_S150000x16_d0 : Shape.Concatenates [S100000x16, S50000x16] S150000x16 0
  bcast_S_S2000000 : S_.BroadcastsInDim S2000000 (![] : Fin 0 → Fin S2000000.rank)
  bcast_S_S150000 : S_.BroadcastsInDim S150000 (![] : Fin 0 → Fin S150000.rank)
  bcast_S2000000_S2000000x1_0 : S2000000.BroadcastsInDim S2000000x1 (![0] : Fin 1 → Fin S2000000x1.rank)
  shapeCasts_S150000_S150000x1 : S150000.ShapeCasts S150000x1
  shapeCasts_S64_S1x64 : S64.ShapeCasts S1x64
  bcast_S150000x1_S150000x16_0_1 : S150000x1.BroadcastsInDim S150000x16 (![0, 1] : Fin 2 → Fin S150000x16.rank)
  bcast_S_S2000000x1 : S_.BroadcastsInDim S2000000x1 (![] : Fin 0 → Fin S2000000x1.rank)
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  reducesTo_S2000000x1_S2000000_d1 : S2000000x1.ReducesTo [1] S2000000
  h_S_ : 0 < S_.numel
  bcast_S2000000_S2000000x16_0 : S2000000.BroadcastsInDim S2000000x16 (![0] : Fin 1 → Fin S2000000x16.rank)
  bcast_S_S2000000x16 : S_.BroadcastsInDim S2000000x16 (![] : Fin 0 → Fin S2000000x16.rank)
  bcast_S_S150000x16 : S_.BroadcastsInDim S150000x16 (![] : Fin 0 → Fin S150000x16.rank)
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x16 : S5000x1.Broadcasts S5000x16
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  reducesTo_S150000x64_S64_d0 : S150000x64.ReducesTo [0] S64
  bcast_S64_S1x64_1 : S64.BroadcastsInDim S1x64 (![1] : Fin 1 → Fin S1x64.rank)
  bcast_S_S1x64 : S_.BroadcastsInDim S1x64 (![] : Fin 0 → Fin S1x64.rank)
  bcast_S1x64_S150000x64_0_1 : S1x64.BroadcastsInDim S150000x64 (![0, 1] : Fin 2 → Fin S150000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  broadcasts_S5000x1_S5000x64 : S5000x1.Broadcasts S5000x64
  bcast_S2000000_S2000000x64_0 : S2000000.BroadcastsInDim S2000000x64 (![0] : Fin 1 → Fin S2000000x64.rank)
  bcast_S_S2000000x64 : S_.BroadcastsInDim S2000000x64 (![] : Fin 0 → Fin S2000000x64.rank)
  bcast_S_S150000x64 : S_.BroadcastsInDim S150000x64 (![] : Fin 0 → Fin S150000x64.rank)
  slices_S32x64_S16x64_0_0 : S32x64.Slices ![0, 0] S16x64
  slices_S32x64_S16x64_16_0 : S32x64.Slices ![16, 0] S16x64
  shapeCasts_S1_S1x1 : S1.ShapeCasts S1x1
  shapeCasts_S16x64_S16x64 : S16x64.ShapeCasts S16x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S150000_S2000000x1_S2000000_n_0_0_1_wf : ScatterDims.WF S150000 S2000000x1 S2000000 [] [0] [0] 1
  gather_S150000x16_S2000000x1_S2000000x16_1_0_n_n_0_1_116_wf : GatherDims.WF S150000x16 S2000000x1 S2000000x16 [1] [0] [] [0] [] 1 ![1, 16]
  scatter_S150000x16_S2000000x1_S2000000x16_1_0_0_1_wf : ScatterDims.WF S150000x16 S2000000x1 S2000000x16 [1] [0] [0] 1
  dot_S5000x16_S16x64_S5000x64_1_0_0_1_n_n_wf : DotDims.WF S5000x16 S16x64 S5000x64 [1] [0] [0] [1] [] []
  dot_S5000x64_S64x64_S5000x64_1_0_0_1_n_n_wf : DotDims.WF S5000x64 S64x64 S5000x64 [1] [0] [0] [1] [] []
  gather_S150000x64_S2000000x1_S2000000x64_1_0_n_n_0_1_164_wf : GatherDims.WF S150000x64 S2000000x1 S2000000x64 [1] [0] [] [0] [] 1 ![1, 64]
  scatter_S150000x64_S2000000x1_S2000000x64_1_0_0_1_wf : ScatterDims.WF S150000x64 S2000000x1 S2000000x64 [1] [0] [0] 1
  gather_S100000x16_S2000000x1_S2000000x16_1_0_n_n_0_1_116_wf : GatherDims.WF S100000x16 S2000000x1 S2000000x16 [1] [0] [] [0] [] 1 ![1, 16]
  gather_S50000x16_S2000000x1_S2000000x16_1_0_n_n_0_1_116_wf : GatherDims.WF S50000x16 S2000000x1 S2000000x16 [1] [0] [] [0] [] 1 ![1, 16]
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S150000x16.size a
  hwx0_0 : ∀ i : grid0.Coords, EltTy.bits .f32 = 32 ∨ (Rect.block (s := S150000x16) S5000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x16.size a ≤ S150000x16.size a
  hwx0_1 : ∀ i : grid0.Coords, EltTy.bits .f32 = 32 ∨ (Rect.block (s := S150000x16) S5000x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S150000x1.size a
  hwx0_2 : ∀ i : grid0.Coords, EltTy.bits .f32 = 32 ∨ (Rect.block (s := S150000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x64.size a ≤ S16x64.size a
  hwx0_3 : ∀ i : grid0.Coords, EltTy.bits .f32 = 32 ∨ (Rect.block (s := S16x64) S16x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S150000x64.size a
  hwx0_5 : ∀ i : grid0.Coords, EltTy.bits .f32 = 32 ∨ (Rect.block (s := S150000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S150000x64.size a
  hwx1_0 : ∀ i : grid1.Coords, EltTy.bits .f32 = 32 ∨ (Rect.block (s := S150000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x1.size a ≤ S150000x1.size a
  hwx1_6 : ∀ i : grid1.Coords, EltTy.bits .f32 = 32 ∨ (Rect.block (s := S150000x1) S5000x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S150000x64.size a
  hwx1_7 : ∀ i : grid1.Coords, EltTy.bits .f32 = 32 ∨ (Rect.block (s := S150000x64) S5000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S150000x64.size a
  hwx2_0 : ∀ i : grid2.Coords, EltTy.bits .f32 = 32 ∨ (Rect.block (s := S150000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S150000x64.size a
  hwx2_1 : ∀ i : grid2.Coords, EltTy.bits .f32 = 32 ∨ (Rect.block (s := S150000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S150000x1.size a
  hwx2_2 : ∀ i : grid2.Coords, EltTy.bits .f32 = 32 ∨ (Rect.block (s := S150000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S150000x64.size a
  hwx2_4 : ∀ i : grid2.Coords, EltTy.bits .f32 = 32 ∨ (Rect.block (s := S150000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S150000x64.size a
  hwx3_0 : ∀ i : grid3.Coords, EltTy.bits .f32 = 32 ∨ (Rect.block (s := S150000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x1.size a ≤ S150000x1.size a
  hwx3_6 : ∀ i : grid3.Coords, EltTy.bits .f32 = 32 ∨ (Rect.block (s := S150000x1) S5000x1.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x64.size a ≤ S150000x64.size a
  hwx3_7 : ∀ i : grid3.Coords, EltTy.bits .f32 = 32 ∨ (Rect.block (s := S150000x64) S5000x64.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S150000x64.size a
  hwx4_0 : ∀ i : grid4.Coords, EltTy.bits .f32 = 32 ∨ (Rect.block (s := S150000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S150000x64.size a
  hwx4_1 : ∀ i : grid4.Coords, EltTy.bits .f32 = 32 ∨ (Rect.block (s := S150000x64) S5000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S150000x1.size a
  hwx4_2 : ∀ i : grid4.Coords, EltTy.bits .f32 = 32 ∨ (Rect.block (s := S150000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S150000x64.size a
  hwx4_4 : ∀ i : grid4.Coords, EltTy.bits .f32 = 32 ∨ (Rect.block (s := S150000x64) S5000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S150000x64.size a
  hwx5_0 : ∀ i : grid5.Coords, EltTy.bits .f32 = 32 ∨ (Rect.block (s := S150000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S150000x64.size a
  hwx5_1 : ∀ i : grid5.Coords, EltTy.bits .f32 = 32 ∨ (Rect.block (s := S150000x64) S5000x64.size (cc5_transform_1 i) (hinb5_1 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x16.size a ≤ S2000000x16.size a
  hwx6_0 : ∀ i : grid6.Coords, EltTy.bits .f32 = 32 ∨ (Rect.block (s := S2000000x16) S5000x16.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x16.size a ≤ S2000000x16.size a
  hwx6_1 : ∀ i : grid6.Coords, EltTy.bits .f32 = 32 ∨ (Rect.block (s := S2000000x16) S5000x16.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S16x64.size a ≤ S16x64.size a
  hwx6_2 : ∀ i : grid6.Coords, EltTy.bits .f32 = 32 ∨ (Rect.block (s := S16x64) S16x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S16x64.size a ≤ S16x64.size a
  hwx6_3 : ∀ i : grid6.Coords, EltTy.bits .f32 = 32 ∨ (Rect.block (s := S16x64) S16x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S64x1.size a ≤ S64x1.size a
  hwx6_5 : ∀ i : grid6.Coords, EltTy.bits .f32 = 32 ∨ (Rect.block (s := S64x1) S64x1.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x1.size a ≤ S1x1.size a
  hwx6_6 : ∀ i : grid6.Coords, EltTy.bits .f32 = 32 ∨ (Rect.block (s := S1x1) S1x1.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S5000x1.size a ≤ S2000000x1.size a
  hwx6_7 : ∀ i : grid6.Coords, EltTy.bits .f32 = 32 ∨ (Rect.block (s := S2000000x1) S5000x1.size (cc6_transform_7 i) (hinb6_7 i)).WholeWords (EltTy.packing .f32)

variable [Facts₀]

def scatter_S150000_S2000000x1_S2000000_n_0_0_1 : ScatterDims S150000 S2000000x1 S2000000 where
  updateWindowDims := []
  insertedWindowDims := [0]
  scatterDimsToOperandDims := [0]
  indexVectorDim := 1
  wf := scatter_S150000_S2000000x1_S2000000_n_0_0_1_wf
def gather_S150000x16_S2000000x1_S2000000x16_1_0_n_n_0_1_116 : GatherDims S150000x16 S2000000x1 S2000000x16 where
  offsetDims := [1]
  collapsedSliceDims := [0]
  operandBatchingDims := []
  startIndicesBatchingDims := []
  startIndexMap := [0]
  indexVectorDim := 1
  sliceSizes := ![1, 16]
  wf := gather_S150000x16_S2000000x1_S2000000x16_1_0_n_n_0_1_116_wf
def scatter_S150000x16_S2000000x1_S2000000x16_1_0_0_1 : ScatterDims S150000x16 S2000000x1 S2000000x16 where
  updateWindowDims := [1]
  insertedWindowDims := [0]
  scatterDimsToOperandDims := [0]
  indexVectorDim := 1
  wf := scatter_S150000x16_S2000000x1_S2000000x16_1_0_0_1_wf
def dot_S5000x16_S16x64_S5000x64_1_0_0_1_n_n : DotDims S5000x16 S16x64 S5000x64 where
  lhsContracting := [1]
  rhsContracting := [0]
  lhsNonContracting := [0]
  rhsNonContracting := [1]
  lhsBatch := []
  rhsBatch := []
  wf := dot_S5000x16_S16x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def scatter_S150000x64_S2000000x1_S2000000x64_1_0_0_1 : ScatterDims S150000x64 S2000000x1 S2000000x64 where
  updateWindowDims := [1]
  insertedWindowDims := [0]
  scatterDimsToOperandDims := [0]
  indexVectorDim := 1
  wf := scatter_S150000x64_S2000000x1_S2000000x64_1_0_0_1_wf
def gather_S100000x16_S2000000x1_S2000000x16_1_0_n_n_0_1_116 : GatherDims S100000x16 S2000000x1 S2000000x16 where
  offsetDims := [1]
  collapsedSliceDims := [0]
  operandBatchingDims := []
  startIndicesBatchingDims := []
  startIndexMap := [0]
  indexVectorDim := 1
  sliceSizes := ![1, 16]
  wf := gather_S100000x16_S2000000x1_S2000000x16_1_0_n_n_0_1_116_wf
def gather_S50000x16_S2000000x1_S2000000x16_1_0_n_n_0_1_116 : GatherDims S50000x16 S2000000x1 S2000000x16 where
  offsetDims := [1]
  collapsedSliceDims := [0]
  operandBatchingDims := []
  startIndicesBatchingDims := []
  startIndexMap := [0]
  indexVectorDim := 1
  sliceSizes := ![1, 16]
  wf := gather_S50000x16_S2000000x1_S2000000x16_1_0_n_n_0_1_116_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_v25) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S5000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v26) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v37) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v12) S5000x1.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v38) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v42) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v14) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v43) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v47) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v54) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v18) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v19) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg7) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v12) S5000x1.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_v55) S5000x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v59) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v55) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v12) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v15) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v60) S5000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v60) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v61) S5000x64.size cc5_transform_1 reads5_1 true false 2 stage5_1 sem5_1
    hrank5 hreads5_1 hinb5_1 nbuf5_1 (Memref.isWhole_whole _) hwx5_1 hstage5_1

abbrev win5 : Fin 2 → Pipeline.Window sig grid5 := fun | 0 => win5_0 | 1 => win5_1 | ⟨_ + 2, h⟩ => absurd h (Nat.not_lt.2 (Nat.le_add_left _ _))
abbrev spec5 : Fin 2 → Pipeline.WinSpec sig grid5.rank := fun w => (win5 w).toWinSpec

abbrev win6_0 : Pipeline.Window sig grid6 :=
  Pipeline.Window.ofSpec (Memref.whole main_v62) S5000x16.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v65) S5000x16.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v66) S16x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v67) S16x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v68) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg15) S64x1.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v69) S1x1.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v70) S5000x1.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

class Facts : Prop extends Facts₀ where

variable [Facts]
-- ==== ReferenceIdeal.lean ====
abbrev S2x2000000 : Shape := ⟨2, ![2, 2000000]⟩
abbrev S100000x16 : Shape := ⟨2, ![100000, 16]⟩
abbrev S50000x16 : Shape := ⟨2, ![50000, 16]⟩
abbrev S16x64 : Shape := ⟨2, ![16, 64]⟩
abbrev S64 : Shape := ⟨1, ![64]⟩
abbrev S64x64 : Shape := ⟨2, ![64, 64]⟩
abbrev S32x64 : Shape := ⟨2, ![32, 64]⟩
abbrev S64x1 : Shape := ⟨2, ![64, 1]⟩
abbrev S1 : Shape := ⟨1, ![1]⟩
abbrev S1x2000000 : Shape := ⟨2, ![1, 2000000]⟩
abbrev S2000000 : Shape := ⟨1, ![2000000]⟩
abbrev S150000x16 : Shape := ⟨2, ![150000, 16]⟩
abbrev S150000x64 : Shape := ⟨2, ![150000, 64]⟩
abbrev S_ : Shape := ⟨0, ![]⟩
abbrev S150000 : Shape := ⟨1, ![150000]⟩
abbrev S2000000x1 : Shape := ⟨2, ![2000000, 1]⟩
abbrev S2000000x64 : Shape := ⟨2, ![2000000, 64]⟩
abbrev S150000x1 : Shape := ⟨2, ![150000, 1]⟩
abbrev S1x64 : Shape := ⟨2, ![1, 64]⟩
abbrev S2000000x16 : Shape := ⟨2, ![2000000, 16]⟩
abbrev S2000000x32 : Shape := ⟨2, ![2000000, 32]⟩
abbrev S1x1 : Shape := ⟨2, ![1, 1]⟩

abbrev nBuf : Space → Nat
  | .hbm => 294
  | .vmem => 0
  | .smem => 0
  | _ => 0

abbrev hbmTy0_0 (i : Nat) : BufTy := match i % 128 with
  | 0 => ⟨S2x2000000, .i32⟩
  | 1 => ⟨S100000x16, .f32⟩
  | 2 => ⟨S50000x16, .f32⟩
  | 3 => ⟨S16x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64, .f32⟩
  | 10 => ⟨S64, .f32⟩
  | 11 => ⟨S64, .f32⟩
  | 12 => ⟨S64, .f32⟩
  | 13 => ⟨S32x64, .f32⟩
  | 14 => ⟨S64, .f32⟩
  | 15 => ⟨S64x1, .f32⟩
  | 16 => ⟨S1, .f32⟩
  | 17 => ⟨S1x2000000, .i32⟩
  | 18 => ⟨S2000000, .i32⟩
  | 19 => ⟨S1x2000000, .i32⟩
  | 20 => ⟨S2000000, .i32⟩
  | 21 => ⟨S150000x16, .f32⟩
  | 22 => ⟨S150000x64, .f32⟩
  | 23 => ⟨S_, .f32⟩
  | 24 => ⟨S2000000, .f32⟩
  | 25 => ⟨S_, .f32⟩
  | 26 => ⟨S150000, .f32⟩
  | 27 => ⟨S2000000x1, .i32⟩
  | 28 => ⟨S150000, .f32⟩
  | 29 => ⟨S_, .f32⟩
  | 30 => ⟨S150000, .f32⟩
  | 31 => ⟨S150000, .f32⟩
  | 32 => ⟨S150000, .f32⟩
  | 33 => ⟨S_, .i32⟩
  | 34 => ⟨S2000000, .i32⟩
  | 35 => ⟨S2000000, .i1⟩
  | 36 => ⟨S_, .i32⟩
  | 37 => ⟨S2000000, .i32⟩
  | 38 => ⟨S2000000, .i32⟩
  | 39 => ⟨S2000000, .i32⟩
  | 40 => ⟨S2000000x1, .i32⟩
  | 41 => ⟨S2000000, .f32⟩
  | 42 => ⟨S_, .i32⟩
  | 43 => ⟨S2000000, .i32⟩
  | 44 => ⟨S2000000, .i1⟩
  | 45 => ⟨S_, .i32⟩
  | 46 => ⟨S2000000, .i32⟩
  | 47 => ⟨S2000000, .i32⟩
  | 48 => ⟨S2000000, .i32⟩
  | 49 => ⟨S2000000x1, .i32⟩
  | 50 => ⟨S2000000, .f32⟩
  | 51 => ⟨S2000000, .f32⟩
  | 52 => ⟨S_, .i32⟩
  | 53 => ⟨S2000000, .i32⟩
  | 54 => ⟨S2000000, .i1⟩
  | 55 => ⟨S_, .i32⟩
  | 56 => ⟨S2000000, .i32⟩
  | 57 => ⟨S2000000, .i32⟩
  | 58 => ⟨S2000000, .i32⟩
  | 59 => ⟨S2000000x1, .i32⟩
  | 60 => ⟨S2000000x64, .f32⟩
  | 61 => ⟨S2000000x1, .f32⟩
  | 62 => ⟨S2000000x64, .f32⟩
  | 63 => ⟨S2000000x64, .f32⟩
  | 64 => ⟨S_, .f32⟩
  | 65 => ⟨S150000x64, .f32⟩
  | 66 => ⟨S2000000x1, .i32⟩
  | 67 => ⟨S150000x64, .f32⟩
  | 68 => ⟨S150000, .f32⟩
  | 69 => ⟨S150000x1, .f32⟩
  | 70 => ⟨S150000x64, .f32⟩
  | 71 => ⟨S150000x64, .f32⟩
  | 72 => ⟨S150000x64, .f32⟩
  | 73 => ⟨S1x64, .f32⟩
  | 74 => ⟨S150000x64, .f32⟩
  | 75 => ⟨S150000x64, .f32⟩
  | 76 => ⟨S_, .f32⟩
  | 77 => ⟨S64, .f32⟩
  | 78 => ⟨S_, .f32⟩
  | 79 => ⟨S64, .f32⟩
  | 80 => ⟨S64, .f32⟩
  | 81 => ⟨S1x64, .f32⟩
  | 82 => ⟨S150000x64, .f32⟩
  | 83 => ⟨S150000x64, .f32⟩
  | 84 => ⟨S150000x64, .f32⟩
  | 85 => ⟨S_, .f32⟩
  | 86 => ⟨S64, .f32⟩
  | 87 => ⟨S_, .f32⟩
  | 88 => ⟨S64, .f32⟩
  | 89 => ⟨S64, .f32⟩
  | 90 => ⟨S1x64, .f32⟩
  | 91 => ⟨S150000x64, .f32⟩
  | 92 => ⟨S150000x64, .f32⟩
  | 93 => ⟨S_, .f32⟩
  | 94 => ⟨S64, .f32⟩
  | 95 => ⟨S64, .f32⟩
  | 96 => ⟨S64, .f32⟩
  | 97 => ⟨S1x64, .f32⟩
  | 98 => ⟨S150000x64, .f32⟩
  | 99 => ⟨S150000x64, .f32⟩
  | 100 => ⟨S1x64, .f32⟩
  | 101 => ⟨S150000x64, .f32⟩
  | 102 => ⟨S150000x64, .f32⟩
  | 103 => ⟨S1x64, .f32⟩
  | 104 => ⟨S150000x64, .f32⟩
  | 105 => ⟨S150000x64, .f32⟩
  | 106 => ⟨S_, .f32⟩
  | 107 => ⟨S150000x64, .f32⟩
  | 108 => ⟨S150000x64, .f32⟩
  | 109 => ⟨S150000x64, .f32⟩
  | 110 => ⟨S_, .f32⟩
  | 111 => ⟨S2000000, .f32⟩
  | 112 => ⟨S_, .f32⟩
  | 113 => ⟨S150000, .f32⟩
  | 114 => ⟨S2000000x1, .i32⟩
  | 115 => ⟨S150000, .f32⟩
  | 116 => ⟨S_, .f32⟩
  | 117 => ⟨S150000, .f32⟩
  | 118 => ⟨S150000, .f32⟩
  | 119 => ⟨S150000, .f32⟩
  | 120 => ⟨S_, .i32⟩
  | 121 => ⟨S2000000, .i32⟩
  | 122 => ⟨S2000000, .i1⟩
  | 123 => ⟨S_, .i32⟩
  | 124 => ⟨S2000000, .i32⟩
  | 125 => ⟨S2000000, .i32⟩
  | 126 => ⟨S2000000, .i32⟩
  | 127 => ⟨S2000000x1, .i32⟩
  | _ => ⟨S2x2000000, .i32⟩

abbrev hbmTy0_1 (i : Nat) : BufTy := match i % 128 with
  | 0 => ⟨S2000000, .f32⟩
  | 1 => ⟨S_, .i32⟩
  | 2 => ⟨S2000000, .i32⟩
  | 3 => ⟨S2000000, .i1⟩
  | 4 => ⟨S_, .i32⟩
  | 5 => ⟨S2000000, .i32⟩
  | 6 => ⟨S2000000, .i32⟩
  | 7 => ⟨S2000000, .i32⟩
  | 8 => ⟨S2000000x1, .i32⟩
  | 9 => ⟨S2000000, .f32⟩
  | 10 => ⟨S2000000, .f32⟩
  | 11 => ⟨S_, .i32⟩
  | 12 => ⟨S2000000, .i32⟩
  | 13 => ⟨S2000000, .i1⟩
  | 14 => ⟨S_, .i32⟩
  | 15 => ⟨S2000000, .i32⟩
  | 16 => ⟨S2000000, .i32⟩
  | 17 => ⟨S2000000, .i32⟩
  | 18 => ⟨S2000000x1, .i32⟩
  | 19 => ⟨S2000000x64, .f32⟩
  | 20 => ⟨S2000000x1, .f32⟩
  | 21 => ⟨S2000000x64, .f32⟩
  | 22 => ⟨S2000000x64, .f32⟩
  | 23 => ⟨S_, .f32⟩
  | 24 => ⟨S150000x64, .f32⟩
  | 25 => ⟨S2000000x1, .i32⟩
  | 26 => ⟨S150000x64, .f32⟩
  | 27 => ⟨S150000, .f32⟩
  | 28 => ⟨S150000x1, .f32⟩
  | 29 => ⟨S150000x64, .f32⟩
  | 30 => ⟨S150000x64, .f32⟩
  | 31 => ⟨S150000x64, .f32⟩
  | 32 => ⟨S1x64, .f32⟩
  | 33 => ⟨S150000x64, .f32⟩
  | 34 => ⟨S150000x64, .f32⟩
  | 35 => ⟨S_, .f32⟩
  | 36 => ⟨S64, .f32⟩
  | 37 => ⟨S_, .f32⟩
  | 38 => ⟨S64, .f32⟩
  | 39 => ⟨S64, .f32⟩
  | 40 => ⟨S1x64, .f32⟩
  | 41 => ⟨S150000x64, .f32⟩
  | 42 => ⟨S150000x64, .f32⟩
  | 43 => ⟨S150000x64, .f32⟩
  | 44 => ⟨S_, .f32⟩
  | 45 => ⟨S64, .f32⟩
  | 46 => ⟨S_, .f32⟩
  | 47 => ⟨S64, .f32⟩
  | 48 => ⟨S64, .f32⟩
  | 49 => ⟨S1x64, .f32⟩
  | 50 => ⟨S150000x64, .f32⟩
  | 51 => ⟨S150000x64, .f32⟩
  | 52 => ⟨S_, .f32⟩
  | 53 => ⟨S64, .f32⟩
  | 54 => ⟨S64, .f32⟩
  | 55 => ⟨S64, .f32⟩
  | 56 => ⟨S1x64, .f32⟩
  | 57 => ⟨S150000x64, .f32⟩
  | 58 => ⟨S150000x64, .f32⟩
  | 59 => ⟨S1x64, .f32⟩
  | 60 => ⟨S150000x64, .f32⟩
  | 61 => ⟨S150000x64, .f32⟩
  | 62 => ⟨S1x64, .f32⟩
  | 63 => ⟨S150000x64, .f32⟩
  | 64 => ⟨S150000x64, .f32⟩
  | 65 => ⟨S_, .f32⟩
  | 66 => ⟨S150000x64, .f32⟩
  | 67 => ⟨S150000x64, .f32⟩
  | 68 => ⟨S150000x64, .f32⟩
  | 69 => ⟨S_, .f32⟩
  | 70 => ⟨S2000000, .f32⟩
  | 71 => ⟨S_, .f32⟩
  | 72 => ⟨S150000, .f32⟩
  | 73 => ⟨S2000000x1, .i32⟩
  | 74 => ⟨S150000, .f32⟩
  | 75 => ⟨S_, .f32⟩
  | 76 => ⟨S150000, .f32⟩
  | 77 => ⟨S150000, .f32⟩
  | 78 => ⟨S150000, .f32⟩
  | 79 => ⟨S_, .i32⟩
  | 80 => ⟨S2000000, .i32⟩
  | 81 => ⟨S2000000, .i1⟩
  | 82 => ⟨S_, .i32⟩
  | 83 => ⟨S2000000, .i32⟩
  | 84 => ⟨S2000000, .i32⟩
  | 85 => ⟨S2000000, .i32⟩
  | 86 => ⟨S2000000x1, .i32⟩
  | 87 => ⟨S2000000, .f32⟩
  | 88 => ⟨S_, .i32⟩
  | 89 => ⟨S2000000, .i32⟩
  | 90 => ⟨S2000000, .i1⟩
  | 91 => ⟨S_, .i32⟩
  | 92 => ⟨S2000000, .i32⟩
  | 93 => ⟨S2000000, .i32⟩
  | 94 => ⟨S2000000, .i32⟩
  | 95 => ⟨S2000000x1, .i32⟩
  | 96 => ⟨S2000000, .f32⟩
  | 97 => ⟨S2000000, .f32⟩
  | 98 => ⟨S_, .i32⟩
  | 99 => ⟨S2000000, .i32⟩
  | 100 => ⟨S2000000, .i1⟩
  | 101 => ⟨S_, .i32⟩
  | 102 => ⟨S2000000, .i32⟩
  | 103 => ⟨S2000000, .i32⟩
  | 104 => ⟨S2000000, .i32⟩
  | 105 => ⟨S2000000x1, .i32⟩
  | 106 => ⟨S2000000x64, .f32⟩
  | 107 => ⟨S2000000x1, .f32⟩
  | 108 => ⟨S2000000x64, .f32⟩
  | 109 => ⟨S2000000x64, .f32⟩
  | 110 => ⟨S_, .f32⟩
  | 111 => ⟨S150000x64, .f32⟩
  | 112 => ⟨S2000000x1, .i32⟩
  | 113 => ⟨S150000x64, .f32⟩
  | 114 => ⟨S150000, .f32⟩
  | 115 => ⟨S150000x1, .f32⟩
  | 116 => ⟨S150000x64, .f32⟩
  | 117 => ⟨S150000x64, .f32⟩
  | 118 => ⟨S150000x64, .f32⟩
  | 119 => ⟨S1x64, .f32⟩
  | 120 => ⟨S150000x64, .f32⟩
  | 121 => ⟨S150000x64, .f32⟩
  | 122 => ⟨S_, .f32⟩
  | 123 => ⟨S150000x64, .f32⟩
  | 124 => ⟨S150000x64, .f32⟩
  | 125 => ⟨S_, .i32⟩
  | 126 => ⟨S2000000, .i32⟩
  | 127 => ⟨S2000000, .i1⟩
  | _ => ⟨S2x2000000, .i32⟩

abbrev hbmTy0_2 (i : Nat) : BufTy := match i % 128 with
  | 0 => ⟨S_, .i32⟩
  | 1 => ⟨S2000000, .i32⟩
  | 2 => ⟨S2000000, .i32⟩
  | 3 => ⟨S2000000, .i32⟩
  | 4 => ⟨S2000000x1, .i32⟩
  | 5 => ⟨S2000000x16, .f32⟩
  | 6 => ⟨S_, .i32⟩
  | 7 => ⟨S2000000, .i32⟩
  | 8 => ⟨S2000000, .i32⟩
  | 9 => ⟨S_, .i32⟩
  | 10 => ⟨S2000000, .i32⟩
  | 11 => ⟨S2000000, .i1⟩
  | 12 => ⟨S_, .i32⟩
  | 13 => ⟨S2000000, .i32⟩
  | 14 => ⟨S2000000, .i32⟩
  | 15 => ⟨S2000000, .i32⟩
  | 16 => ⟨S2000000x1, .i32⟩
  | 17 => ⟨S2000000x16, .f32⟩
  | 18 => ⟨S2000000x32, .f32⟩
  | 19 => ⟨S2000000x64, .f32⟩
  | 20 => ⟨S1x64, .f32⟩
  | 21 => ⟨S2000000x64, .f32⟩
  | 22 => ⟨S2000000x64, .f32⟩
  | 23 => ⟨S_, .f32⟩
  | 24 => ⟨S2000000x64, .f32⟩
  | 25 => ⟨S2000000x64, .f32⟩
  | 26 => ⟨S2000000x1, .f32⟩
  | 27 => ⟨S1x1, .f32⟩
  | 28 => ⟨S2000000x1, .f32⟩
  | 29 => ⟨S2000000x1, .f32⟩
  | 30 => ⟨S2000000x1, .f32⟩
  | 31 => ⟨S2000000x1, .f32⟩
  | 32 => ⟨S_, .f32⟩
  | 33 => ⟨S2000000x1, .f32⟩
  | 34 => ⟨S2000000x1, .f32⟩
  | 35 => ⟨S_, .f32⟩
  | 36 => ⟨S2000000x1, .f32⟩
  | 37 => ⟨S2000000x1, .f32⟩
  | _ => ⟨S2x2000000, .i32⟩

abbrev hbmTy (i : Nat) : BufTy := match i / 128 with
  | 0 => hbmTy0_0 i
  | 1 => hbmTy0_1 i
  | 2 => hbmTy0_2 i
  | _ => ⟨S2x2000000, .i32⟩

abbrev bufTy : (tb : Table) → Fin (tcTables nBuf tb) → BufTy
  | .hbm, ⟨i, _⟩ => hbmTy i
  | _, _ => ⟨S2x2000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c : Ref sig .tc := ⟨.hbm, 33, rfl⟩
abbrev main_v13 : Ref sig .tc := ⟨.hbm, 34, rfl⟩
abbrev main_v14 : Ref sig .tc := ⟨.hbm, 35, rfl⟩
abbrev main_c_2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_c_3 : Ref sig .tc := ⟨.hbm, 42, rfl⟩
abbrev main_v20 : Ref sig .tc := ⟨.hbm, 43, rfl⟩
abbrev main_v21 : Ref sig .tc := ⟨.hbm, 44, rfl⟩
abbrev main_c_4 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_5 : Ref sig .tc := ⟨.hbm, 52, rfl⟩
abbrev main_v28 : Ref sig .tc := ⟨.hbm, 53, rfl⟩
abbrev main_v29 : Ref sig .tc := ⟨.hbm, 54, rfl⟩
abbrev main_c_6 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_7 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_8 : Ref sig .tc := ⟨.hbm, 76, rfl⟩
abbrev main_v49 : Ref sig .tc := ⟨.hbm, 77, rfl⟩
abbrev main_cst_9 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_10 : Ref sig .tc := ⟨.hbm, 85, rfl⟩
abbrev main_v56 : Ref sig .tc := ⟨.hbm, 86, rfl⟩
abbrev main_cst_11 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_12 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_call0_cst : Ref sig .tc := ⟨.hbm, 106, rfl⟩
abbrev main_call0_v0 : Ref sig .tc := ⟨.hbm, 107, rfl⟩
abbrev main_v74 : Ref sig .tc := ⟨.hbm, 108, rfl⟩
abbrev main_v75 : Ref sig .tc := ⟨.hbm, 109, rfl⟩
abbrev main_cst_13 : Ref sig .tc := ⟨.hbm, 110, rfl⟩
abbrev main_v76 : Ref sig .tc := ⟨.hbm, 111, rfl⟩
abbrev main_cst_14 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_15 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_c_16 : Ref sig .tc := ⟨.hbm, 120, rfl⟩
abbrev main_v83 : Ref sig .tc := ⟨.hbm, 121, rfl⟩
abbrev main_v84 : Ref sig .tc := ⟨.hbm, 122, rfl⟩
abbrev main_c_17 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_c_18 : Ref sig .tc := ⟨.hbm, 129, rfl⟩
abbrev main_v90 : Ref sig .tc := ⟨.hbm, 130, rfl⟩
abbrev main_v91 : Ref sig .tc := ⟨.hbm, 131, rfl⟩
abbrev main_c_19 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_c_20 : Ref sig .tc := ⟨.hbm, 139, rfl⟩
abbrev main_v98 : Ref sig .tc := ⟨.hbm, 140, rfl⟩
abbrev main_v99 : Ref sig .tc := ⟨.hbm, 141, rfl⟩
abbrev main_c_21 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_cst_22 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_cst_23 : Ref sig .tc := ⟨.hbm, 163, rfl⟩
abbrev main_v119 : Ref sig .tc := ⟨.hbm, 164, rfl⟩
abbrev main_cst_24 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_cst_25 : Ref sig .tc := ⟨.hbm, 172, rfl⟩
abbrev main_v126 : Ref sig .tc := ⟨.hbm, 173, rfl⟩
abbrev main_cst_26 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_cst_27 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_call1_cst : Ref sig .tc := ⟨.hbm, 193, rfl⟩
abbrev main_call1_v0 : Ref sig .tc := ⟨.hbm, 194, rfl⟩
abbrev main_v144 : Ref sig .tc := ⟨.hbm, 195, rfl⟩
abbrev main_v145 : Ref sig .tc := ⟨.hbm, 196, rfl⟩
abbrev main_cst_28 : Ref sig .tc := ⟨.hbm, 197, rfl⟩
abbrev main_v146 : Ref sig .tc := ⟨.hbm, 198, rfl⟩
abbrev main_cst_29 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_cst_30 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_c_31 : Ref sig .tc := ⟨.hbm, 207, rfl⟩
abbrev main_v153 : Ref sig .tc := ⟨.hbm, 208, rfl⟩
abbrev main_v154 : Ref sig .tc := ⟨.hbm, 209, rfl⟩
abbrev main_c_32 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_c_33 : Ref sig .tc := ⟨.hbm, 216, rfl⟩
abbrev main_v160 : Ref sig .tc := ⟨.hbm, 217, rfl⟩
abbrev main_v161 : Ref sig .tc := ⟨.hbm, 218, rfl⟩
abbrev main_c_34 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_c_35 : Ref sig .tc := ⟨.hbm, 226, rfl⟩
abbrev main_v168 : Ref sig .tc := ⟨.hbm, 227, rfl⟩
abbrev main_v169 : Ref sig .tc := ⟨.hbm, 228, rfl⟩
abbrev main_c_36 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_cst_37 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_v188 : Ref sig .tc := ⟨.hbm, 249, rfl⟩
abbrev main_call2_cst : Ref sig .tc := ⟨.hbm, 250, rfl⟩
abbrev main_call2_v0 : Ref sig .tc := ⟨.hbm, 251, rfl⟩
abbrev main_v189 : Ref sig .tc := ⟨.hbm, 252, rfl⟩
abbrev main_c_38 : Ref sig .tc := ⟨.hbm, 253, rfl⟩
abbrev main_v190 : Ref sig .tc := ⟨.hbm, 254, rfl⟩
abbrev main_v191 : Ref sig .tc := ⟨.hbm, 255, rfl⟩
abbrev main_c_39 : Ref sig .tc := ⟨.hbm, 256, rfl⟩
abbrev main_v192 : Ref sig .tc := ⟨.hbm, 257, rfl⟩
abbrev main_v193 : Ref sig .tc := ⟨.hbm, 258, rfl⟩
abbrev main_v194 : Ref sig .tc := ⟨.hbm, 259, rfl⟩
abbrev main_v195 : Ref sig .tc := ⟨.hbm, 260, rfl⟩
abbrev main_v196 : Ref sig .tc := ⟨.hbm, 261, rfl⟩
abbrev main_c_40 : Ref sig .tc := ⟨.hbm, 262, rfl⟩
abbrev main_v197 : Ref sig .tc := ⟨.hbm, 263, rfl⟩
abbrev main_v198 : Ref sig .tc := ⟨.hbm, 264, rfl⟩
abbrev main_c_41 : Ref sig .tc := ⟨.hbm, 265, rfl⟩
abbrev main_v199 : Ref sig .tc := ⟨.hbm, 266, rfl⟩
abbrev main_v200 : Ref sig .tc := ⟨.hbm, 267, rfl⟩
abbrev main_c_42 : Ref sig .tc := ⟨.hbm, 268, rfl⟩
abbrev main_v201 : Ref sig .tc := ⟨.hbm, 269, rfl⟩
abbrev main_v202 : Ref sig .tc := ⟨.hbm, 270, rfl⟩
abbrev main_v203 : Ref sig .tc := ⟨.hbm, 271, rfl⟩
abbrev main_v204 : Ref sig .tc := ⟨.hbm, 272, rfl⟩
abbrev main_v205 : Ref sig .tc := ⟨.hbm, 273, rfl⟩
abbrev main_v206 : Ref sig .tc := ⟨.hbm, 274, rfl⟩
abbrev main_v207 : Ref sig .tc := ⟨.hbm, 275, rfl⟩
abbrev main_v208 : Ref sig .tc := ⟨.hbm, 276, rfl⟩
abbrev main_v209 : Ref sig .tc := ⟨.hbm, 277, rfl⟩
abbrev main_v210 : Ref sig .tc := ⟨.hbm, 278, rfl⟩
abbrev main_call3_cst : Ref sig .tc := ⟨.hbm, 279, rfl⟩
abbrev main_call3_v0 : Ref sig .tc := ⟨.hbm, 280, rfl⟩
abbrev main_v211 : Ref sig .tc := ⟨.hbm, 281, rfl⟩
abbrev main_v212 : Ref sig .tc := ⟨.hbm, 282, rfl⟩
abbrev main_v213 : Ref sig .tc := ⟨.hbm, 283, rfl⟩
abbrev main_v214 : Ref sig .tc := ⟨.hbm, 284, rfl⟩
abbrev main_v215 : Ref sig .tc := ⟨.hbm, 285, rfl⟩
abbrev main_v216 : Ref sig .tc := ⟨.hbm, 286, rfl⟩
abbrev main_v217 : Ref sig .tc := ⟨.hbm, 287, rfl⟩
abbrev main_cst_43 : Ref sig .tc := ⟨.hbm, 288, rfl⟩
abbrev main_v218 : Ref sig .tc := ⟨.hbm, 289, rfl⟩
abbrev main_v219 : Ref sig .tc := ⟨.hbm, 290, rfl⟩
abbrev main_cst_44 : Ref sig .tc := ⟨.hbm, 291, rfl⟩
abbrev main_v220 : Ref sig .tc := ⟨.hbm, 292, rfl⟩
abbrev main_v221 : Ref sig .tc := ⟨.hbm, 293, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  concatenates_S100000x16_S50000x16_S150000x16_d0 : Shape.Concatenates [S100000x16, S50000x16] S150000x16 0
  bcast_S_S2000000 : S_.BroadcastsInDim S2000000 (![] : Fin 0 → Fin S2000000.rank)
  bcast_S_S150000 : S_.BroadcastsInDim S150000 (![] : Fin 0 → Fin S150000.rank)
  bcast_S2000000_S2000000x1_0 : S2000000.BroadcastsInDim S2000000x1 (![0] : Fin 1 → Fin S2000000x1.rank)
  bcast_S2000000x1_S2000000x64_0_1 : S2000000x1.BroadcastsInDim S2000000x64 (![0, 1] : Fin 2 → Fin S2000000x64.rank)
  bcast_S_S150000x64 : S_.BroadcastsInDim S150000x64 (![] : Fin 0 → Fin S150000x64.rank)
  bcast_S150000_S150000x1_0 : S150000.BroadcastsInDim S150000x1 (![0] : Fin 1 → Fin S150000x1.rank)
  bcast_S150000x1_S150000x64_0_1 : S150000x1.BroadcastsInDim S150000x64 (![0, 1] : Fin 2 → Fin S150000x64.rank)
  bcast_S64_S1x64_1 : S64.BroadcastsInDim S1x64 (![1] : Fin 1 → Fin S1x64.rank)
  bcast_S1x64_S150000x64_0_1 : S1x64.BroadcastsInDim S150000x64 (![0, 1] : Fin 2 → Fin S150000x64.rank)
  reducesTo_S150000x64_S64_d0 : S150000x64.ReducesTo [0] S64
  h_S_ : 0 < S_.numel
  bcast_S_S64 : S_.BroadcastsInDim S64 (![] : Fin 0 → Fin S64.rank)
  concatenates_S2000000x16_S2000000x16_S2000000x32_d1 : Shape.Concatenates [S2000000x16, S2000000x16] S2000000x32 1
  bcast_S1x64_S2000000x64_0_1 : S1x64.BroadcastsInDim S2000000x64 (![0, 1] : Fin 2 → Fin S2000000x64.rank)
  bcast_S_S2000000x64 : S_.BroadcastsInDim S2000000x64 (![] : Fin 0 → Fin S2000000x64.rank)
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  bcast_S_S2000000x1 : S_.BroadcastsInDim S2000000x1 (![] : Fin 0 → Fin S2000000x1.rank)
  dot_S150000x16_S16x64_S150000x64_1_0_0_1_n_n_wf : DotDims.WF S150000x16 S16x64 S150000x64 [1] [0] [0] [1] [] []
  scatter_S150000_S2000000x1_S2000000_n_0_0_1_wf : ScatterDims.WF S150000 S2000000x1 S2000000 [] [0] [0] 1
  gather_S150000_S2000000x1_S2000000_n_0_n_n_0_1_1_wf : GatherDims.WF S150000 S2000000x1 S2000000 [] [0] [] [0] [] 1 ![1]
  gather_S150000x64_S2000000x1_S2000000x64_1_0_n_n_0_1_164_wf : GatherDims.WF S150000x64 S2000000x1 S2000000x64 [1] [0] [] [0] [] 1 ![1, 64]
  scatter_S150000x64_S2000000x1_S2000000x64_1_0_0_1_wf : ScatterDims.WF S150000x64 S2000000x1 S2000000x64 [1] [0] [0] 1
  dot_S150000x64_S64x64_S150000x64_1_0_0_1_n_n_wf : DotDims.WF S150000x64 S64x64 S150000x64 [1] [0] [0] [1] [] []
  gather_S100000x16_S2000000x1_S2000000x16_1_0_n_n_0_1_116_wf : GatherDims.WF S100000x16 S2000000x1 S2000000x16 [1] [0] [] [0] [] 1 ![1, 16]
  gather_S50000x16_S2000000x1_S2000000x16_1_0_n_n_0_1_116_wf : GatherDims.WF S50000x16 S2000000x1 S2000000x16 [1] [0] [] [0] [] 1 ![1, 16]
  dot_S2000000x32_S32x64_S2000000x64_1_0_0_1_n_n_wf : DotDims.WF S2000000x32 S32x64 S2000000x64 [1] [0] [0] [1] [] []
  dot_S2000000x64_S64x1_S2000000x1_1_0_0_1_n_n_wf : DotDims.WF S2000000x64 S64x1 S2000000x1 [1] [0] [0] [1] [] []

variable [Facts₀]

def dot_S150000x16_S16x64_S150000x64_1_0_0_1_n_n : DotDims S150000x16 S16x64 S150000x64 where
  lhsContracting := [1]
  rhsContracting := [0]
  lhsNonContracting := [0]
  rhsNonContracting := [1]
  lhsBatch := []
  rhsBatch := []
  wf := dot_S150000x16_S16x64_S150000x64_1_0_0_1_n_n_wf
def scatter_S150000_S2000000x1_S2000000_n_0_0_1 : ScatterDims S150000 S2000000x1 S2000000 where
  updateWindowDims := []
  insertedWindowDims := [0]
  scatterDimsToOperandDims := [0]
  indexVectorDim := 1
  wf := scatter_S150000_S2000000x1_S2000000_n_0_0_1_wf
def gather_S150000_S2000000x1_S2000000_n_0_n_n_0_1_1 : GatherDims S150000 S2000000x1 S2000000 where
  offsetDims := []
  collapsedSliceDims := [0]
  operandBatchingDims := []
  startIndicesBatchingDims := []
  startIndexMap := [0]
  indexVectorDim := 1
  sliceSizes := ![1]
  wf := gather_S150000_S2000000x1_S2000000_n_0_n_n_0_1_1_wf
def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def scatter_S150000x64_S2000000x1_S2000000x64_1_0_0_1 : ScatterDims S150000x64 S2000000x1 S2000000x64 where
  updateWindowDims := [1]
  insertedWindowDims := [0]
  scatterDimsToOperandDims := [0]
  indexVectorDim := 1
  wf := scatter_S150000x64_S2000000x1_S2000000x64_1_0_0_1_wf
def dot_S150000x64_S64x64_S150000x64_1_0_0_1_n_n : DotDims S150000x64 S64x64 S150000x64 where
  lhsContracting := [1]
  rhsContracting := [0]
  lhsNonContracting := [0]
  rhsNonContracting := [1]
  lhsBatch := []
  rhsBatch := []
  wf := dot_S150000x64_S64x64_S150000x64_1_0_0_1_n_n_wf
def gather_S100000x16_S2000000x1_S2000000x16_1_0_n_n_0_1_116 : GatherDims S100000x16 S2000000x1 S2000000x16 where
  offsetDims := [1]
  collapsedSliceDims := [0]
  operandBatchingDims := []
  startIndicesBatchingDims := []
  startIndexMap := [0]
  indexVectorDim := 1
  sliceSizes := ![1, 16]
  wf := gather_S100000x16_S2000000x1_S2000000x16_1_0_n_n_0_1_116_wf
def gather_S50000x16_S2000000x1_S2000000x16_1_0_n_n_0_1_116 : GatherDims S50000x16 S2000000x1 S2000000x16 where
  offsetDims := [1]
  collapsedSliceDims := [0]
  operandBatchingDims := []
  startIndicesBatchingDims := []
  startIndexMap := [0]
  indexVectorDim := 1
  sliceSizes := ![1, 16]
  wf := gather_S50000x16_S2000000x1_S2000000x16_1_0_n_n_0_1_116_wf
def dot_S2000000x32_S32x64_S2000000x64_1_0_0_1_n_n : DotDims S2000000x32 S32x64 S2000000x64 where
  lhsContracting := [1]
  rhsContracting := [0]
  lhsNonContracting := [0]
  rhsNonContracting := [1]
  lhsBatch := []
  rhsBatch := []
  wf := dot_S2000000x32_S32x64_S2000000x64_1_0_0_1_n_n_wf
def dot_S2000000x64_S64x1_S2000000x1_1_0_0_1_n_n : DotDims S2000000x64 S64x1 S2000000x1 where
  lhsContracting := [1]
  rhsContracting := [0]
  lhsNonContracting := [0]
  rhsNonContracting := [1]
  lhsBatch := []
  rhsBatch := []
  wf := dot_S2000000x64_S64x1_S2000000x1_1_0_0_1_n_n_wf

class Facts : Prop extends Facts₀ where

variable [Facts]
-- ==== Proof.LibScatterVec.lean ====
import Idealize.ShloMosaic.PureOps.Ideal
import Idealize.ShloMosaic.Lib.ValueIdx

noncomputable section

open scoped BigOperators

namespace Idealize.ShloMosaic.ScatterVec

open Idealize.ShloMosaic Idealize.ShloMosaic.ValueIdx

abbrev vecDims (R N : ℕ)
    (wf : ScatterDims.WF (⟨1, ![R]⟩ : Shape) (⟨2, ![N, 1]⟩ : Shape) (⟨1, ![N]⟩ : Shape) [] [0] [0] 1) :
    ScatterDims (⟨1, ![R]⟩ : Shape) (⟨2, ![N, 1]⟩ : Shape) (⟨1, ![N]⟩ : Shape) where
  updateWindowDims := []
  insertedWindowDims := [0]
  scatterDimsToOperandDims := [0]
  indexVectorDim := 1
  wf := wf

theorem sum_idx1 {M : Type*} [AddCommMonoid M] {n : ℕ} (f : (⟨1, ![n]⟩ : Shape).Idx → M) :
    ∑ i, f i = ∑ a : Fin n, f (ix1 a) := by
  let E : Fin n ≃ (⟨1, ![n]⟩ : Shape).Idx :=
    { toFun := fun a => ix1 a
      invFun := fun i => i 0
      left_inv := fun _ => rfl
      right_inv := fun i => (eq_ix1 i).symm }
  exact (Equiv.sum_comp E f).symm

section Fields

variable {R N w : ℕ}
  (wf : ScatterDims.WF (⟨1, ![R]⟩ : Shape) (⟨2, ![N, 1]⟩ : Shape) (⟨1, ![N]⟩ : Shape) [] [0] [0] 1)

theorem sKept_vec : (vecDims R N wf).sKept = ([] : List (Fin 1)) := by
  show (List.finRange 1).filter (fun a : Fin 1 => decide (a ∉ ([0] : List (Fin 1)))) = []
  decide

theorem siIdx_vec (j : (⟨1, ![N]⟩ : Shape).Idx) (c : Fin (vecDims R N wf).scatterDimsToOperandDims.length) :
    (vecDims R N wf).siIdx j c = ix2 (j 0) (0 : Fin 1) := by
  funext a
  match a with
  | ⟨0, _⟩ =>
    unfold ScatterDims.siIdx
    rw [dif_neg (show ¬ (0 : ℕ) = 1 by decide)]
    apply Fin.ext
    rfl
  | ⟨1, _⟩ =>
    unfold ScatterDims.siIdx
    rw [dif_pos (show (1 : ℕ) = 1 from rfl)]
    apply Fin.ext
    have hc : c.val < 1 := c.isLt
    show c.val = 0
    omega

theorem start_vec (j : (⟨1, ![N]⟩ : Shape).Idx) (idx : IVec (⟨2, ![N, 1]⟩ : Shape) w) :
    (vecDims R N wf).start j idx (0 : Fin 1) = (idx (ix2 (j 0) (0 : Fin 1))).toInt := by
  unfold ScatterDims.start
  rw [dif_pos (show (0 : Fin 1) ∈ ([0] : List (Fin 1)) by decide)]
  rw [siIdx_vec]
  rfl

theorem window_vec (j : (⟨1, ![N]⟩ : Shape).Idx) :
    (vecDims R N wf).window j (0 : Fin 1) = 0 := by
  unfold ScatterDims.window
  rw [dif_neg (by rw [sKept_vec]; show ¬ (0 : Fin 1) ∈ ([] : List (Fin 1)); decide)]

end Fields

theorem resultIdx?_vec {R N w : ℕ}
    (wf : ScatterDims.WF (⟨1, ![R]⟩ : Shape) (⟨2, ![N, 1]⟩ : Shape) (⟨1, ![N]⟩ : Shape) [] [0] [0] 1)
    (idx : IVec (⟨2, ![N, 1]⟩ : Shape) w) (b : Fin N) (r : Fin R) :
    (vecDims R N wf).resultIdx? (ix1 b) idx = some (ix1 r)
      ↔ (idx (ix2 b (0 : Fin 1))).toInt = (r.val : ℤ) := by
  have s0 : (vecDims R N wf).start (ix1 b) idx (0 : Fin 1) = (idx (ix2 b (0 : Fin 1))).toInt :=
    start_vec wf (ix1 b) idx
  have w0 := window_vec wf (ix1 b)
  have hr : r.val < R := r.isLt
  unfold ScatterDims.resultIdx?
  constructor
  ·
    intro hres
    split at hres
    · rename_i hb
      have e := Option.some.inj hres
      have e0 : ((vecDims R N wf).start (ix1 b) idx (0 : Fin 1)
          + ((vecDims R N wf).window (ix1 b) (0 : Fin 1) : ℤ)).toNat = r.val :=
        congrArg (fun i : (⟨1, ![R]⟩ : Shape).Idx => (i 0).val) e
      have h0 : 0 ≤ (vecDims R N wf).start (ix1 b) idx (0 : Fin 1)
          + ((vecDims R N wf).window (ix1 b) (0 : Fin 1) : ℤ) := (hb 0).1
      rw [s0, w0] at e0 h0
      omega
    · exact absurd hres (by simp)
  ·
    intro hi
    have H : ∀ a : Fin 1, 0 ≤ (vecDims R N wf).start (ix1 b) idx a + ((vecDims R N wf).window (ix1 b) a : ℤ)
        ∧ (vecDims R N wf).start (ix1 b) idx a + ((vecDims R N wf).window (ix1 b) a : ℤ)
          < ((⟨1, ![R]⟩ : Shape).size a : ℤ) := by
      intro a
      match a with
      | ⟨0, _⟩ =>
        show 0 ≤ (vecDims R N wf).start (ix1 b) idx (0 : Fin 1) + ((vecDims R N wf).window (ix1 b) (0 : Fin 1) : ℤ)
          ∧ (vecDims R N wf).start (ix1 b) idx (0 : Fin 1) + ((vecDims R N wf).window (ix1 b) (0 : Fin 1) : ℤ)
            < (R : ℤ)
        rw [s0, w0, hi]
        omega
    rw [dif_pos H]
    refine congrArg some (funext fun a => ?_)
    match a with
    | ⟨0, _⟩ =>
      apply Fin.ext
      show ((vecDims R N wf).start (ix1 b) idx (0 : Fin 1)
          + ((vecDims R N wf).window (ix1 b) (0 : Fin 1) : ℤ)).toNat = r.val
      rw [s0, w0, hi]
      omega

theorem hostScatterAdd_vec {R N w : ℕ}
    (wf : ScatterDims.WF (⟨1, ![R]⟩ : Shape) (⟨2, ![N, 1]⟩ : Shape) (⟨1, ![N]⟩ : Shape) [] [0] [0] 1)
    (x : (⟨1, ![R]⟩ : Shape).Idx → EReal) (idx : IVec (⟨2, ![N, 1]⟩ : Shape) w)
    (upd : (⟨1, ![N]⟩ : Shape).Idx → EReal) (r : Fin R) :
    Ideal.hostScatterAdd (vecDims R N wf) x idx upd (ix1 r)
      = x (ix1 r) + ∑ b : Fin N, if (idx (ix2 b (0 : Fin 1))).toInt = (r.val : ℤ) then upd (ix1 b) else 0 := by
  unfold Ideal.hostScatterAdd
  refine congrArg (x (ix1 r) + ·) ?_

  rw [Finset.sum_filter, sum_idx1]
  refine Finset.sum_congr rfl (fun b _ => ?_)
  exact if_congr (resultIdx?_vec wf idx b r) rfl rfl

end Idealize.ShloMosaic.ScatterVec

end
-- ==== Proof.KSeg0.lean ====
import proofs.«423179_j27462020891318_2_alg».proof.Proof.Gen.KernelIdeal.Frame
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws
import proofs.«423179_j27462020891318_2_alg».proof.Proof.LibScatterVec

noncomputable section

namespace Cert.KernelIdeal.KSeg0

open Cert.KernelIdeal Cert.KernelIdeal.Gen Idealize.ShloMosaic Idealize.ShloMosaic.TcCoe Idealize.ShloMosaic.ValueIdx Idealize.ShloMosaic.StableHlo Idealize.SL.Sem

variable (m : (ℓ : Loc nD τ sig) → Buf (Elt Ideal) ℓ) (ρ : Dev nD → PrngReg) (c : Dev nD)

section Layout
variable {α : Type}

theorem sliceRow_apply (x : S2x2000000.Idx → α) (o : Fin 2) (hs : S2x2000000.Slices ![o.val, 0] S1x2000000)
    (hc : S1x2000000.ShapeCasts S2000000) (e : Fin 2000000) :
    shapeCast S2000000 (extractStridedSlice S1x2000000 ![o.val, 0] x hs) hc (ix1 e) = x (ix2 o e) := by
  refine (shapeCast_apply _ hc (ix1 e) (ix2 (0 : Fin 1) e) ?_).trans ?_
  · rewrite [Shape.rowMajor_val_two, Shape.rowMajor_val_one]
    show 0 * 2000000 + e.val = e.val
    omega
  · exact extractStridedSlice_apply _ x hs _ _ (fun a => match a with
      | ⟨0, _⟩ => by show o.val = o.val + 0; omega
      | ⟨1, _⟩ => by show e.val = 0 + e.val; omega)

theorem addUnit64_apply (x : S64.Idx → α) (hc : S64.ShapeCasts S1x64) (h : Fin 64) :
    shapeCast S1x64 x hc (ix2 (0 : Fin 1) h) = x (ix1 h) := by
  refine shapeCast_apply x hc _ _ ?_
  rewrite [Shape.rowMajor_val_two, Shape.rowMajor_val_one]
  show h.val = 0 * 64 + h.val
  omega

end Layout

theorem row (e : Fin 2000000) : W1 m ρ c (Proc.devRef .tc main_v1) (ix1 e) = m ((c : Thread nD τ).loc main_arg0) (ix2 (0 : Fin 2) e) := by
  show StableHlo.after hostOps0 (W0 m ρ c) _ _ = _
  after_results
  exact sliceRow_apply _ (0 : Fin 2) slices_S2x2000000_S1x2000000_0_0 _ e

theorem col (e : Fin 2000000) : W1 m ρ c (Proc.devRef .tc main_v3) (ix1 e) = m ((c : Thread nD τ).loc main_arg0) (ix2 (1 : Fin 2) e) := by
  show StableHlo.after hostOps0 (W0 m ρ c) _ _ = _
  after_results
  exact sliceRow_apply _ (1 : Fin 2) slices_S2x2000000_S1x2000000_1_0 _ e

theorem b13 (h : Fin 64) : W1 m ρ c (Proc.devRef .tc main_v13) (ix2 (0 : Fin 1) h) = m ((c : Thread nD τ).loc main_arg4) (ix1 h) := by
  show StableHlo.after hostOps0 (W0 m ρ c) _ _ = _
  after_results
  exact addUnit64_apply _ _ h

theorem b14 (h : Fin 64) : W1 m ρ c (Proc.devRef .tc main_v14) (ix2 (0 : Fin 1) h) = m ((c : Thread nD τ).loc main_arg6) (ix1 h) := by
  show StableHlo.after hostOps0 (W0 m ρ c) _ _ = _
  after_results
  exact addUnit64_apply _ _ h

theorem b15 (h : Fin 64) : W1 m ρ c (Proc.devRef .tc main_v15) (ix2 (0 : Fin 1) h) = m ((c : Thread nD τ).loc main_arg8) (ix1 h) := by
  show StableHlo.after hostOps0 (W0 m ρ c) _ _ = _
  after_results
  exact addUnit64_apply _ _ h

theorem b16 (h : Fin 64) : W1 m ρ c (Proc.devRef .tc main_v16) (ix2 (0 : Fin 1) h) = m ((c : Thread nD τ).loc main_arg9) (ix1 h) := by
  show StableHlo.after hostOps0 (W0 m ρ c) _ _ = _
  after_results
  exact addUnit64_apply _ _ h

theorem b17 (h : Fin 64) : W1 m ρ c (Proc.devRef .tc main_v17) (ix2 (0 : Fin 1) h) = m ((c : Thread nD τ).loc main_arg10) (ix1 h) := by
  show StableHlo.after hostOps0 (W0 m ρ c) _ _ = _
  after_results
  exact addUnit64_apply _ _ h

theorem b18 (h : Fin 64) : W1 m ρ c (Proc.devRef .tc main_v18) (ix2 (0 : Fin 1) h) = m ((c : Thread nD τ).loc main_arg11) (ix1 h) := by
  show StableHlo.after hostOps0 (W0 m ρ c) _ _ = _
  after_results
  exact addUnit64_apply _ _ h

theorem b19 (h : Fin 64) : W1 m ρ c (Proc.devRef .tc main_v19) (ix2 (0 : Fin 1) h) = m ((c : Thread nD τ).loc main_arg12) (ix1 h) := by
  show StableHlo.after hostOps0 (W0 m ρ c) _ _ = _
  after_results
  exact addUnit64_apply _ _ h

section Layout2
variable {α : Type}

theorem dropUnitCol_apply (y : S150000.Idx → α) (hc : S150000.ShapeCasts S150000x1) (i : Fin 150000) :
    shapeCast S150000x1 y hc (ix2 i (0 : Fin 1)) = y (ix1 i) := by
  refine shapeCast_apply y hc _ _ ?_
  rewrite [Shape.rowMajor_val_two, Shape.rowMajor_val_one]
  show i.val = i.val * 1 + 0
  omega

theorem bcastScalar_apply {t : Shape} (h : S_.BroadcastsInDim t (![] : Fin 0 → Fin t.rank)) (x : S_.Idx → α) (j : t.Idx) :
    broadcastInDim t ![] h x j = x ix0 :=
  broadcastInDim_apply _ h x j ix0 (fun a => a.elim0)

theorem bcastCol_apply (v : S2000000.Idx → α) (h : S2000000.BroadcastsInDim S2000000x1 ![0]) (b : Fin 2000000) :
    broadcastInDim S2000000x1 ![0] h v (ix2 b (0 : Fin 1)) = v (ix1 b) :=
  broadcastInDim_apply _ h v _ _ (fun a => match a with
    | ⟨0, _⟩ => by
      show b.val = if (2000000 : ℕ) = 1 then 0 else b.val
      rw [if_neg (by decide)])

theorem bcastRows_apply (v : S150000x1.Idx → α) (h : S150000x1.BroadcastsInDim S150000x16 ![0, 1]) (i : Fin 150000) (d : Fin 16) :
    broadcastInDim S150000x16 ![0, 1] h v (ix2 i d) = v (ix2 i (0 : Fin 1)) :=
  broadcastInDim_apply _ h v _ _ (fun a => match a with
    | ⟨0, _⟩ => by
      show i.val = if (150000 : ℕ) = 1 then 0 else i.val
      rw [if_neg (by decide)]
    | ⟨1, _⟩ => by
      show 0 = if (1 : ℕ) = 1 then 0 else d.val
      rw [if_pos rfl])

theorem concatRows_apply (x₁ : S100000x16.Idx → α) (x₂ : S50000x16.Idx → α)
    (hcat : Shape.Concatenates [S100000x16, S50000x16] S150000x16 0) (i : Fin 150000) (d : Fin 16) :
    concatenate S150000x16 0 [⟨S100000x16, x₁⟩, ⟨S50000x16, x₂⟩] hcat (ix2 i d)
      = if h : i.val < 100000 then x₁ (ix2 (⟨i.val, h⟩ : Fin 100000) d)
        else x₂ (ix2 (⟨i.val - 100000, by have := i.isLt; omega⟩ : Fin 50000) d) := by
  by_cases h : i.val < 100000
  · rw [dif_pos h]
    exact concatenate_pair_apply_left (0 : Fin 2) x₁ x₂ hcat (ix2 i d) rfl _ (fun b => match b with
      | ⟨0, _⟩ => rfl
      | ⟨1, _⟩ => rfl)
  · rw [dif_neg h]
    refine concatenate_pair_apply_right (0 : Fin 2) x₁ x₂ hcat (ix2 i d) rfl rfl _ (fun b => match b with
      | ⟨0, _⟩ => fun hb => absurd rfl hb
      | ⟨1, _⟩ => fun _ => rfl) ?_
    show i.val - 100000 + 100000 = i.val
    omega

end Layout2

theorem one_f32 : Ideal.ofBits .f32 0x3F800000#32 = 1 := by
  simp [Ideal.ofBits, Ideal.ieee, -EReal.coe_mul]; norm_num

theorem hostRsqrt_apply {s : Shape} (y : FVec Ideal s .f32) (j : s.Idx) : Host.rsqrt y j = Ideal.rsqrt (y j) := rfl

theorem degreeScatter_apply (x : S150000.Idx → EReal) (idx : IVec S2000000x1 32) (upd : S2000000.Idx → EReal) (r : Fin 150000) :
    Host.scatterAdd (F := Ideal) (φ := .f32) scatter_S150000_S2000000x1_S2000000_n_0_0_1 x idx upd (ix1 r)
      = x (ix1 r) + ∑ b : Fin 2000000, if (idx (ix2 b (0 : Fin 1))).toInt = (r.val : ℤ) then upd (ix1 b) else 0 :=
  ScatterVec.hostScatterAdd_vec scatter_S150000_S2000000x1_S2000000_n_0_0_1.wf x idx upd r

theorem targetCol_apply (A : (⟨S2x2000000, .i32⟩ : BufTy).Contents (Elt Ideal)) (e : Fin 2000000) :
    broadcastInDim S2000000x1 ![0] bcast_S2000000_S2000000x1_0
        (shapeCast S2000000 (extractStridedSlice S1x2000000 ![1, 0] A slices_S2x2000000_S1x2000000_1_0) shapeCasts_S1x2000000_S2000000)
        (ix2 e (0 : Fin 1))
      = A (ix2 (1 : Fin 2) e) :=
  (bcastCol_apply _ _ e).trans (sliceRow_apply A (1 : Fin 2) slices_S2x2000000_S1x2000000_1_0 shapeCasts_S1x2000000_S2000000 e)

theorem degree_apply (A : (⟨S2x2000000, .i32⟩ : BufTy).Contents (Elt Ideal)) (i : Fin 150000) :
    Host.rsqrt (F := Ideal) (addf (Host.scatterAdd (F := Ideal) scatter_S150000_S2000000x1_S2000000_n_0_0_1
        (broadcastInDim S150000 ![] bcast_S_S150000 (constant S_ .f32 0x00000000#32))
        (broadcastInDim S2000000x1 ![0] bcast_S2000000_S2000000x1_0
          (shapeCast S2000000 (extractStridedSlice S1x2000000 ![1, 0] A slices_S2x2000000_S1x2000000_1_0) shapeCasts_S1x2000000_S2000000))
        (broadcastInDim S2000000 ![] bcast_S_S2000000 (constant S_ .f32 0x3F800000#32)))
      (broadcastInDim S150000 ![] bcast_S_S150000 (constant S_ .f32 0x3F800000#32))) (ix1 i)
    = Ideal.rsqrt ((0 + ∑ e : Fin 2000000, if (A (ix2 (1 : Fin 2) e)).toInt = ((i.val : ℕ) : ℤ) then (1 : EReal) else 0) + 1) := by
  rw [hostRsqrt_apply, addf_apply, degreeScatter_apply, bcastScalar_apply, bcastScalar_apply]
  rw [constant_apply, constant_apply, Ideal.ofBits_zero_f32, one_f32]
  refine congrArg (fun S => Ideal.rsqrt ((0 + S) + 1)) (Finset.sum_congr rfl fun e _ => ?_)
  rw [targetCol_apply, bcastScalar_apply, constant_apply, one_f32]

theorem dinvc (i : Fin 150000) : W1 m ρ c (Proc.devRef .tc main_v12) (ix2 i (0 : Fin 1))
      = Ideal.rsqrt ((0 + ∑ e : Fin 2000000, if (m ((c : Thread nD τ).loc main_arg0) (ix2 (1 : Fin 2) e)).toInt = ((i.val : ℕ) : ℤ) then (1 : EReal) else 0) + 1) := by
  show StableHlo.after hostOps0 (W0 m ρ c) (Proc.devRef .tc main_v12) (ix2 i (0 : Fin 1)) = _
  after_results
  exact (dropUnitCol_apply _ shapeCasts_S150000_S150000x1 i).trans (degree_apply (m ((c : Thread nD τ).loc main_arg0)) i)

theorem x0s (i : Fin 150000) (d : Fin 16) : W1 m ρ c (Proc.devRef .tc main_v21) (ix2 i d)
      = ((if h : i.val < 100000 then m ((c : Thread nD τ).loc main_arg1) (ix2 (⟨i.val, h⟩ : Fin 100000) d)
          else m ((c : Thread nD τ).loc main_arg2) (ix2 (⟨i.val - 100000, by have := i.isLt; omega⟩ : Fin 50000) d) : EReal))
        * Ideal.rsqrt ((0 + ∑ e : Fin 2000000, if (m ((c : Thread nD τ).loc main_arg0) (ix2 (1 : Fin 2) e)).toInt = ((i.val : ℕ) : ℤ) then (1 : EReal) else 0) + 1) := by
  show StableHlo.after hostOps0 (W0 m ρ c) (Proc.devRef .tc main_v21) (ix2 i d) = _
  after_results_simp
  rw [mulf_apply, concatRows_apply, bcastRows_apply]
  refine congrArg (_ * ·) ?_
  exact (dropUnitCol_apply _ shapeCasts_S150000_S150000x1 i).trans (degree_apply (m ((c : Thread nD τ).loc main_arg0)) i)

end Cert.KernelIdeal.KSeg0
-- ==== Proof.LibGatherRow.lean ====
import Idealize.ShloMosaic.PureOps
import Idealize.ShloMosaic.Lib.ValueIdx

noncomputable section

namespace Idealize.ShloMosaic.GatherRow

open Idealize.ShloMosaic Idealize.ShloMosaic.ValueIdx

variable {α : Type}

abbrev dims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

def sel {N R w : Nat} (hN : 0 < N) (idx : IVec ⟨2, ![R, 1]⟩ w) (e : Fin R) : Fin N :=
  ⟨min (idx (ix2 e (0 : Fin 1))).toInt.toNat (N - 1), by omega⟩

theorem siIdx_row {N D R : Nat}
    (wf : GatherDims.WF ⟨2, ![N, D]⟩ ⟨2, ![R, 1]⟩ ⟨2, ![R, D]⟩ [1] [0] [] [0] [] 1 ![1, D])
    (y : (⟨2, ![R, D]⟩ : Shape).Idx) (c : Fin (dims N D R wf).startIndexMap.length) :
    (dims N D R wf).siIdx y c = ix2 (⟨(y 0).val, (y 0).isLt⟩ : Fin R) (0 : Fin 1) := by
  funext b
  refine Fin.ext ?_
  match b with
  | ⟨0, _⟩ => rfl
  | ⟨1, _⟩ =>
    show c.val = 0
    have := c.isLt
    simp only [List.length_singleton] at this
    omega

theorem one_mem_sKept {N D R : Nat}
    (wf : GatherDims.WF ⟨2, ![N, D]⟩ ⟨2, ![R, 1]⟩ ⟨2, ![R, D]⟩ [1] [0] [] [0] [] 1 ![1, D]) :
    (1 : Fin 2) ∈ (dims N D R wf).sKept :=
  (GatherDims.mem_sKept _ _).mpr ⟨(by decide : (1 : Fin 2) ∉ [0]), List.not_mem_nil⟩

theorem gather_row_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (y : (⟨2, ![R, D]⟩ : Shape).Idx) :
    Host.gather (dims N D R wf) x idx y
      = x (ix2 (sel hN idx ⟨(y 0).val, (y 0).isLt⟩) (⟨(y 1).val, (y 1).isLt⟩ : Fin D)) := by
  unfold Host.gather
  congr 1
  funext a
  refine Fin.ext ?_
  match a with
  | ⟨0, _⟩ =>

    show (dims N D R wf).start y idx 0 + (dims N D R wf).batchCoord y 0 + (dims N D R wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims N D R wf).startIndexMap from List.mem_singleton.mpr rfl), siIdx_row]
    rfl
  | ⟨1, _⟩ =>

    show (dims N D R wf).start y idx 1 + (dims N D R wf).batchCoord y 1 + (dims N D R wf).offCoord y 1 = (y 1).val
    rw [GatherDims.batchCoord_eq_zero _ _ _ List.not_mem_nil]
    unfold GatherDims.start GatherDims.offCoord
    rw [dif_neg (show ¬ (1 : Fin 2) ∈ (dims N D R wf).startIndexMap from (by decide : (1 : Fin 2) ∉ [0])),
      dif_pos (one_mem_sKept wf)]
    simp only [Nat.zero_add]
    rfl

end Idealize.ShloMosaic.GatherRow

end
-- ==== Proof.LibGatherClamp.lean ====
import Idealize.ShloMosaic.PureOps
import Idealize.ShloMosaic.Lib.ValueIdx

noncomputable section

namespace Idealize.ShloMosaic.GatherClamp

open Idealize.ShloMosaic

theorem gather_congr_of_clamp {α : Type} {s si t : Shape} {w : Nat} (d : GatherDims s si t) (x : s.Idx → α)
    (idx idx' : IVec si w)
    (h : ∀ a ∈ d.startIndexMap, ∀ i : si.Idx,
      min (idx i).toInt.toNat (s.size a - d.sliceSizes a) = min (idx' i).toInt.toNat (s.size a - d.sliceSizes a)) :
    Host.gather d x idx = Host.gather d x idx' := by
  funext j
  unfold Host.gather
  congr 1
  funext a
  apply Fin.ext
  show d.start j idx a + d.batchCoord j a + d.offCoord j a = d.start j idx' a + d.batchCoord j a + d.offCoord j a
  congr 2
  unfold GatherDims.start
  split
  · rename_i ha; exact h a ha _
  · rfl

theorem toInt_zero32 : (0#32 : BitVec 32).toInt = 0 := by decide

theorem slt_zero_of_nonneg (q : BitVec 32) (h : 0 ≤ q.toInt) : IntOp.cmpi .slt q 0#32 = 0#1 := by
  unfold IntOp.cmpi
  have : q.slt 0#32 = false := by
    simp only [BitVec.slt, toInt_zero32, decide_eq_false_iff_not]; omega
  rw [this]; rfl

theorem wrap_of_nonneg (q n : BitVec 32) (h : 0 ≤ q.toInt) :
    Scalar.select (IntOp.cmpi .slt q 0#32) (IntOp.addi q n) q = q := by
  rw [slt_zero_of_nonneg q h]; exact ValueIdx.select_zero _ _

theorem maxsi_zero_of_nonneg (q : BitVec 32) (h : 0 ≤ q.toInt) : IntOp.maxsi 0#32 q = q := by
  unfold IntOp.maxsi
  have : q.slt 0#32 = false := by
    simp only [BitVec.slt, toInt_zero32, decide_eq_false_iff_not]; omega
  rw [this]; rfl

theorem minsi_eq (a b : BitVec 32) : IntOp.minsi a b = if a.toInt < b.toInt then a else b := by
  unfold IntOp.minsi
  simp only [BitVec.slt, decide_eq_true_eq]

theorem clamp_clip_of_nonneg (q hi : BitVec 32) (M : Nat) (hq : 0 ≤ q.toInt) (hhi : hi.toInt = (M : Int)) :
    min (IntOp.minsi hi (IntOp.maxsi 0#32 q)).toInt.toNat M = min q.toInt.toNat M := by
  rw [maxsi_zero_of_nonneg q hq, minsi_eq]
  split
  · rename_i hlt
    rw [hhi] at hlt ⊢
    simp only [Int.toNat_natCast]
    omega
  · rfl

theorem clamp_wrap_clip_of_nonneg (q hi n : BitVec 32) (M : Nat) (hq : 0 ≤ q.toInt) (hhi : hi.toInt = (M : Int)) :
    min (Scalar.select (IntOp.cmpi .slt (IntOp.minsi hi (IntOp.maxsi 0#32 q)) 0#32)
        (IntOp.addi (IntOp.minsi hi (IntOp.maxsi 0#32 q)) n) (IntOp.minsi hi (IntOp.maxsi 0#32 q))).toInt.toNat M
      = min (Scalar.select (IntOp.cmpi .slt q 0#32) (IntOp.addi q n) q).toInt.toNat M := by
  have hc : 0 ≤ (IntOp.minsi hi (IntOp.maxsi 0#32 q)).toInt := by
    rw [maxsi_zero_of_nonneg q hq, minsi_eq]
    split
    · rw [hhi]; exact Int.natCast_nonneg M
    · exact hq
  rw [wrap_of_nonneg _ n hc, wrap_of_nonneg q n hq]
  exact clamp_clip_of_nonneg q hi M hq hhi

end Idealize.ShloMosaic.GatherClamp

end
-- ==== Proof.KHostShared.lean ====
import proofs.«423179_j27462020891318_2_alg».proof.Proof.Gen.KernelIdeal.Frame
import proofs.«423179_j27462020891318_2_alg».proof.Proof.LibGatherRow
import proofs.«423179_j27462020891318_2_alg».proof.Proof.LibGatherClamp
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Reduce
import Idealize.ShloMosaic.PureOps.Ideal.Laws

noncomputable section

namespace Cert.KernelIdeal.KHostShared

open Cert.KernelIdeal Cert.KernelIdeal.Gen Idealize.ShloMosaic Idealize.ShloMosaic.TcCoe Idealize.ShloMosaic.ValueIdx
  Idealize.ShloMosaic.StableHlo Idealize.SL.Sem

theorem sge_zero_of_nonneg (q : BitVec 32) (h : 0 ≤ q.toInt) : IntOp.cmpi .sge q 0#32 = 1#1 := by
  unfold IntOp.cmpi
  have : (0#32 : BitVec 32).sle q = true := by
    simp only [BitVec.sle, GatherClamp.toInt_zero32, decide_eq_true_eq]; exact h
  rw [this]; rfl

theorem sle_of_toInt_le (q hi : BitVec 32) (h : q.toInt ≤ hi.toInt) : IntOp.cmpi .sle q hi = 1#1 := by
  unfold IntOp.cmpi
  have : q.sle hi = true := by
    simp only [BitVec.sle, decide_eq_true_eq]; exact h
  rw [this]; rfl

theorem fold_andi_ones {ι : Type} (S : Finset ι) (f : ι → BitVec 1) (hf : ∀ i ∈ S, f i = 1#1) :
    S.fold IntOp.andi 1#1 f = 1#1 := by
  induction S using Finset.cons_induction with
  | empty => rfl
  | cons a S ha ih =>
    rw [Finset.fold_cons, hf a (Finset.mem_cons_self a S), ih (fun i hi => hf i (Finset.mem_cons_of_mem hi))]
    rfl

/-- The row numbers of a lookup `table[v]`, `nW` added to the negative ones, as a column. -/
abbrev wrapCol (v : IVec S2000000 32) (nW : BitVec 32) : IVec S2000000x1 32 :=
  broadcastInDim S2000000x1 ![0] bcast_S2000000_S2000000x1_0
    (select (cmpi .slt v (broadcastInDim S2000000 ![] bcast_S_S2000000 (constantI S_ 32 0#32)))
      (addi v (broadcastInDim S2000000 ![] bcast_S_S2000000 (constantI S_ 32 nW))) v)

/-- One bit per row number: does it lie in `[0, hiW]`? -/
abbrev inRows (idx : IVec S2000000x1 32) (hiW : BitVec 32) : IVec S2000000 1 :=
  Host.reduce IntOp.andi
    (andi (cmpi .sge idx (broadcastInDim S2000000x1 ![] bcast_S_S2000000x1 (constantI S_ 32 0#32)))
      (cmpi .sle idx (broadcastInDim S2000000x1 ![0, 1] bcast_S1x1_S2000000x1_0_1
        (broadcastInDim S1x1 ![1] bcast_S1_S1x1_1 (constantI S1 32 hiW)))))
    (constantI S_ 1 1#1) reducesTo_S2000000x1_S2000000_d1 h_S_

/-- Nothing is added to a non-negative row number. -/
theorem wrapCol_apply (v : IVec S2000000 32) (nW : BitVec 32) (e : Fin 2000000) (k : Fin 1) (h : 0 ≤ (v (ix1 e)).toInt) :
    wrapCol v nW (ix2 e k) = v (ix1 e) := by
  unfold wrapCol
  rw [broadcastInDim_apply _ bcast_S2000000_S2000000x1_0 _ (ix2 e k) (ix1 e) (fun a => match a with
    | ⟨0, _⟩ => by show e.val = if (2000000 : Nat) = 1 then 0 else e.val; rw [if_neg (by decide)])]
  exact GatherClamp.wrap_of_nonneg (v (ix1 e)) nW h

/-- With every row number inside `[0, hiW]` the range test holds everywhere. -/
theorem inRows_wrapCol (v : IVec S2000000 32) (nW hiW : BitVec 32)
    (hv : ∀ e : Fin 2000000, 0 ≤ (v (ix1 e)).toInt ∧ (v (ix1 e)).toInt ≤ hiW.toInt) (e : Fin 2000000) :
    inRows (wrapCol v nW) hiW (ix1 e) = 1#1 := by
  unfold inRows
  rw [Host.reduce_eq_fold]
  refine fold_andi_ones _ _ (fun i _ => ?_)
  obtain ⟨a, k, rfl⟩ : ∃ a k, i = ix2 a k := ⟨i 0, i 1, eq_ix2 i⟩
  show IntOp.andi (IntOp.cmpi .sge (wrapCol v nW (ix2 a k)) 0#32) (IntOp.cmpi .sle (wrapCol v nW (ix2 a k)) hiW) = 1#1
  rw [wrapCol_apply v nW a k (hv a).1, sge_zero_of_nonneg _ (hv a).1, sle_of_toInt_le _ _ (hv a).2]
  rfl

section Take

variable {N D : Nat}
  (hm : S2000000.BroadcastsInDim (⟨2, ![2000000, D]⟩ : Shape) (![0] : Fin 1 → Fin 2))
  (hn : S_.BroadcastsInDim (⟨2, ![2000000, D]⟩ : Shape) (![] : Fin 0 → Fin 2))
  (wf : GatherDims.WF ⟨2, ![N, D]⟩ ⟨2, ![2000000, 1]⟩ ⟨2, ![2000000, D]⟩ [1] [0] [] [0] [] 1 ![1, D])

/-- The lookup `table[v]` of rows of a table `[N, D]`: the gathered rows where the range test holds, NaN elsewhere. -/
def takeOf (nW hiW : BitVec 32) (x : (⟨2, ![N, D]⟩ : Shape).Idx → EReal) (v : IVec S2000000 32) :
    (⟨2, ![2000000, D]⟩ : Shape).Idx → EReal :=
  select (broadcastInDim (⟨2, ![2000000, D]⟩ : Shape) ![0] hm (inRows (wrapCol v nW) hiW))
    (Host.gather (GatherRow.dims N D 2000000 wf) x (wrapCol v nW))
    (broadcastInDim (⟨2, ![2000000, D]⟩ : Shape) ![] hn (constant (F := Ideal) S_ .f32 0x7FC00000#32))

/-- With every row number `r e` in `[0, N)`, row `e` of the lookup is the table's row `r e` (clamped to `N - 1`). -/
theorem takeOf_apply (hN : 0 < N) (nW hiW : BitVec 32) (hhi : hiW.toInt = (N : Int) - 1)
    (x : (⟨2, ![N, D]⟩ : Shape).Idx → EReal) (v : IVec S2000000 32) (r : Fin 2000000 → BitVec 32)
    (hr : ∀ e, v (ix1 e) = r e) (hv : ∀ e, 0 ≤ (r e).toInt ∧ (r e).toInt < N) (e : Fin 2000000) (k : Fin D) :
    takeOf hm hn wf nW hiW x v (ix2 e k) = x (ix2 (⟨min (r e).toInt.toNat (N - 1), by omega⟩ : Fin N) k) := by
  unfold takeOf
  rw [select_apply, broadcastInDim_apply _ hm _ (ix2 e k) (ix1 e) (fun a => match a with
    | ⟨0, _⟩ => by show e.val = if (2000000 : Nat) = 1 then 0 else e.val; rw [if_neg (by decide)]),
    inRows_wrapCol v nW hiW (fun a => by rw [hr a, hhi]; have := hv a; omega) e, select_one,
    GatherRow.gather_row_apply hN wf]
  refine congrArg (fun i => x (ix2 i k)) (Fin.ext ?_)
  show min (wrapCol v nW (ix2 e (0 : Fin 1))).toInt.toNat (N - 1) = _
  rw [wrapCol_apply v nW e 0 (by rw [hr e]; exact (hv e).1), hr e]

end Take

/-- To the buffer's type and back is the identity. -/
theorem ofBuf_toBuf {T : BufTy} (x : StableHlo.TRef sig T) (v : T.Contents (Elt Ideal)) : x.ofBuf (x.toBuf v) = v := by
  obtain ⟨ref, ty_eq, on_device, unscoped⟩ := x
  subst ty_eq
  rfl

end Cert.KernelIdeal.KHostShared

end
-- ==== Proof.LibScatterRows.lean ====
import Idealize.ShloMosaic.PureOps.Ideal
import Idealize.ShloMosaic.Lib.ValueIdx

noncomputable section

open scoped BigOperators

namespace Idealize.ShloMosaic.ScatterRows

open Idealize.ShloMosaic Idealize.ShloMosaic.ValueIdx

abbrev rowDims (R C N : ℕ)
    (wf : ScatterDims.WF (⟨2, ![R, C]⟩ : Shape) (⟨2, ![N, 1]⟩ : Shape) (⟨2, ![N, C]⟩ : Shape) [1] [0] [0] 1) :
    ScatterDims (⟨2, ![R, C]⟩ : Shape) (⟨2, ![N, 1]⟩ : Shape) (⟨2, ![N, C]⟩ : Shape) where
  updateWindowDims := [1]
  insertedWindowDims := [0]
  scatterDimsToOperandDims := [0]
  indexVectorDim := 1
  wf := wf

section Fields

variable {R C N w : ℕ}
  (wf : ScatterDims.WF (⟨2, ![R, C]⟩ : Shape) (⟨2, ![N, 1]⟩ : Shape) (⟨2, ![N, C]⟩ : Shape) [1] [0] [0] 1)

theorem sKept_rows : (rowDims R C N wf).sKept = ([1] : List (Fin 2)) := by
  show (List.finRange 2).filter (fun a : Fin 2 => decide (a ∉ ([0] : List (Fin 2)))) = [1]
  decide

theorem siIdx_rows (j : (⟨2, ![N, C]⟩ : Shape).Idx) (c : Fin (rowDims R C N wf).scatterDimsToOperandDims.length) :
    (rowDims R C N wf).siIdx j c = ix2 (j 0) (0 : Fin 1) := by
  funext a
  match a with
  | ⟨0, _⟩ =>
    unfold ScatterDims.siIdx
    rw [dif_neg (show ¬ (0 : ℕ) = 1 by decide)]
    apply Fin.ext
    rfl
  | ⟨1, _⟩ =>
    unfold ScatterDims.siIdx
    rw [dif_pos (show (1 : ℕ) = 1 from rfl)]
    apply Fin.ext
    have hc : c.val < 1 := c.isLt
    show c.val = 0
    omega

theorem start_zero (j : (⟨2, ![N, C]⟩ : Shape).Idx) (idx : IVec (⟨2, ![N, 1]⟩ : Shape) w) :
    (rowDims R C N wf).start j idx (0 : Fin 2) = (idx (ix2 (j 0) (0 : Fin 1))).toInt := by
  unfold ScatterDims.start
  rw [dif_pos (show (0 : Fin 2) ∈ ([0] : List (Fin 2)) by decide)]
  rw [siIdx_rows]
  rfl

theorem start_one (j : (⟨2, ![N, C]⟩ : Shape).Idx) (idx : IVec (⟨2, ![N, 1]⟩ : Shape) w) :
    (rowDims R C N wf).start j idx (1 : Fin 2) = 0 := by
  unfold ScatterDims.start
  rw [dif_neg (show ¬ (1 : Fin 2) ∈ ([0] : List (Fin 2)) by decide)]

theorem window_zero (j : (⟨2, ![N, C]⟩ : Shape).Idx) :
    (rowDims R C N wf).window j (0 : Fin 2) = 0 := by
  unfold ScatterDims.window
  rw [dif_neg (by rw [sKept_rows]; show ¬ (0 : Fin 2) ∈ ([1] : List (Fin 2)); decide)]

theorem window_one (j : (⟨2, ![N, C]⟩ : Shape).Idx) :
    (rowDims R C N wf).window j (1 : Fin 2) = (j 1).val := by
  unfold ScatterDims.window
  rw [dif_pos (by rw [sKept_rows]; show (1 : Fin 2) ∈ ([1] : List (Fin 2)); decide)]
  rfl

end Fields

theorem resultIdx?_rows {R C N w : ℕ}
    (wf : ScatterDims.WF (⟨2, ![R, C]⟩ : Shape) (⟨2, ![N, 1]⟩ : Shape) (⟨2, ![N, C]⟩ : Shape) [1] [0] [0] 1)
    (idx : IVec (⟨2, ![N, 1]⟩ : Shape) w) (b : Fin N) (f : Fin C) (r : Fin R) (h : Fin C) :
    (rowDims R C N wf).resultIdx? (ix2 b f) idx = some (ix2 r h)
      ↔ (idx (ix2 b (0 : Fin 1))).toInt = (r.val : ℤ) ∧ f = h := by
  have s0 : (rowDims R C N wf).start (ix2 b f) idx (0 : Fin 2) = (idx (ix2 b (0 : Fin 1))).toInt :=
    start_zero wf (ix2 b f) idx
  have s1 := start_one wf (ix2 b f) idx
  have w0 := window_zero wf (ix2 b f)
  have w1 : (rowDims R C N wf).window (ix2 b f) (1 : Fin 2) = f.val := window_one wf (ix2 b f)
  have hr : r.val < R := r.isLt
  have hh : h.val < C := h.isLt
  have hf : f.val < C := f.isLt
  unfold ScatterDims.resultIdx?
  constructor
  ·
    intro hres
    split at hres
    · rename_i hb
      have e := Option.some.inj hres
      have e0 : ((rowDims R C N wf).start (ix2 b f) idx (0 : Fin 2)
          + ((rowDims R C N wf).window (ix2 b f) (0 : Fin 2) : ℤ)).toNat = r.val :=
        congrArg (fun i : (⟨2, ![R, C]⟩ : Shape).Idx => (i 0).val) e
      have e1 : ((rowDims R C N wf).start (ix2 b f) idx (1 : Fin 2)
          + ((rowDims R C N wf).window (ix2 b f) (1 : Fin 2) : ℤ)).toNat = h.val :=
        congrArg (fun i : (⟨2, ![R, C]⟩ : Shape).Idx => (i 1).val) e
      have h0 : 0 ≤ (rowDims R C N wf).start (ix2 b f) idx (0 : Fin 2)
          + ((rowDims R C N wf).window (ix2 b f) (0 : Fin 2) : ℤ) := (hb 0).1
      rw [s0, w0] at e0 h0
      rw [s1, w1] at e1
      refine ⟨by omega, Fin.ext (by omega)⟩
    · exact absurd hres (by simp)
  ·
    rintro ⟨hi, rfl⟩
    have H : ∀ a : Fin 2, 0 ≤ (rowDims R C N wf).start (ix2 b f) idx a + ((rowDims R C N wf).window (ix2 b f) a : ℤ)
        ∧ (rowDims R C N wf).start (ix2 b f) idx a + ((rowDims R C N wf).window (ix2 b f) a : ℤ)
          < ((⟨2, ![R, C]⟩ : Shape).size a : ℤ) := by
      refine Fin.forall_fin_two.2 ⟨?_, ?_⟩
      · rw [s0, w0, hi]
        show 0 ≤ (r.val : ℤ) + ((0 : ℕ) : ℤ) ∧ (r.val : ℤ) + ((0 : ℕ) : ℤ) < (R : ℤ)
        omega
      · rw [s1, w1]
        show 0 ≤ (0 : ℤ) + (f.val : ℤ) ∧ (0 : ℤ) + (f.val : ℤ) < (C : ℤ)
        omega
    rw [dif_pos H]
    refine congrArg some (funext fun a => ?_)
    match a with
    | ⟨0, _⟩ =>
      apply Fin.ext
      show ((rowDims R C N wf).start (ix2 b f) idx (0 : Fin 2)
          + ((rowDims R C N wf).window (ix2 b f) (0 : Fin 2) : ℤ)).toNat = r.val
      rw [s0, w0, hi]
      omega
    | ⟨1, _⟩ =>
      apply Fin.ext
      show ((rowDims R C N wf).start (ix2 b f) idx (1 : Fin 2)
          + ((rowDims R C N wf).window (ix2 b f) (1 : Fin 2) : ℤ)).toNat = f.val
      rw [s1, w1]
      omega

theorem hostScatterAdd_rows {R C N w : ℕ}
    (wf : ScatterDims.WF (⟨2, ![R, C]⟩ : Shape) (⟨2, ![N, 1]⟩ : Shape) (⟨2, ![N, C]⟩ : Shape) [1] [0] [0] 1)
    (x : (⟨2, ![R, C]⟩ : Shape).Idx → EReal) (idx : IVec (⟨2, ![N, 1]⟩ : Shape) w)
    (upd : (⟨2, ![N, C]⟩ : Shape).Idx → EReal) (r : Fin R) (h : Fin C) :
    Ideal.hostScatterAdd (rowDims R C N wf) x idx upd (ix2 r h)
      = x (ix2 r h) + ∑ b : Fin N, if (idx (ix2 b (0 : Fin 1))).toInt = (r.val : ℤ) then upd (ix2 b h) else 0 := by
  unfold Ideal.hostScatterAdd
  refine congrArg (x (ix2 r h) + ·) ?_

  rw [Finset.sum_filter, sum_idx2]
  refine Finset.sum_congr rfl (fun b _ => ?_)
  by_cases hi : (idx (ix2 b (0 : Fin 1))).toInt = (r.val : ℤ)
  ·
    rw [if_pos hi]
    have e : ∀ f : Fin C, (if (rowDims R C N wf).resultIdx? (ix2 b f) idx = some (ix2 r h) then upd (ix2 b f) else 0)
        = if f = h then upd (ix2 b f) else 0 := by
      intro f
      refine if_congr ?_ rfl rfl
      rw [resultIdx?_rows wf idx b f r h]
      exact ⟨fun p => p.2, fun p => ⟨hi, p⟩⟩
    rw [Finset.sum_congr rfl (fun f _ => e f), Finset.sum_ite_eq' Finset.univ h (fun f => upd (ix2 b f)),
      if_pos (Finset.mem_univ h)]
  ·
    rw [if_neg hi]
    refine Finset.sum_eq_zero (fun f _ => ?_)
    rw [if_neg]
    rw [resultIdx?_rows wf idx b f r h]
    exact fun p => hi p.1

end Idealize.ShloMosaic.ScatterRows

end
-- ==== Proof.KTakeScatter.lean ====
import proofs.«423179_j27462020891318_2_alg».proof.Proof.KHostShared
import proofs.«423179_j27462020891318_2_alg».proof.Proof.LibScatterRows

noncomputable section

open scoped BigOperators

namespace Cert.KernelIdeal.KTakeScatter

open Cert.KernelIdeal Cert.KernelIdeal.Gen Idealize.ShloMosaic Idealize.ShloMosaic.TcCoe Idealize.ShloMosaic.ValueIdx
open Idealize.ShloMosaic.StableHlo Idealize.SL.Sem Cert.KernelIdeal.KHostShared

section Width

variable {D : Nat}
  (hm : S2000000.BroadcastsInDim (⟨2, ![2000000, D]⟩ : Shape) (![0] : Fin 1 → Fin 2))
  (hn : S_.BroadcastsInDim (⟨2, ![2000000, D]⟩ : Shape) (![] : Fin 0 → Fin 2))
  (wf : GatherDims.WF ⟨2, ![150000, D]⟩ ⟨2, ![2000000, 1]⟩ ⟨2, ![2000000, D]⟩ [1] [0] [] [0] [] 1 ![1, D])
  (hz : S_.BroadcastsInDim (⟨2, ![150000, D]⟩ : Shape) (![] : Fin 0 → Fin 2))
  (wfs : ScatterDims.WF (⟨2, ![150000, D]⟩ : Shape) (⟨2, ![2000000, 1]⟩ : Shape) (⟨2, ![2000000, D]⟩ : Shape) [1] [0] [0] 1)

/-- Update rows added into a zero table, row `e` into the row its target word names. -/
def scatterOf (cw : IVec S2000000 32) (upd : (⟨2, ![2000000, D]⟩ : Shape).Idx → EReal) : (⟨2, ![150000, D]⟩ : Shape).Idx → EReal :=
  Host.scatterAdd (F := Ideal) (φ := .f32) (ScatterRows.rowDims 150000 D 2000000 wfs)
    (broadcastInDim (⟨2, ![150000, D]⟩ : Shape) ![] hz (constant (F := Ideal) S_ .f32 0x00000000#32))
    (broadcastInDim S2000000x1 ![0] bcast_S2000000_S2000000x1_0 cw) upd

/-- Entry `(i, h)` collects column `h` of the updates of the edges whose target word is `i`. -/
theorem scatterOf_apply (cw : IVec S2000000 32) (upd : (⟨2, ![2000000, D]⟩ : Shape).Idx → EReal) (i : Fin 150000) (h : Fin D) :
    scatterOf hz wfs cw upd (ix2 i h)
      = 0 + ∑ e : Fin 2000000, if (cw (ix1 e)).toInt = ((i.val : ℕ) : ℤ) then upd (ix2 e h) else 0 := by
  unfold scatterOf
  rw [show Host.scatterAdd (F := Ideal) (φ := .f32) (ScatterRows.rowDims 150000 D 2000000 wfs)
      = Ideal.hostScatterAdd (ScatterRows.rowDims 150000 D 2000000 wfs) from rfl,
    ScatterRows.hostScatterAdd_rows]
  refine congrArg₂ (fun a b : EReal => a + b) Ideal.ofBits_zero_f32 (Finset.sum_congr rfl (fun e _ => ?_))
  rw [broadcastInDim_apply _ bcast_S2000000_S2000000x1_0 cw (ix2 e (0 : Fin 1)) (ix1 e) (fun a => match a with
    | ⟨0, _⟩ => by show e.val = if (2000000 : Nat) = 1 then 0 else e.val; rw [if_neg (by decide)])]

/-- Lookup, then scatter-add: entry `(i, h)` sums, over the edges into `i`, column `h` of the table's row at the edge's source word. -/
theorem agg (T : Fin 150000 → Fin D → EReal) (r cw : Fin 2000000 → BitVec 32)
    (x : (⟨2, ![150000, D]⟩ : Shape).Idx → EReal) (rv cv : IVec S2000000 32) (out : (⟨2, ![2000000, D]⟩ : Shape).Idx → EReal)
    (ho : ∀ j, out j = takeOf hm hn wf 150000#32 149999#32 x rv j)
    (hT : ∀ i h, x (ix2 i h) = T i h) (hr : ∀ e, rv (ix1 e) = r e) (hc : ∀ e, cv (ix1 e) = cw e)
    (hrange : ∀ e, 0 ≤ (r e).toInt ∧ (r e).toInt < 150000) (i : Fin 150000) (h : Fin D) :
    scatterOf hz wfs cv out (ix2 i h)
      = 0 + ∑ e : Fin 2000000, if (cw e).toInt = ((i.val : ℕ) : ℤ) then T ⟨min (r e).toInt.toNat 149999, by omega⟩ h else 0 := by
  rw [scatterOf_apply]
  refine congrArg (fun s : EReal => 0 + s) (Finset.sum_congr rfl (fun e _ => ?_))
  rw [hc e, ho]
  refine congrArg (fun v : EReal => if (cw e).toInt = ((i.val : ℕ) : ℤ) then v else 0) ?_
  rw [takeOf_apply hm hn wf (by decide) _ _ (by decide) x rv r hr (fun e' => by have := hrange e'; omega) e h, hT]

end Width

/-! The two stretches of an aggregation, from any contents at entry. -/

theorem run2 (V : Valuation τ sig (Elt Ideal)) :
    StableHlo.after hostOps2_1 (StableHlo.after hostOps2 V) (Proc.devRef .tc main_v42)
      = scatterOf bcast_S_S150000x64 scatter_S150000x64_S2000000x1_S2000000x64_1_0_0_1_wf (V (Proc.devRef .tc main_v3))
          ((.of main_v39 : StableHlo.TRef sig ⟨S2000000x64, .f32⟩).toBuf (Val := Elt Ideal)
            (takeOf bcast_S2000000_S2000000x64_0 bcast_S_S2000000x64 gather_S150000x64_S2000000x1_S2000000x64_1_0_n_n_0_1_164_wf 150000#32 149999#32
              ((.of main_v38 : StableHlo.TRef sig ⟨S150000x64, .f32⟩).ofBuf (V (Proc.devRef .tc main_v38)))
              ((.of main_v1 : StableHlo.TRef sig ⟨S2000000, .i32⟩).ofBuf (V (Proc.devRef .tc main_v1))))) := by
  after_results_simp
  simp only [ofBuf_toBuf]
  unfold scatterOf takeOf
  rfl

theorem run3 (V : Valuation τ sig (Elt Ideal)) :
    StableHlo.after hostOps4_1 (StableHlo.after hostOps4 V) (Proc.devRef .tc main_v59)
      = scatterOf bcast_S_S150000x64 scatter_S150000x64_S2000000x1_S2000000x64_1_0_0_1_wf (V (Proc.devRef .tc main_v3))
          ((.of main_v56 : StableHlo.TRef sig ⟨S2000000x64, .f32⟩).toBuf (Val := Elt Ideal)
            (takeOf bcast_S2000000_S2000000x64_0 bcast_S_S2000000x64 gather_S150000x64_S2000000x1_S2000000x64_1_0_n_n_0_1_164_wf 150000#32 149999#32
              ((.of main_v55 : StableHlo.TRef sig ⟨S150000x64, .f32⟩).ofBuf (V (Proc.devRef .tc main_v55)))
              ((.of main_v1 : StableHlo.TRef sig ⟨S2000000, .i32⟩).ofBuf (V (Proc.devRef .tc main_v1))))) := by
  after_results_simp
  simp only [ofBuf_toBuf]
  unfold scatterOf takeOf
  rfl

theorem run0 (V : Valuation τ sig (Elt Ideal)) :
    StableHlo.after hostOps0_2 (StableHlo.after hostOps0_1 V) (Proc.devRef .tc main_v25)
      = scatterOf bcast_S_S150000x16 scatter_S150000x16_S2000000x1_S2000000x16_1_0_0_1_wf (V (Proc.devRef .tc main_v3))
          ((.of main_v22 : StableHlo.TRef sig ⟨S2000000x16, .f32⟩).toBuf (Val := Elt Ideal)
            (takeOf bcast_S2000000_S2000000x16_0 bcast_S_S2000000x16 gather_S150000x16_S2000000x1_S2000000x16_1_0_n_n_0_1_116_wf 150000#32 149999#32
              ((.of main_v21 : StableHlo.TRef sig ⟨S150000x16, .f32⟩).ofBuf (V (Proc.devRef .tc main_v21)))
              ((.of main_v1 : StableHlo.TRef sig ⟨S2000000, .i32⟩).ofBuf (V (Proc.devRef .tc main_v1))))) := by
  after_results_simp
  simp only [ofBuf_toBuf]
  unfold scatterOf takeOf
  rfl

/-! A lookup's result buffer holds the lookup. -/

theorem toBuf_v39 (f : (⟨S2000000x64, .f32⟩ : BufTy).Contents (Elt Ideal)) (j : S2000000x64.Idx) :
    (.of main_v39 : StableHlo.TRef sig ⟨S2000000x64, .f32⟩).toBuf f j = f j := rfl

theorem toBuf_v56 (f : (⟨S2000000x64, .f32⟩ : BufTy).Contents (Elt Ideal)) (j : S2000000x64.Idx) :
    (.of main_v56 : StableHlo.TRef sig ⟨S2000000x64, .f32⟩).toBuf f j = f j := rfl

theorem toBuf_v22 (f : (⟨S2000000x16, .f32⟩ : BufTy).Contents (Elt Ideal)) (j : S2000000x16.Idx) :
    (.of main_v22 : StableHlo.TRef sig ⟨S2000000x16, .f32⟩).toBuf f j = f j := rfl

variable (m : (ℓ : Loc nD τ sig) → Buf (Elt Ideal) ℓ) (ρ : Dev nD → PrngReg) (c : Dev nD)

theorem agg2 (T : Fin 150000 → Fin 64 → EReal) (r cw : Fin 2000000 → BitVec 32)
    (hT : ∀ i h, W6 m ρ c (Proc.devRef .tc main_v38) (ix2 i h) = T i h)
    (hr : ∀ e, W6 m ρ c (Proc.devRef .tc main_v1) (ix1 e) = r e) (hc : ∀ e, W6 m ρ c (Proc.devRef .tc main_v3) (ix1 e) = cw e)
    (hrange : ∀ e, 0 ≤ (r e).toInt ∧ (r e).toInt < 150000) (i : Fin 150000) (h : Fin 64) :
    W8 m ρ c (Proc.devRef .tc main_v42) (ix2 i h)
      = 0 + ∑ e : Fin 2000000, if (cw e).toInt = ((i.val : ℕ) : ℤ) then T ⟨min (r e).toInt.toNat 149999, by omega⟩ h else 0 := by
  rw [show W8 m ρ c (Proc.devRef .tc main_v42) = _ from run2 (W6 m ρ c)]
  exact agg _ _ _ _ _ T r cw ((.of main_v38 : StableHlo.TRef sig ⟨S150000x64, .f32⟩).ofBuf (W6 m ρ c (Proc.devRef .tc main_v38)))
    ((.of main_v1 : StableHlo.TRef sig ⟨S2000000, .i32⟩).ofBuf (W6 m ρ c (Proc.devRef .tc main_v1))) _ _ (toBuf_v39 _) hT hr hc hrange i h

theorem agg3 (T : Fin 150000 → Fin 64 → EReal) (r cw : Fin 2000000 → BitVec 32)
    (hT : ∀ i h, W11 m ρ c (Proc.devRef .tc main_v55) (ix2 i h) = T i h)
    (hr : ∀ e, W11 m ρ c (Proc.devRef .tc main_v1) (ix1 e) = r e) (hc : ∀ e, W11 m ρ c (Proc.devRef .tc main_v3) (ix1 e) = cw e)
    (hrange : ∀ e, 0 ≤ (r e).toInt ∧ (r e).toInt < 150000) (i : Fin 150000) (h : Fin 64) :
    W13 m ρ c (Proc.devRef .tc main_v59) (ix2 i h)
      = 0 + ∑ e : Fin 2000000, if (cw e).toInt = ((i.val : ℕ) : ℤ) then T ⟨min (r e).toInt.toNat 149999, by omega⟩ h else 0 := by
  rw [show W13 m ρ c (Proc.devRef .tc main_v59) = _ from run3 (W11 m ρ c)]
  exact agg _ _ _ _ _ T r cw ((.of main_v55 : StableHlo.TRef sig ⟨S150000x64, .f32⟩).ofBuf (W11 m ρ c (Proc.devRef .tc main_v55)))
    ((.of main_v1 : StableHlo.TRef sig ⟨S2000000, .i32⟩).ofBuf (W11 m ρ c (Proc.devRef .tc main_v1))) _ _ (toBuf_v56 _) hT hr hc hrange i h

theorem agg0 (T : Fin 150000 → Fin 16 → EReal) (r cw : Fin 2000000 → BitVec 32)
    (hT : ∀ i d, W1 m ρ c (Proc.devRef .tc main_v21) (ix2 i d) = T i d)
    (hr : ∀ e, W1 m ρ c (Proc.devRef .tc main_v1) (ix1 e) = r e) (hc : ∀ e, W1 m ρ c (Proc.devRef .tc main_v3) (ix1 e) = cw e)
    (hrange : ∀ e, 0 ≤ (r e).toInt ∧ (r e).toInt < 150000) (i : Fin 150000) (d : Fin 16) :
    W3 m ρ c (Proc.devRef .tc main_v25) (ix2 i d)
      = 0 + ∑ e : Fin 2000000, if (cw e).toInt = ((i.val : ℕ) : ℤ) then T ⟨min (r e).toInt.toNat 149999, by omega⟩ d else 0 := by
  rw [show W3 m ρ c (Proc.devRef .tc main_v25) = _ from run0 (W1 m ρ c)]
  exact agg _ _ _ _ _ T r cw ((.of main_v21 : StableHlo.TRef sig ⟨S150000x16, .f32⟩).ofBuf (W1 m ρ c (Proc.devRef .tc main_v21)))
    ((.of main_v1 : StableHlo.TRef sig ⟨S2000000, .i32⟩).ofBuf (W1 m ρ c (Proc.devRef .tc main_v1))) _ _ (toBuf_v22 _) hT hr hc hrange i d

end Cert.KernelIdeal.KTakeScatter

end
-- ==== Proof.KMeanVar.lean ====
import proofs.«423179_j27462020891318_2_alg».proof.Proof.Gen.KernelIdeal.Frame
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KMeanVar

open Cert.KernelIdeal Cert.KernelIdeal.Gen Idealize.ShloMosaic Idealize.ShloMosaic.TcCoe Idealize.ShloMosaic.ValueIdx
  Idealize.ShloMosaic.StableHlo Idealize.SL.Sem
open scoped BigOperators

theorem colSum (x : (⟨S150000x64, .f32⟩ : BufTy).Contents (Elt Ideal)) (v : (⟨S_, .f32⟩ : BufTy).Contents (Elt Ideal)) (h : Fin 64) :
    (Host.reduceAdd (F := Ideal) (φ := .f32) x v reducesTo_S150000x64_S64_d0 h_S_ : FVec Ideal S64 .f32) (ix1 h)
      = v (Shape.Idx.first h_S_) + ∑ i : Fin 150000, x (ix2 i h) := by
  simp only [Host.reduceAdd, Ideal.hostReduceAdd_def]
  rw [Ideal.hostReduceAdd_single reducesTo_S150000x64_S64_d0 (by decide)]
  refine congrArg (_ + ·) (Finset.sum_congr rfl fun k _ => ?_)
  exact congrArg x (funext fun a => Fin.ext (by match a with | ⟨0, _⟩ => rfl | ⟨1, _⟩ => rfl))

theorem rowOf (y : (⟨S64, .f32⟩ : BufTy).Contents (Elt Ideal)) (r : Fin 1) (h : Fin 64) :
    broadcastInDim S1x64 ![1] bcast_S64_S1x64_1 y (ix2 r h) = y (ix1 h) :=
  broadcastInDim_apply _ bcast_S64_S1x64_1 y (ix2 r h) (ix1 h) (fun a => match a with
    | ⟨0, _⟩ => by show h.val = if (64 : Nat) = 1 then 0 else h.val; rw [if_neg (by decide)])

theorem splatOf (v : (⟨S_, .f32⟩ : BufTy).Contents (Elt Ideal)) (j : S1x64.Idx) :
    broadcastInDim S1x64 ![] bcast_S_S1x64 v j = v ix0 :=
  broadcastInDim_apply _ bcast_S_S1x64 v j ix0 (fun a => a.elim0)

theorem rowsOf (y : (⟨S1x64, .f32⟩ : BufTy).Contents (Elt Ideal)) (i : Fin 150000) (h : Fin 64) :
    broadcastInDim S150000x64 ![0, 1] bcast_S1x64_S150000x64_0_1 y (ix2 i h) = y (ix2 (0 : Fin 1) h) :=
  broadcastInDim_apply _ bcast_S1x64_S150000x64_0_1 y (ix2 i h) (ix2 (0 : Fin 1) h) (fun a => match a with
    | ⟨0, _⟩ => by show 0 = if (1 : Nat) = 1 then 0 else i.val; rw [if_pos rfl]
    | ⟨1, _⟩ => by show h.val = if (64 : Nat) = 1 then 0 else h.val; rw [if_neg (by decide)])

def meanArr (x : (⟨S150000x64, .f32⟩ : BufTy).Contents (Elt Ideal)) : (⟨S1x64, .f32⟩ : BufTy).Contents (Elt Ideal) :=
  Host.divf (F := Ideal) (φ := .f32)
    (broadcastInDim S1x64 ![1] bcast_S64_S1x64_1
      (Host.reduceAdd (F := Ideal) (φ := .f32) x (constant S_ .f32 0x00000000#32) reducesTo_S150000x64_S64_d0 h_S_))
    (broadcastInDim S1x64 ![] bcast_S_S1x64 (constant (F := Ideal) S_ .f32 0x48127C00#32))

theorem meanArr_apply (x : (⟨S150000x64, .f32⟩ : BufTy).Contents (Elt Ideal)) (h : Fin 64) :
    meanArr x (ix2 (0 : Fin 1) h)
      = Ideal.div (0 + ∑ i : Fin 150000, x (ix2 i h)) (Ideal.ofBits .f32 0x48127C00#32) := by
  unfold meanArr
  show Ideal.div _ _ = _
  rw [rowOf, splatOf, colSum, constant_apply, constant_apply, Ideal.ofBits_zero_f32]

def varArr (x : (⟨S150000x64, .f32⟩ : BufTy).Contents (Elt Ideal)) : (⟨S1x64, .f32⟩ : BufTy).Contents (Elt Ideal) :=
  Host.divf (F := Ideal) (φ := .f32)
    (broadcastInDim S1x64 ![1] bcast_S64_S1x64_1
      (Host.reduceAdd (F := Ideal) (φ := .f32)
        (mulf (F := Ideal) (φ := .f32)
          (subf (F := Ideal) (φ := .f32) x (broadcastInDim S150000x64 ![0, 1] bcast_S1x64_S150000x64_0_1 (meanArr x)))
          (subf (F := Ideal) (φ := .f32) x (broadcastInDim S150000x64 ![0, 1] bcast_S1x64_S150000x64_0_1 (meanArr x))))
        (constant S_ .f32 0x00000000#32) reducesTo_S150000x64_S64_d0 h_S_))
    (broadcastInDim S1x64 ![] bcast_S_S1x64 (constant (F := Ideal) S_ .f32 0x48127C00#32))

theorem varArr_apply (x : (⟨S150000x64, .f32⟩ : BufTy).Contents (Elt Ideal)) (h : Fin 64) :
    varArr x (ix2 (0 : Fin 1) h)
      = Ideal.div (0 + ∑ i : Fin 150000,
            (x (ix2 i h) - Ideal.div (0 + ∑ i' : Fin 150000, x (ix2 i' h)) (Ideal.ofBits .f32 0x48127C00#32))
          * (x (ix2 i h) - Ideal.div (0 + ∑ i' : Fin 150000, x (ix2 i' h)) (Ideal.ofBits .f32 0x48127C00#32)))
          (Ideal.ofBits .f32 0x48127C00#32) := by
  unfold varArr
  show Ideal.div _ _ = _
  rw [rowOf, splatOf, colSum, constant_apply, constant_apply, Ideal.ofBits_zero_f32]
  have key : ∀ i : Fin 150000, broadcastInDim S150000x64 ![0, 1] bcast_S1x64_S150000x64_0_1 (meanArr x) (ix2 i h)
      = Ideal.div (0 + ∑ i' : Fin 150000, x (ix2 i' h)) (Ideal.ofBits .f32 0x48127C00#32) := fun i => by
    rw [rowsOf, meanArr_apply]
  simp only [mulf_apply, subf_apply, key]

variable (m : (ℓ : Loc nD τ sig) → Buf (Elt Ideal) ℓ) (ρ : Dev nD → PrngReg) (c : Dev nD)

abbrev X1 : FVec Ideal S150000x64 .f32 := W4 m ρ c (Proc.devRef .tc main_v26)

abbrev X2 : FVec Ideal S150000x64 .f32 := W9 m ρ c (Proc.devRef .tc main_v43)

theorem mean1 (h : Fin 64) : W5 m ρ c (Proc.devRef .tc main_v30) (ix2 (0 : Fin 1) h)
      = Ideal.div (0 + ∑ i : Fin 150000, X1 m ρ c (ix2 i h)) (Ideal.ofBits .f32 0x48127C00#32) := by
  show StableHlo.after hostOps1 (W4 m ρ c) _ _ = _
  after_results
  exact meanArr_apply _ h

theorem var1 (h : Fin 64) : W5 m ρ c (Proc.devRef .tc main_v37) (ix2 (0 : Fin 1) h)
      = Ideal.div (0 + ∑ i : Fin 150000,
            (X1 m ρ c (ix2 i h) - Ideal.div (0 + ∑ i' : Fin 150000, X1 m ρ c (ix2 i' h)) (Ideal.ofBits .f32 0x48127C00#32))
          * (X1 m ρ c (ix2 i h) - Ideal.div (0 + ∑ i' : Fin 150000, X1 m ρ c (ix2 i' h)) (Ideal.ofBits .f32 0x48127C00#32)))
          (Ideal.ofBits .f32 0x48127C00#32) := by
  show StableHlo.after hostOps1 (W4 m ρ c) _ _ = _
  after_results
  exact varArr_apply _ h

theorem mean2 (h : Fin 64) : W10 m ρ c (Proc.devRef .tc main_v47) (ix2 (0 : Fin 1) h)
      = Ideal.div (0 + ∑ i : Fin 150000, X2 m ρ c (ix2 i h)) (Ideal.ofBits .f32 0x48127C00#32) := by
  show StableHlo.after hostOps3 (W9 m ρ c) _ _ = _
  after_results
  exact meanArr_apply _ h

theorem var2 (h : Fin 64) : W10 m ρ c (Proc.devRef .tc main_v54) (ix2 (0 : Fin 1) h)
      = Ideal.div (0 + ∑ i : Fin 150000,
            (X2 m ρ c (ix2 i h) - Ideal.div (0 + ∑ i' : Fin 150000, X2 m ρ c (ix2 i' h)) (Ideal.ofBits .f32 0x48127C00#32))
          * (X2 m ρ c (ix2 i h) - Ideal.div (0 + ∑ i' : Fin 150000, X2 m ρ c (ix2 i' h)) (Ideal.ofBits .f32 0x48127C00#32)))
          (Ideal.ofBits .f32 0x48127C00#32) := by
  show StableHlo.after hostOps3 (W9 m ρ c) _ _ = _
  after_results
  exact varArr_apply _ h

end Cert.KernelIdeal.KMeanVar
-- ==== Proof.KSeg6.lean ====
import proofs.«423179_j27462020891318_2_alg».proof.Proof.KHostShared

noncomputable section

namespace Cert.KernelIdeal.KSeg6

open Cert.KernelIdeal Cert.KernelIdeal.Gen Idealize.ShloMosaic Idealize.ShloMosaic.TcCoe Idealize.ShloMosaic.ValueIdx
  Idealize.ShloMosaic.StableHlo Idealize.SL.Sem Cert.KernelIdeal.KHostShared

variable (m : (ℓ : Loc nD τ sig) → Buf (Elt Ideal) ℓ) (ρ : Dev nD → PrngReg) (c : Dev nD)

/-- Sixteen rows of a `[32, 64]` array from row `o` on: row `k` of the slice is row `o + k`. -/
theorem slice_rows {α : Type} (o : Nat) (hs : S32x64.Slices ![o, 0] S16x64) (x : S32x64.Idx → α) (k : Fin 16) (h : Fin 64)
    (k' : Fin 32) (hk : k'.val = o + k.val) :
    extractStridedSlice S16x64 ![o, 0] x hs (ix2 k h) = x (ix2 k' h) :=
  extractStridedSlice_apply ![o, 0] x hs (ix2 k h) (ix2 k' h) (fun a => match a with
    | ⟨0, _⟩ => hk
    | ⟨1, _⟩ => by show h.val = 0 + h.val; omega)

theorem w1a (k : Fin 16) (h : Fin 64) : W19 m ρ c (Proc.devRef .tc main_v66) (ix2 k h) = W15 m ρ c (Proc.devRef .tc main_arg13) (ix2 (Fin.castAdd 16 k) h) := by
  show StableHlo.after hostOps6_3 (W18 m ρ c) (Proc.devRef .tc main_v66) (ix2 k h) = _
  after_results
  exact slice_rows 0 _ _ k h _ (Nat.zero_add _).symm

theorem w1b (k : Fin 16) (h : Fin 64) : W19 m ρ c (Proc.devRef .tc main_v67) (ix2 k h) = W15 m ρ c (Proc.devRef .tc main_arg13) (ix2 (Fin.natAdd 16 k) h) := by
  show StableHlo.after hostOps6_3 (W18 m ρ c) (Proc.devRef .tc main_v67) (ix2 k h) = _
  after_results
  exact slice_rows 16 _ _ k h _ rfl

theorem fb1 (h : Fin 64) : W19 m ρ c (Proc.devRef .tc main_v68) (ix2 (0 : Fin 1) h) = W15 m ρ c (Proc.devRef .tc main_arg14) (ix1 h) := by
  show StableHlo.after hostOps6_3 (W18 m ρ c) (Proc.devRef .tc main_v68) (ix2 (0 : Fin 1) h) = _
  after_results
  exact shapeCast_apply _ shapeCasts_S64_S1x64 (ix2 (0 : Fin 1) h) (ix1 h)
    (by rewrite [Shape.rowMajor_val_two, Shape.rowMajor_val_one]; show h.val = 0 * 64 + h.val; omega)

theorem fb2 : W19 m ρ c (Proc.devRef .tc main_v69) (ix2 (0 : Fin 1) (0 : Fin 1)) = W15 m ρ c (Proc.devRef .tc main_arg16) (ix1 (0 : Fin 1)) := by
  show StableHlo.after hostOps6_3 (W18 m ρ c) (Proc.devRef .tc main_v69) (ix2 (0 : Fin 1) (0 : Fin 1)) = _
  after_results
  exact shapeCast_apply _ shapeCasts_S1_S1x1 (ix2 (0 : Fin 1) (0 : Fin 1)) (ix1 (0 : Fin 1))
    (by rewrite [Shape.rowMajor_val_two, Shape.rowMajor_val_one]; rfl)

/-- What the four stretches leave in the first lookup's result: the source nodes' table at the source words. -/
theorem run_ue (V : Valuation τ sig (Elt Ideal)) :
    StableHlo.after hostOps6_3 (StableHlo.after hostOps6_2 (StableHlo.after hostOps6_1 (StableHlo.after hostOps6 V)))
        (Proc.devRef .tc main_v62)
      = (.of main_v62 : StableHlo.TRef sig ⟨S2000000x16, .f32⟩).toBuf (Val := Elt Ideal)
          (takeOf bcast_S2000000_S2000000x16_0 bcast_S_S2000000x16 gather_S100000x16_S2000000x1_S2000000x16_1_0_n_n_0_1_116.wf
            100000#32 99999#32 ((.of main_arg1 : StableHlo.TRef sig ⟨S100000x16, .f32⟩).ofBuf (V (Proc.devRef .tc main_arg1)))
            ((.of main_v1 : StableHlo.TRef sig ⟨S2000000, .i32⟩).ofBuf (V (Proc.devRef .tc main_v1)))) := by
  after_results_simp
  simp only [ofBuf_toBuf]
  unfold takeOf
  rfl

/-- … and in the second lookup's: the target nodes' table at the target words less 100000. -/
theorem run_ie (V : Valuation τ sig (Elt Ideal)) :
    StableHlo.after hostOps6_3 (StableHlo.after hostOps6_2 (StableHlo.after hostOps6_1 (StableHlo.after hostOps6 V)))
        (Proc.devRef .tc main_v65)
      = (.of main_v65 : StableHlo.TRef sig ⟨S2000000x16, .f32⟩).toBuf (Val := Elt Ideal)
          (takeOf bcast_S2000000_S2000000x16_0 bcast_S_S2000000x16 gather_S50000x16_S2000000x1_S2000000x16_1_0_n_n_0_1_116.wf
            50000#32 49999#32 ((.of main_arg2 : StableHlo.TRef sig ⟨S50000x16, .f32⟩).ofBuf (V (Proc.devRef .tc main_arg2)))
            ((.of main_v64 : StableHlo.TRef sig ⟨S2000000, .i32⟩).ofBuf (Val := Elt Ideal)
              (subi (V (Proc.devRef .tc main_v3)) (broadcastInDim S2000000 ![] bcast_S_S2000000 (constantI S_ 32 100000#32))))) := by
  after_results_simp
  simp only [ofBuf_toBuf]
  unfold takeOf
  rfl

theorem toBuf_v62 (f : (⟨S2000000x16, .f32⟩ : BufTy).Contents (Elt Ideal)) (j : S2000000x16.Idx) :
    (.of main_v62 : StableHlo.TRef sig ⟨S2000000x16, .f32⟩).toBuf f j = f j := rfl

theorem toBuf_v65 (f : (⟨S2000000x16, .f32⟩ : BufTy).Contents (Elt Ideal)) (j : S2000000x16.Idx) :
    (.of main_v65 : StableHlo.TRef sig ⟨S2000000x16, .f32⟩).toBuf f j = f j := rfl

theorem ue (r : Fin 2000000 → BitVec 32) (hr : ∀ e, W15 m ρ c (Proc.devRef .tc main_v1) (ix1 e) = r e)
    (hrange : ∀ e, 0 ≤ (r e).toInt ∧ (r e).toInt < 100000) (e : Fin 2000000) (k : Fin 16) :
    W19 m ρ c (Proc.devRef .tc main_v62) (ix2 e k) = W15 m ρ c (Proc.devRef .tc main_arg1) (ix2 (⟨min (r e).toInt.toNat 99999, by omega⟩ : Fin 100000) k) :=
  (congrFun (run_ue (W15 m ρ c)) (ix2 e k)).trans ((toBuf_v62 _ _).trans
    (takeOf_apply _ _ _ (by decide) _ _ (by decide) _ _ r hr (fun e' => by have := hrange e'; omega) e k))

/-- No borrow: for `q` in `[100000, 150000)` the signed value of `q - 100000` is `q.toInt - 100000`. -/
theorem toInt_sub_100000 (q : BitVec 32) (hlo : 100000 ≤ q.toInt) (hhi : q.toInt < 150000) :
    (q - 100000#32).toInt = q.toInt - 100000 := by
  have hq := BitVec.toInt_eq_toNat_cond q
  have hs := BitVec.toInt_eq_toNat_cond (q - 100000#32)
  have hn : (q - 100000#32).toNat = (2 ^ 32 - 100000 + q.toNat) % 2 ^ 32 := by rw [BitVec.toNat_sub]; rfl
  have hlt := q.isLt
  split at hq <;> split at hs <;> omega

theorem ie (cw : Fin 2000000 → BitVec 32) (hc : ∀ e, W15 m ρ c (Proc.devRef .tc main_v3) (ix1 e) = cw e)
    (hrange : ∀ e, 100000 ≤ (cw e).toInt ∧ (cw e).toInt < 150000) (e : Fin 2000000) (k : Fin 16) :
    W19 m ρ c (Proc.devRef .tc main_v65) (ix2 e k) = W15 m ρ c (Proc.devRef .tc main_arg2) (ix2 (⟨min (cw e - 100000#32).toInt.toNat 49999, by omega⟩ : Fin 50000) k) :=
  (congrFun (run_ie (W15 m ρ c)) (ix2 e k)).trans ((toBuf_v65 _ _).trans
    (takeOf_apply _ _ _ (by decide) _ _ (by decide) _ _ (fun e => cw e - 100000#32)
      (fun e' => congrArg (fun q : BitVec 32 => q - 100000#32) (hc e'))
      (fun e' => by
        show 0 ≤ (cw e' - 100000#32).toInt ∧ (cw e' - 100000#32).toInt < ((50000 : ℕ) : ℤ)
        rw [toInt_sub_100000 _ (hrange e').1 (hrange e').2]; have := hrange e'; omega) e k))

end Cert.KernelIdeal.KSeg6
end
-- ==== Proof.KKeep.lean ====
import proofs.«423179_j27462020891318_2_alg».proof.Proof.Gen.KernelIdeal.Frame
import Idealize.ShloMosaic.Lib.StableHlo.Run
import Idealize.ShloMosaic.PureOps.Ideal

noncomputable section

namespace Cert.KernelIdeal.KKeep

open Cert.KernelIdeal Cert.KernelIdeal.Gen Idealize.ShloMosaic Idealize.ShloMosaic.TcCoe
open Idealize.ShloMosaic.StableHlo Idealize.SL.Sem

/-- The arguments read after the first host stretch. -/
abbrev Args : List (Ref sig .tc) :=
  [main_arg1, main_arg2, main_arg3, main_arg5, main_arg7, main_arg13, main_arg14, main_arg15, main_arg16]

/-- The references read again after the segment that produced them. -/
abbrev Kept : List (Ref sig .tc) :=
  Args ++ [main_v1, main_v3, main_v12, main_v13, main_v14, main_v15, main_v16, main_v17, main_v18, main_v19, main_v21,
    main_v26, main_v38, main_v43, main_v55, main_v61]

/-- No operation of the line writes a reference of `L`. -/
abbrev Spares (L : List (Ref sig .tc)) (ops : List (HloOp τ sig (Elt Ideal))) : Prop :=
  ops.Forall fun op => ∀ r ∈ L, Proc.devRef (τ := τ) .tc r ∉ op.writes

/-- A line that spares `L` leaves every reference of `L` as it was: none of its operations writes it. -/
theorem keep {L : List (Ref sig .tc)} {ops : List (HloOp τ sig (Elt Ideal))} (h : Spares L ops)
    (V : Valuation τ sig (Elt Ideal)) {r : Ref sig .tc} (hr : r ∈ L) :
    after ops V (Proc.devRef .tc r) = V (Proc.devRef .tc r) :=
  after_of_forall_not_mem ops V fun op hop => List.forall_iff_forall_mem.mp h op hop r hr

/-- An operation whose one result is outside `L` spares `L`. -/
theorem spare {L : List (Ref sig .tc)} {y : Ref sig .tc} (h : ∀ r ∈ L, r ≠ y) :
    ∀ r ∈ L, Proc.devRef (τ := τ) .tc r ∉ ({Proc.devRef .tc y} : Finset (DevRef τ sig)) :=
  fun r hr e => h r hr (Proc.devRef_injective _ (Finset.mem_singleton.mp e))

local macro "spares " ops:ident : tactic =>
  `(tactic| (simp only [Spares, $ops:ident, List.Forall, nullary_writes, unary_writes, binary_writes, ternary_writes,
      reshape_writes]
             repeat' apply And.intro
             all_goals exact spare (by decide)))

theorem k0 : Spares Args hostOps0 := by spares hostOps0
theorem k0_1 : Spares Kept hostOps0_1 := by spares hostOps0_1
theorem k0_2 : Spares Kept hostOps0_2 := by spares hostOps0_2
theorem k1 : Spares Kept hostOps1 := by spares hostOps1
theorem k2 : Spares Kept hostOps2 := by spares hostOps2
theorem k2_1 : Spares Kept hostOps2_1 := by spares hostOps2_1
theorem k3 : Spares Kept hostOps3 := by spares hostOps3
theorem k4 : Spares Kept hostOps4 := by spares hostOps4
theorem k4_1 : Spares Kept hostOps4_1 := by spares hostOps4_1
theorem k6 : Spares Kept hostOps6 := by spares hostOps6
theorem k6_1 : Spares Kept hostOps6_1 := by spares hostOps6_1
theorem k6_2 : Spares Kept hostOps6_2 := by spares hostOps6_2
theorem k6_3 : Spares Kept hostOps6_3 := by spares hostOps6_3

/-- `r` is none of the arrays of regions 0 … `j`. -/
abbrev N0 (r : Ref sig .tc) : Prop := ∀ w, Pipeline.arrRef spec0 w ≠ r
abbrev N1 (r : Ref sig .tc) : Prop := N0 r ∧ ∀ w, Pipeline.arrRef spec1 w ≠ r
abbrev N2 (r : Ref sig .tc) : Prop := N1 r ∧ ∀ w, Pipeline.arrRef spec2 w ≠ r
abbrev N3 (r : Ref sig .tc) : Prop := N2 r ∧ ∀ w, Pipeline.arrRef spec3 w ≠ r
abbrev N5 (r : Ref sig .tc) : Prop := N3 r ∧ (∀ w, Pipeline.arrRef spec4 w ≠ r) ∧ ∀ w, Pipeline.arrRef spec5 w ≠ r

variable (m : (ℓ : Loc nD τ sig) → Buf (Elt Ideal) ℓ) (ρ : Dev nD → PrngReg) (c : Dev nD) {r : Ref sig .tc}

/-! A kept reference that no region passed has among its arrays is, at each later boundary, as the first stretch left it. -/

theorem launch (h : r ∈ Args) : W1 m ρ c (Proc.devRef .tc r) = m ((c : Thread nD τ).loc r) := keep k0 (W0 m ρ c) h

theorem to3 (h : r ∈ Kept) : W3 m ρ c (Proc.devRef .tc r) = W1 m ρ c (Proc.devRef .tc r) :=
  (keep k0_2 _ h).trans (keep k0_1 _ h)

theorem to5 (h : r ∈ Kept) (n : N0 r) : W5 m ρ c (Proc.devRef .tc r) = W1 m ρ c (Proc.devRef .tc r) :=
  (keep k1 _ h).trans ((W4_of_ne m ρ c r n).trans (to3 m ρ c h))

theorem to6 (h : r ∈ Kept) (n : N1 r) : W6 m ρ c (Proc.devRef .tc r) = W1 m ρ c (Proc.devRef .tc r) :=
  (W6_of_ne m ρ c r n.2).trans (to5 m ρ c h n.1)

theorem to8 (h : r ∈ Kept) (n : N1 r) : W8 m ρ c (Proc.devRef .tc r) = W1 m ρ c (Proc.devRef .tc r) :=
  (keep k2_1 _ h).trans ((keep k2 _ h).trans (to6 m ρ c h n))

theorem to10 (h : r ∈ Kept) (n : N2 r) : W10 m ρ c (Proc.devRef .tc r) = W1 m ρ c (Proc.devRef .tc r) :=
  (keep k3 _ h).trans ((W9_of_ne m ρ c r n.2).trans (to8 m ρ c h n.1))

theorem to11 (h : r ∈ Kept) (n : N3 r) : W11 m ρ c (Proc.devRef .tc r) = W1 m ρ c (Proc.devRef .tc r) :=
  (W11_of_ne m ρ c r n.2).trans (to10 m ρ c h n.1)

theorem to13 (h : r ∈ Kept) (n : N3 r) : W13 m ρ c (Proc.devRef .tc r) = W1 m ρ c (Proc.devRef .tc r) :=
  (keep k4_1 _ h).trans ((keep k4 _ h).trans (to11 m ρ c h n))

theorem to15 (h : r ∈ Kept) (n : N5 r) : W15 m ρ c (Proc.devRef .tc r) = W1 m ρ c (Proc.devRef .tc r) :=
  (W15_of_ne m ρ c r n.2.2).trans ((W14_of_ne m ρ c r n.2.1).trans (to13 m ρ c h n.1))

theorem to19 (h : r ∈ Kept) : W19 m ρ c (Proc.devRef .tc r) = W15 m ρ c (Proc.devRef .tc r) :=
  (keep k6_3 _ h).trans ((keep k6_2 _ h).trans ((keep k6_1 _ h).trans (keep k6 _ h)))

theorem keep_main_v21_W3 : W3 m ρ c (Proc.devRef .tc main_v21) = W1 m ρ c (Proc.devRef .tc main_v21) := to3 m ρ c (by decide)

theorem keep_main_v13_W3 : W3 m ρ c (Proc.devRef .tc main_v13) = W1 m ρ c (Proc.devRef .tc main_v13) := to3 m ρ c (by decide)

theorem keep_main_v12_W3 : W3 m ρ c (Proc.devRef .tc main_v12) = W1 m ρ c (Proc.devRef .tc main_v12) := to3 m ρ c (by decide)

/-! `main_v12` is an input array of regions 0 to 3, and a region changes only its output array. -/

theorem keep_main_v12_W5 : W5 m ρ c (Proc.devRef .tc main_v12) = W1 m ρ c (Proc.devRef .tc main_v12) :=
  calc W5 m ρ c (Proc.devRef .tc main_v12)
    _ = W4 m ρ c (Proc.devRef .tc main_v12) := keep k1 _ (by decide)
    _ = W3 m ρ c (Proc.devRef .tc main_v12) :=
        (W4_arr m ρ c 2).trans (((dat0 (V3 m ρ) c).arrAt_in 2 rfl _).trans (A_eq0 (V3 m ρ) c 2))
    _ = W1 m ρ c (Proc.devRef .tc main_v12) := keep_main_v12_W3 m ρ c

theorem keep_main_v12_W8 : W8 m ρ c (Proc.devRef .tc main_v12) = W1 m ρ c (Proc.devRef .tc main_v12) :=
  calc W8 m ρ c (Proc.devRef .tc main_v12)
    _ = W6 m ρ c (Proc.devRef .tc main_v12) := (keep k2_1 _ (by decide)).trans (keep k2 _ (by decide))
    _ = W5 m ρ c (Proc.devRef .tc main_v12) :=
        (W6_arr m ρ c 6).trans (((dat1 (V5 m ρ) c).arrAt_in 6 rfl _).trans (A_eq1 (V5 m ρ) c 6))
    _ = W1 m ρ c (Proc.devRef .tc main_v12) := keep_main_v12_W5 m ρ c

theorem keep_main_v12_W10 : W10 m ρ c (Proc.devRef .tc main_v12) = W1 m ρ c (Proc.devRef .tc main_v12) :=
  calc W10 m ρ c (Proc.devRef .tc main_v12)
    _ = W9 m ρ c (Proc.devRef .tc main_v12) := keep k3 _ (by decide)
    _ = W8 m ρ c (Proc.devRef .tc main_v12) :=
        (W9_arr m ρ c 2).trans (((dat2 (V8 m ρ) c).arrAt_in 2 rfl _).trans (A_eq2 (V8 m ρ) c 2))
    _ = W1 m ρ c (Proc.devRef .tc main_v12) := keep_main_v12_W8 m ρ c

theorem keep_main_v12_W13 : W13 m ρ c (Proc.devRef .tc main_v12) = W1 m ρ c (Proc.devRef .tc main_v12) :=
  calc W13 m ρ c (Proc.devRef .tc main_v12)
    _ = W11 m ρ c (Proc.devRef .tc main_v12) := (keep k4_1 _ (by decide)).trans (keep k4 _ (by decide))
    _ = W10 m ρ c (Proc.devRef .tc main_v12) :=
        (W11_arr m ρ c 6).trans (((dat3 (V10 m ρ) c).arrAt_in 6 rfl _).trans (A_eq3 (V10 m ρ) c 6))
    _ = W1 m ρ c (Proc.devRef .tc main_v12) := keep_main_v12_W10 m ρ c

theorem keep_main_v16_W5 : W5 m ρ c (Proc.devRef .tc main_v16) = W1 m ρ c (Proc.devRef .tc main_v16) := to5 m ρ c (by decide) (by decide)

theorem keep_main_v17_W5 : W5 m ρ c (Proc.devRef .tc main_v17) = W1 m ρ c (Proc.devRef .tc main_v17) := to5 m ρ c (by decide) (by decide)

theorem keep_main_v14_W8 : W8 m ρ c (Proc.devRef .tc main_v14) = W1 m ρ c (Proc.devRef .tc main_v14) := to8 m ρ c (by decide) (by decide)

theorem keep_main_v18_W10 : W10 m ρ c (Proc.devRef .tc main_v18) = W1 m ρ c (Proc.devRef .tc main_v18) := to10 m ρ c (by decide) (by decide)

theorem keep_main_v19_W10 : W10 m ρ c (Proc.devRef .tc main_v19) = W1 m ρ c (Proc.devRef .tc main_v19) := to10 m ρ c (by decide) (by decide)

theorem keep_main_v15_W13 : W13 m ρ c (Proc.devRef .tc main_v15) = W1 m ρ c (Proc.devRef .tc main_v15) := to13 m ρ c (by decide) (by decide)

theorem keep_main_v1_W6 : W6 m ρ c (Proc.devRef .tc main_v1) = W1 m ρ c (Proc.devRef .tc main_v1) := to6 m ρ c (by decide) (by decide)

theorem keep_main_v1_W11 : W11 m ρ c (Proc.devRef .tc main_v1) = W1 m ρ c (Proc.devRef .tc main_v1) := to11 m ρ c (by decide) (by decide)

theorem keep_main_v1_W15 : W15 m ρ c (Proc.devRef .tc main_v1) = W1 m ρ c (Proc.devRef .tc main_v1) := to15 m ρ c (by decide) (by decide)

theorem keep_main_v3_W6 : W6 m ρ c (Proc.devRef .tc main_v3) = W1 m ρ c (Proc.devRef .tc main_v3) := to6 m ρ c (by decide) (by decide)

theorem keep_main_v3_W11 : W11 m ρ c (Proc.devRef .tc main_v3) = W1 m ρ c (Proc.devRef .tc main_v3) := to11 m ρ c (by decide) (by decide)

theorem keep_main_v3_W15 : W15 m ρ c (Proc.devRef .tc main_v3) = W1 m ρ c (Proc.devRef .tc main_v3) := to15 m ρ c (by decide) (by decide)

theorem keep_main_v26_W5 : W5 m ρ c (Proc.devRef .tc main_v26) = W4 m ρ c (Proc.devRef .tc main_v26) := keep k1 _ (by decide)

theorem keep_main_v38_W8 : W8 m ρ c (Proc.devRef .tc main_v38) = W6 m ρ c (Proc.devRef .tc main_v38) :=
  (keep k2_1 _ (by decide)).trans (keep k2 _ (by decide))

theorem keep_main_v43_W10 : W10 m ρ c (Proc.devRef .tc main_v43) = W9 m ρ c (Proc.devRef .tc main_v43) := keep k3 _ (by decide)

theorem keep_main_v55_W13 : W13 m ρ c (Proc.devRef .tc main_v55) = W11 m ρ c (Proc.devRef .tc main_v55) :=
  (keep k4_1 _ (by decide)).trans (keep k4 _ (by decide))

theorem keep_main_v61_W20 : W20 m ρ c (Proc.devRef .tc main_v61) = W15 m ρ c (Proc.devRef .tc main_v61) :=
  (W20_of_ne m ρ c main_v61 (by decide)).trans (to19 m ρ c (by decide))

theorem keep_main_arg3_W3 : W3 m ρ c (Proc.devRef .tc main_arg3) = m ((c : Thread nD τ).loc main_arg3) :=
  (to3 m ρ c (by decide)).trans (launch m ρ c (by decide))

theorem keep_main_arg5_W5 : W5 m ρ c (Proc.devRef .tc main_arg5) = m ((c : Thread nD τ).loc main_arg5) :=
  (to5 m ρ c (by decide) (by decide)).trans (launch m ρ c (by decide))

theorem keep_main_arg7_W10 : W10 m ρ c (Proc.devRef .tc main_arg7) = m ((c : Thread nD τ).loc main_arg7) :=
  (to10 m ρ c (by decide) (by decide)).trans (launch m ρ c (by decide))

theorem keep_main_arg15_W19 : W19 m ρ c (Proc.devRef .tc main_arg15) = m ((c : Thread nD τ).loc main_arg15) :=
  (to19 m ρ c (by decide)).trans ((to15 m ρ c (by decide) (by decide)).trans (launch m ρ c (by decide)))

theorem keep_main_arg1_W15 : W15 m ρ c (Proc.devRef .tc main_arg1) = m ((c : Thread nD τ).loc main_arg1) :=
  (to15 m ρ c (by decide) (by decide)).trans (launch m ρ c (by decide))

theorem keep_main_arg2_W15 : W15 m ρ c (Proc.devRef .tc main_arg2) = m ((c : Thread nD τ).loc main_arg2) :=
  (to15 m ρ c (by decide) (by decide)).trans (launch m ρ c (by decide))

theorem keep_main_arg13_W15 : W15 m ρ c (Proc.devRef .tc main_arg13) = m ((c : Thread nD τ).loc main_arg13) :=
  (to15 m ρ c (by decide) (by decide)).trans (launch m ρ c (by decide))

theorem keep_main_arg14_W15 : W15 m ρ c (Proc.devRef .tc main_arg14) = m ((c : Thread nD τ).loc main_arg14) :=
  (to15 m ρ c (by decide) (by decide)).trans (launch m ρ c (by decide))

theorem keep_main_arg16_W15 : W15 m ρ c (Proc.devRef .tc main_arg16) = m ((c : Thread nD τ).loc main_arg16) :=
  (to15 m ρ c (by decide) (by decide)).trans (launch m ρ c (by decide))

end Cert.KernelIdeal.KKeep
-- ==== Proof.KRegShared.lean ====
import proofs.«423179_j27462020891318_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.KRegShared

open Cert.KernelIdeal Cert.KernelIdeal.Gen Idealize.ShloMosaic Idealize.ShloMosaic.TcCoe Idealize.ShloMosaic.ValueIdx

theorem hz : (![0, 0] : Fin 2 → Nat) = fun _ => 0 := funext fun a => by fin_cases a <;> rfl

/-- A rank-2 index is the pair of its coordinates. -/
theorem ix2_of_val {A B : ℕ} {i : (⟨2, ![A, B]⟩ : Shape).Idx} {r : Fin A} {k : Fin B}
    (h0 : (i 0).val = r.val) (h1 : (i 1).val = k.val) : i = ix2 r k :=
  funext fun a => Fin.ext (by match a with | ⟨0, _⟩ => exact h0 | ⟨1, _⟩ => exact h1)

/-- An entry of the block of `n` rows numbered `t` sits in the array at row `t * n + p` and at its own column. -/
theorem ix2_row {A B : ℕ} {i : (⟨2, ![A, B]⟩ : Shape).Idx} {x : Fin 2 → ℕ} {n b t p : ℕ} {r : Fin A} {k : Fin B}
    (e0 : x 0 = t) (e1 : x 1 = 0) (hr : r.val = t * n + p)
    (h0 : (i 0).val = x 0 * n + 1 * p) (h1 : (i 1).val = x 1 * b + 1 * k.val) : i = ix2 r k :=
  ix2_of_val (by rw [h0, e0, hr, Nat.one_mul]) (by rw [h1, e1, Nat.zero_mul, Nat.zero_add, Nat.one_mul])

/-- An entry of a block that is its whole array is the array's entry. -/
theorem ix2_whole {A B : ℕ} {i : (⟨2, ![A, B]⟩ : Shape).Idx} {x : Fin 2 → ℕ} {n b : ℕ} {r : Fin A} {k : Fin B}
    (e0 : x 0 = 0) (e1 : x 1 = 0) (h0 : (i 0).val = x 0 * n + 1 * r.val) (h1 : (i 1).val = x 1 * b + 1 * k.val) :
    i = ix2 r k :=
  ix2_of_val (by rw [h0, e0, Nat.zero_mul, Nat.zero_add, Nat.one_mul]) (by rw [h1, e1, Nat.zero_mul, Nat.zero_add, Nat.one_mul])

/-- One column spread over many reads, at `(p, q)`, row `p` of the column. -/
theorem col_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A plain `[M, K] × [K, N]` product accumulated onto zero, at `(p, q)`: row `p` of the left operand against column `q` of the right. -/
theorem mm_apply {M K N : ℕ} {φ₁ φ₂ : FTy} (d : DotDims ⟨2, ![M, K]⟩ ⟨2, ![K, N]⟩ ⟨2, ![M, N]⟩) (hd : d = DotDims.plain M K N)
    (L : FVec Ideal ⟨2, ![M, K]⟩ φ₁) (R : FVec Ideal ⟨2, ![K, N]⟩ φ₂) (p : Fin M) (q : Fin N) :
    matmul d none L R (constant (F := Ideal) ⟨2, ![M, N]⟩ .f32 0x00000000#32) (ix2 p q)
      = 0 + ∑ k : Fin K, L (ix2 p k) * R (ix2 k q) := by
  subst hd
  simp only [matmul]
  rw [Ideal.matmul_apply, ← Equiv.sum_comp (contrEquiv1 (DotDims.plain M K N) K rfl rfl).symm]
  refine congrArg₂ (· + ·) Ideal.ofBits_zero_f32 (Finset.sum_congr rfl fun k _ => ?_)
  have hk := contrEquiv1_symm_val (DotDims.plain M K N) K rfl rfl k
  exact congrArg₂ (fun a b => L a * R b) (ix2_of_val rfl hk) (ix2_of_val hk rfl)

/-- Row `r` lies in the block of `n` rows numbered `r / n`, and with one block of columns every column does. -/
theorem mem_rows {n A B : ℕ} (hn : 0 < n) (i : (⟨2, ![A, B]⟩ : Shape).Idx) {x : Fin 2 → ℕ}
    (h0 : x 0 = (i 0).val / n) (h1 : x 1 = 0) (a : Fin 2) :
    x a * (⟨2, ![n, B]⟩ : Shape).size a ≤ (i a).val
      ∧ (i a).val < x a * (⟨2, ![n, B]⟩ : Shape).size a + (⟨2, ![n, B]⟩ : Shape).size a := by
  match a with
  | ⟨0, _⟩ =>
    show x 0 * n ≤ (i 0).val ∧ (i 0).val < x 0 * n + n
    rw [h0]
    exact ⟨Nat.div_mul_le_self _ _, Nat.lt_div_mul_add hn⟩
  | ⟨1, _⟩ =>
    show x 1 * B ≤ (i 1).val ∧ (i 1).val < x 1 * B + B
    have : (i 1).val < B := (i 1).isLt
    rw [h1]; omega

/-- The normalise, rectify, multiply, scale body at one entry of its block; regions 1 and 3 run this one body. -/
theorem bn_pay_apply (v0 : Vec Ideal S1x64 .f32) (v5 : Vec Ideal S5000x64 .f32) (v7 v13 v17 : Vec Ideal S1x64 .f32)
    (v24 : Vec Ideal S64x64 .f32) (v27 : Vec Ideal S5000x1 .f32) (p : Fin 5000) (q : Fin 64) :
    k1_pay1 (F := Ideal) v0 v5 v7 v13 v17 v24 v27 (ix2 p q)
      = (0 + ∑ k : Fin 64,
            max (((v5 (ix2 p k) - v7 (ix2 (0 : Fin 1) k))
                    * Ideal.rsqrt (v0 (ix2 (0 : Fin 1) k) + Ideal.ofBits .f32 0x3727C5AC#32))
                  * v13 (ix2 (0 : Fin 1) k) + v17 (ix2 (0 : Fin 1) k)) 0
              * v24 (ix2 k q))
        * v27 (ix2 p (0 : Fin 1)) := by
  unfold k1_pay1
  simp only [shapeCast_self]
  rw [mulf_apply, col_apply, mm_apply dot_S5000x64_S64x64_S5000x64_1_0_0_1_n_n rfl]
  refine congrArg (· * v27 (ix2 p (0 : Fin 1))) (congrArg (0 + ·) (Finset.sum_congr rfl fun k _ => ?_))
  simp only [truncf_apply, maximumf_apply, addf_apply, mulf_apply, subf_apply, broadcastTo_1b_ab_apply, broadcast_apply]
  exact congrArg (max _ · * _) Ideal.ofBits_zero_f32

/-- The add, scale, shift body at one entry of its block; regions 2 and 4 run this one body. -/
theorem combine_pay_apply (x0 x1 : Vec Ideal S5000x64 .f32) (x2 : Vec Ideal S5000x1 .f32) (x3 : Vec Ideal S1x64 .f32)
    (p : Fin 5000) (q : Fin 64) :
    k2_pay1 x0 x1 x2 x3 (ix2 p q)
      = (x0 (ix2 p q) + x1 (ix2 p q)) * x2 (ix2 p (0 : Fin 1)) + x3 (ix2 (0 : Fin 1) q) := by
  unfold k2_pay1
  simp only [shapeCast_self]
  rw [addf_apply, mulf_apply, addf_apply, col_apply, broadcastTo_1b_ab_apply]

end Cert.KernelIdeal.KRegShared

end
-- ==== Proof.KReg0.lean ====
import proofs.«423179_j27462020891318_2_alg».proof.Proof.KRegShared

noncomputable section

open scoped BigOperators

namespace Cert.KernelIdeal.KReg0

open Cert.KernelIdeal Cert.KernelIdeal.Gen Cert.KernelIdeal.KRegShared Idealize.ShloMosaic Idealize.ShloMosaic.TcCoe Idealize.ShloMosaic.ValueIdx Idealize.SL.Sem

abbrev G (a0 a1 : S150000x16.Idx → EReal) (a2 : S150000x1.Idx → EReal) (a3 : S16x64.Idx → EReal)
    (a4 : S1x64.Idx → EReal) (i : Fin 150000) (h : Fin 64) : EReal :=
  (0 + ∑ d : Fin 16, ((a0 (ix2 i d) + a1 (ix2 i d)) * a2 (ix2 i (0 : Fin 1))) * a3 (ix2 d h))
    + a4 (ix2 (0 : Fin 1) h)

theorem pay_apply (x0 x1 : Vec Ideal S5000x16 .f32) (x2 : Vec Ideal S5000x1 .f32) (x3 : Vec Ideal S16x64 .f32)
    (x4 : Vec Ideal S1x64 .f32) (p : Fin 5000) (q : Fin 64) :
    k0_pay1 x0 x1 x2 x3 x4 (ix2 p q)
      = (0 + ∑ d : Fin 16, ((x0 (ix2 p d) + x1 (ix2 p d)) * x2 (ix2 p (0 : Fin 1))) * x3 (ix2 d q))
        + x4 (ix2 (0 : Fin 1) q) := by
  unfold k0_pay1
  simp only [shapeCast_self]
  rw [addf_apply, broadcastTo_1b_ab_apply, mm_apply dot_S5000x16_S16x64_S5000x64_1_0_0_1_n_n rfl]
  refine congrArg (· + x4 (ix2 (0 : Fin 1) q)) (congrArg (0 + ·) (Finset.sum_congr rfl fun d _ => ?_))
  rw [truncf_apply, truncf_apply, mulf_apply, addf_apply, col_apply]

theorem idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b)) (c : Dev nD)

theorem blk0 (t : Fin cfg0.N) (p : Fin 5000) (d : Fin 16) (r : Fin 150000) (hr : r.val = t.val * 5000 + p.val) :
    (iblk0 V c 0 t : Vec Ideal S5000x16 .f32) (ix2 p d) = V c main_v25 (ix2 r d) := by
  obtain ⟨e0, e1, -⟩ := idx t
  exact congrArg (V c main_v25) (ix2_row e0 e1 hr rfl rfl)

theorem blk1 (t : Fin cfg0.N) (p : Fin 5000) (d : Fin 16) (r : Fin 150000) (hr : r.val = t.val * 5000 + p.val) :
    (iblk0 V c 1 t : Vec Ideal S5000x16 .f32) (ix2 p d) = V c main_v21 (ix2 r d) := by
  obtain ⟨-, -, e0, e1, -⟩ := idx t
  exact congrArg (V c main_v21) (ix2_row e0 e1 hr rfl rfl)

theorem blk2 (t : Fin cfg0.N) (p : Fin 5000) (r : Fin 150000) (hr : r.val = t.val * 5000 + p.val) :
    (iblk0 V c 2 t : Vec Ideal S5000x1 .f32) (ix2 p (0 : Fin 1)) = V c main_v12 (ix2 r (0 : Fin 1)) := by
  obtain ⟨-, -, -, -, e0, e1, -⟩ := idx t
  exact congrArg (V c main_v12) (ix2_row e0 e1 hr rfl rfl)

theorem blk3 (t : Fin cfg0.N) (d : Fin 16) (q : Fin 64) :
    (iblk0 V c 3 t : Vec Ideal S16x64 .f32) (ix2 d q) = V c main_arg3 (ix2 d q) := by
  obtain ⟨-, -, -, -, -, -, e0, e1, -⟩ := idx t
  exact congrArg (V c main_arg3) (ix2_whole e0 e1 rfl rfl)

theorem blk4 (t : Fin cfg0.N) (q : Fin 64) :
    (iblk0 V c 4 t : Vec Ideal S1x64 .f32) (ix2 (0 : Fin 1) q) = V c main_v13 (ix2 (0 : Fin 1) q) := by
  obtain ⟨-, -, -, -, -, -, -, -, e0, e1, -⟩ := idx t
  exact congrArg (V c main_v13) (ix2_whole e0 e1 rfl rfl)

abbrev GA : S150000x64.Idx → EReal := fun j =>
  G (V c main_v25) (V c main_v21) (V c main_v12) (V c main_arg3) (V c main_v13) (j 0) (j 1)

theorem flushed_eq (t : Fin cfg0.N) :
    (dat0 (F := Ideal) V c).flushed 5 t = ((cfg0.win 5).blk t).view.read (Elt Ideal) (GA V c) := by
  show (cfg0.win 5).cut (grid0.coords t) ((dat0 V c).after 5 t) = _
  rw [after0_5]
  unfold out0_5
  rw [View.canon_unit_zero hz]
  simp only [View.ld_unit_zero (S := S5000x16) hz, View.ld_unit_zero (S := S5000x1) hz,
    View.ld_unit_zero (S := S16x64) hz, View.ld_unit_zero (S := S1x64) hz]
  funext j
  obtain ⟨p, q, rfl⟩ : ∃ (p : Fin 5000) (q : Fin 64), j = ix2 p q := ⟨j 0, j 1, eq_ix2 j⟩
  have ht : t.val < 30 := N_0 ▸ t.isLt
  obtain ⟨-, -, -, -, -, -, -, -, -, -, e0, e1⟩ := idx t
  obtain ⟨r, hr⟩ : ∃ r : Fin 150000, r.val = t.val * 5000 + p.val := ⟨⟨t.val * 5000 + p.val, by omega⟩, rfl⟩
  have hemb : ((cfg0.win 5).blk t).view.emb (ix2 p q) = ix2 r q :=
    ix2_row e0 e1 hr rfl rfl
  show k0_pay1 (F := Ideal) (iblk0 V c 0 t) (iblk0 V c 1 t) (iblk0 V c 2 t) (iblk0 V c 3 t) (iblk0 V c 4 t) (ix2 p q)
    = GA V c (((cfg0.win 5).blk t).view.emb (ix2 p q))
  rw [hemb]
  refine (pay_apply _ _ _ _ _ p q).trans ?_
  refine congrArg₂ (· + ·) (congrArg (0 + ·) (Finset.sum_congr rfl fun d _ => ?_)) (blk4 V c t q)
  rw [blk0 V c t p d r hr, blk1 V c t p d r hr, blk2 V c t p r hr, blk3 V c t d q]

theorem cover (i : S150000x64.Idx) :
    ∃ t : Fin cfg0.N, (cfg0.win 5).flush t = true ∧ i ∈ ((cfg0.win 5).blk t).view.set := by
  have hi : (i 0).val < 150000 := (i 0).isLt
  have ht : (i 0).val / 5000 < cfg0.N := by rw [show cfg0.N = 30 from N_0]; omega
  obtain ⟨-, -, -, -, -, -, -, -, -, -, e0, e1⟩ := idx ⟨_, ht⟩
  refine ⟨⟨_, ht⟩, flush0_5 _, ?_⟩
  show i ∈ ((View.whole main_v26).slice (win0_5.rect ⟨_, ht⟩)).set
  rw [View.set_slice_whole, Rect.mem_set_unit]
  exact mem_rows (by decide) i e0 e1

theorem final (i : Fin 150000) (h : Fin 64) :
    (dat0 (F := Ideal) V c).arrAt 5 cfg0.N (ix2 i h)
      = G (V c main_v25) (V c main_v21) (V c main_v12) (V c main_arg3) (V c main_v13) i h :=
  congrFun ((dat0 (F := Ideal) V c).arrAt_eq_of_cover 5 (GA V c) (fun t _ => flushed_eq V c t) cover) (ix2 i h)

end Cert.KernelIdeal.KReg0

end
-- ==== Proof.KReg1.lean ====
import proofs.«423179_j27462020891318_2_alg».proof.Proof.KRegShared

noncomputable section

open scoped BigOperators

namespace Cert.KernelIdeal.KReg1

open Cert.KernelIdeal Cert.KernelIdeal.Gen Cert.KernelIdeal.KRegShared Idealize.ShloMosaic Idealize.ShloMosaic.TcCoe Idealize.ShloMosaic.ValueIdx Idealize.SL.Sem

abbrev G (pre : S150000x64.Idx → EReal) (mean var gamma beta : S1x64.Idx → EReal) (W : S64x64.Idx → EReal)
    (dinv : S150000x1.Idx → EReal) (i : Fin 150000) (h : Fin 64) : EReal :=
  (0 + ∑ k : Fin 64,
        max (((pre (ix2 i k) - mean (ix2 (0 : Fin 1) k))
                * Ideal.rsqrt (var (ix2 (0 : Fin 1) k) + Ideal.ofBits .f32 0x3727C5AC#32))
              * gamma (ix2 (0 : Fin 1) k) + beta (ix2 (0 : Fin 1) k)) 0
          * W (ix2 k h))
    * dinv (ix2 i (0 : Fin 1))

theorem idx : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

variable (V : (c : Dev nD) → (b : Ref sig .tc) → Buf (Elt Ideal) ((c : Thread nD τ).loc b)) (c : Dev nD)

theorem blk0 (t : Fin cfg1.N) (p : Fin 5000) (k : Fin 64) (r : Fin 150000) (hr : r.val = t.val * 5000 + p.val) :
    (iblk1 V c 0 t : Vec Ideal S5000x64 .f32) (ix2 p k) = V c main_v26 (ix2 r k) := by
  obtain ⟨e0, e1, -⟩ := idx t
  exact congrArg (V c main_v26) (ix2_row e0 e1 hr rfl rfl)

theorem blk1 (t : Fin cfg1.N) (k : Fin 64) :
    (iblk1 V c 1 t : Vec Ideal S1x64 .f32) (ix2 (0 : Fin 1) k) = V c main_v30 (ix2 (0 : Fin 1) k) := by
  obtain ⟨-, -, e0, e1, -⟩ := idx t
  exact congrArg (V c main_v30) (ix2_whole e0 e1 rfl rfl)

theorem blk2 (t : Fin cfg1.N) (k : Fin 64) :
    (iblk1 V c 2 t : Vec Ideal S1x64 .f32) (ix2 (0 : Fin 1) k) = V c main_v37 (ix2 (0 : Fin 1) k) := by
  obtain ⟨-, -, -, -, e0, e1, -⟩ := idx t
  exact congrArg (V c main_v37) (ix2_whole e0 e1 rfl rfl)

theorem blk3 (t : Fin cfg1.N) (k : Fin 64) :
    (iblk1 V c 3 t : Vec Ideal S1x64 .f32) (ix2 (0 : Fin 1) k) = V c main_v16 (ix2 (0 : Fin 1) k) := by
  obtain ⟨-, -, -, -, -, -, e0, e1, -⟩ := idx t
  exact congrArg (V c main_v16) (ix2_whole e0 e1 rfl rfl)

theorem blk4 (t : Fin cfg1.N) (k : Fin 64) :
    (iblk1 V c 4 t : Vec Ideal S1x64 .f32) (ix2 (0 : Fin 1) k) = V c main_v17 (ix2 (0 : Fin 1) k) := by
  obtain ⟨-, -, -, -, -, -, -, -, e0, e1, -⟩ := idx t
  exact congrArg (V c main_v17) (ix2_whole e0 e1 rfl rfl)

theorem blk5 (t : Fin cfg1.N) (k q : Fin 64) :
    (iblk1 V c 5 t : Vec Ideal S64x64 .f32) (ix2 k q) = V c main_arg5 (ix2 k q) := by
  obtain ⟨-, -, -, -, -, -, -, -, -, -, e0, e1, -⟩ := idx t
  exact congrArg (V c main_arg5) (ix2_whole e0 e1 rfl rfl)

theorem blk6 (t : Fin cfg1.N) (p : Fin 5000) (r : Fin 150000) (hr : r.val = t.val * 5000 + p.val) :
    (iblk1 V c 6 t : Vec Ideal S5000x1 .f32) (ix2 p (0 : Fin 1)) = V c main_v12 (ix2 r (0 : Fin 1)) := by
  obtain ⟨-, -, -, -, -, -, -, -, -, -, -, -, e0, e1, -⟩ := idx t
  exact congrArg (V c main_v12) (ix2_row e0 e1 hr rfl rfl)

abbrev GA : S150000x64.Idx → EReal := fun j =>
  G (V c main_v26) (V c main_v30) (V c main_v37) (V c main_v16) (V c main_v17) (V c main_arg5) (V c main_v12) (j 0) (j 1)

theorem flushed_eq (t : Fin cfg1.N) :
    (dat1 (F := Ideal) V c).flushed 7 t = ((cfg1.win 7).blk t).view.read (Elt Ideal) (GA V c) := by
  show (cfg1.win 7).cut (grid1.coords t) ((dat1 V c).after 7 t) = _
  rw [after1_7]
  unfold out1_7
  rw [View.canon_unit_zero hz]
  simp only [View.ld_unit_zero (S := S5000x64) hz, View.ld_unit_zero (S := S1x64) hz, View.ld_unit_zero (S := S64x64) hz,
    View.ld_unit_zero (S := S5000x1) hz]
  funext j
  obtain ⟨p, q, rfl⟩ : ∃ (p : Fin 5000) (q : Fin 64), j = ix2 p q := ⟨j 0, j 1, eq_ix2 j⟩
  have ht : t.val < 30 := N_1 ▸ t.isLt
  obtain ⟨-, -, -, -, -, -, -, -, -, -, -, -, -, -, e0, e1⟩ := idx t
  obtain ⟨r, hr⟩ : ∃ r : Fin 150000, r.val = t.val * 5000 + p.val := ⟨⟨t.val * 5000 + p.val, by omega⟩, rfl⟩
  have hemb : ((cfg1.win 7).blk t).view.emb (ix2 p q) = ix2 r q :=
    ix2_row e0 e1 hr rfl rfl
  show k1_pay1 (F := Ideal) (iblk1 V c 2 t) (iblk1 V c 0 t) (iblk1 V c 1 t) (iblk1 V c 3 t) (iblk1 V c 4 t) (iblk1 V c 5 t) (iblk1 V c 6 t) (ix2 p q)
    = GA V c (((cfg1.win 7).blk t).view.emb (ix2 p q))
  rw [hemb]
  refine (bn_pay_apply _ _ _ _ _ _ _ p q).trans ?_
  refine congrArg₂ (· * ·) (congrArg (0 + ·) (Finset.sum_congr rfl fun k _ => ?_)) (blk6 V c t p r hr)
  rw [blk0 V c t p k r hr, blk1 V c t k, blk2 V c t k, blk3 V c t k, blk4 V c t k, blk5 V c t k q]

theorem cover (i : S150000x64.Idx) :
    ∃ t : Fin cfg1.N, (cfg1.win 7).flush t = true ∧ i ∈ ((cfg1.win 7).blk t).view.set := by
  have hi : (i 0).val < 150000 := (i 0).isLt
  have ht : (i 0).val / 5000 < cfg1.N := by rw [show cfg1.N = 30 from N_1]; omega
  obtain ⟨-, -, -, -, -, -, -, -, -, -, -, -, -, -, e0, e1⟩ := idx ⟨_, ht⟩
  refine ⟨⟨_, ht⟩, flush1_7 _, ?_⟩
  show i ∈ ((View.whole main_v38).slice (win1_7.rect ⟨_, ht⟩)).set
  rw [View.set_slice_whole, Rect.mem_set_unit]
  exact mem_rows (by decide) i e0 e1

theorem final (i : Fin 150000) (h : Fin 64) :
    (dat1 (F := Ideal) V c).arrAt 7 cfg1.N (ix2 i h)
      = G (V c main_v26) (V c main_v30) (V c main_v37) (V c main_v16) (V c main_v17) (V c main_arg5) (V c main_v12) i h :=
  congrFun ((dat1 (F := Ideal) V c).arrAt_eq_of_cover 7 (GA V c) (fun t _ => flushed_eq V c t) cover) (ix2 i h)

end Cert.KernelIdeal.KReg1

end
-- ==== Proof.KReg2.lean ====
import proofs.«423179_j27462020891318_2_alg».proof.Proof.KRegShared

noncomputable section

namespace Cert.KernelIdeal.KReg2

open Cert.KernelIdeal Cert.KernelIdeal.Gen Cert.KernelIdeal.KRegShared Idealize.ShloMosaic Idealize.ShloMosaic.TcCoe Idealize.ShloMosaic.ValueIdx Idealize.SL.Sem

abbrev G (a0 : S150000x64.Idx → EReal) (a1 : S150000x64.Idx → EReal) (a2 : S150000x1.Idx → EReal)
    (a3 : S1x64.Idx → EReal) (i : Fin 150000) (h : Fin 64) : EReal :=
  (a0 (ix2 i h) + a1 (ix2 i h)) * a2 (ix2 i (0 : Fin 1)) + a3 (ix2 (0 : Fin 1) h)

theorem idx : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

variable (V : (c : Dev nD) → (b : Ref sig .tc) → Buf (Elt Ideal) ((c : Thread nD τ).loc b)) (c : Dev nD)

theorem blk0 (t : Fin cfg2.N) (p : Fin 5000) (q : Fin 64) (r : Fin 150000) (hr : r.val = t.val * 5000 + p.val) :
    (iblk2 V c 0 t : Vec Ideal S5000x64 .f32) (ix2 p q) = V c main_v42 (ix2 r q) := by
  obtain ⟨e0, e1, -⟩ := idx t
  exact congrArg (V c main_v42) (ix2_row e0 e1 hr rfl rfl)

theorem blk1 (t : Fin cfg2.N) (p : Fin 5000) (q : Fin 64) (r : Fin 150000) (hr : r.val = t.val * 5000 + p.val) :
    (iblk2 V c 1 t : Vec Ideal S5000x64 .f32) (ix2 p q) = V c main_v38 (ix2 r q) := by
  obtain ⟨-, -, e0, e1, -⟩ := idx t
  exact congrArg (V c main_v38) (ix2_row e0 e1 hr rfl rfl)

theorem blk2 (t : Fin cfg2.N) (p : Fin 5000) (r : Fin 150000) (hr : r.val = t.val * 5000 + p.val) :
    (iblk2 V c 2 t : Vec Ideal S5000x1 .f32) (ix2 p (0 : Fin 1)) = V c main_v12 (ix2 r (0 : Fin 1)) := by
  obtain ⟨-, -, -, -, e0, e1, -⟩ := idx t
  exact congrArg (V c main_v12) (ix2_row e0 e1 hr rfl rfl)

theorem blk3 (t : Fin cfg2.N) (q : Fin 64) :
    (iblk2 V c 3 t : Vec Ideal S1x64 .f32) (ix2 (0 : Fin 1) q) = V c main_v14 (ix2 (0 : Fin 1) q) := by
  obtain ⟨-, -, -, -, -, -, e0, e1, -⟩ := idx t
  exact congrArg (V c main_v14) (ix2_whole e0 e1 rfl rfl)

abbrev GA : S150000x64.Idx → EReal :=
  fun j => G (V c main_v42) (V c main_v38) (V c main_v12) (V c main_v14) (j 0) (j 1)

theorem flushed_eq (t : Fin cfg2.N) :
    (dat2 (F := Ideal) V c).flushed 4 t = ((cfg2.win 4).blk t).view.read (Elt Ideal) (GA V c) := by
  show (cfg2.win 4).cut (grid2.coords t) ((dat2 V c).after 4 t) = _
  rw [after2_4]
  unfold out2_4
  rw [View.canon_unit_zero hz]
  simp only [View.ld_unit_zero (S := S5000x64) hz, View.ld_unit_zero (S := S5000x1) hz, View.ld_unit_zero (S := S1x64) hz]
  funext j
  obtain ⟨p, q, rfl⟩ : ∃ (p : Fin 5000) (q : Fin 64), j = ix2 p q := ⟨j 0, j 1, eq_ix2 j⟩
  have ht : t.val < 30 := lt_of_lt_of_eq t.isLt (by decide)
  obtain ⟨-, -, -, -, -, -, -, -, e0, e1⟩ := idx t
  obtain ⟨r, hr⟩ : ∃ r : Fin 150000, r.val = t.val * 5000 + p.val := ⟨⟨t.val * 5000 + p.val, by omega⟩, rfl⟩
  have hemb : ((cfg2.win 4).blk t).view.emb (ix2 p q) = ix2 r q :=
    ix2_row e0 e1 hr rfl rfl
  show k2_pay1 (F := Ideal) (iblk2 V c 0 t) (iblk2 V c 1 t) (iblk2 V c 2 t) (iblk2 V c 3 t) (ix2 p q)
    = GA V c (((cfg2.win 4).blk t).view.emb (ix2 p q))
  rw [hemb]
  refine (combine_pay_apply _ _ _ _ p q).trans ?_
  rw [blk0 V c t p q r hr, blk1 V c t p q r hr, blk2 V c t p r hr, blk3 V c t q]

theorem cover (i : S150000x64.Idx) :
    ∃ t : Fin cfg2.N, (cfg2.win 4).flush t = true ∧ i ∈ ((cfg2.win 4).blk t).view.set := by
  have hi : (i 0).val < 150000 := (i 0).isLt
  have ht : (i 0).val / 5000 < cfg2.N := by rw [show cfg2.N = 30 by decide]; omega
  obtain ⟨-, -, -, -, -, -, -, -, e0, e1⟩ := idx ⟨_, ht⟩
  refine ⟨⟨_, ht⟩, flush2_4 _, ?_⟩
  show i ∈ ((View.whole main_v43).slice (win2_4.rect ⟨_, ht⟩)).set
  rw [View.set_slice_whole, Rect.mem_set_unit]
  exact mem_rows (by decide) i e0 e1

theorem final (i : Fin 150000) (h : Fin 64) :
    (dat2 (F := Ideal) V c).arrAt 4 cfg2.N (ix2 i h)
      = G (V c main_v42) (V c main_v38) (V c main_v12) (V c main_v14) i h :=
  congrFun ((dat2 (F := Ideal) V c).arrAt_eq_of_cover 4 (GA V c) (fun t _ => flushed_eq V c t) cover) (ix2 i h)

end Cert.KernelIdeal.KReg2

end
-- ==== Proof.KReg3.lean ====
import proofs.«423179_j27462020891318_2_alg».proof.Proof.KRegShared

noncomputable section

open scoped BigOperators

namespace Cert.KernelIdeal.KReg3

open Cert.KernelIdeal Cert.KernelIdeal.Gen Cert.KernelIdeal.KRegShared Idealize.ShloMosaic Idealize.ShloMosaic.TcCoe Idealize.ShloMosaic.ValueIdx Idealize.SL.Sem

abbrev G (pre : S150000x64.Idx → EReal) (mean var gamma beta : S1x64.Idx → EReal) (W : S64x64.Idx → EReal)
    (dinv : S150000x1.Idx → EReal) (i : Fin 150000) (h : Fin 64) : EReal :=
  (0 + ∑ k : Fin 64,
        max (((pre (ix2 i k) - mean (ix2 (0 : Fin 1) k))
                * Ideal.rsqrt (var (ix2 (0 : Fin 1) k) + Ideal.ofBits .f32 0x3727C5AC#32))
              * gamma (ix2 (0 : Fin 1) k) + beta (ix2 (0 : Fin 1) k)) 0
          * W (ix2 k h))
    * dinv (ix2 i (0 : Fin 1))

theorem idx : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0
    ∧ win3_7.index t (0 : Fin 2) = t.val ∧ win3_7.index t (1 : Fin 2) = 0 :=
  (by decide +kernel : ∀ t : Fin grid3.N, _)

variable (V : (c : Dev nD) → (b : Ref sig .tc) → Buf (Elt Ideal) ((c : Thread nD τ).loc b)) (c : Dev nD)

theorem blk0 (t : Fin cfg3.N) (p : Fin 5000) (k : Fin 64) (r : Fin 150000) (hr : r.val = t.val * 5000 + p.val) :
    (iblk3 V c 0 t : Vec Ideal S5000x64 .f32) (ix2 p k) = V c main_v43 (ix2 r k) := by
  obtain ⟨e0, e1, -⟩ := idx t
  exact congrArg (V c main_v43) (ix2_row e0 e1 hr rfl rfl)

theorem blk1 (t : Fin cfg3.N) (k : Fin 64) :
    (iblk3 V c 1 t : Vec Ideal S1x64 .f32) (ix2 (0 : Fin 1) k) = V c main_v47 (ix2 (0 : Fin 1) k) := by
  obtain ⟨-, -, e0, e1, -⟩ := idx t
  exact congrArg (V c main_v47) (ix2_whole e0 e1 rfl rfl)

theorem blk2 (t : Fin cfg3.N) (k : Fin 64) :
    (iblk3 V c 2 t : Vec Ideal S1x64 .f32) (ix2 (0 : Fin 1) k) = V c main_v54 (ix2 (0 : Fin 1) k) := by
  obtain ⟨-, -, -, -, e0, e1, -⟩ := idx t
  exact congrArg (V c main_v54) (ix2_whole e0 e1 rfl rfl)

theorem blk3 (t : Fin cfg3.N) (k : Fin 64) :
    (iblk3 V c 3 t : Vec Ideal S1x64 .f32) (ix2 (0 : Fin 1) k) = V c main_v18 (ix2 (0 : Fin 1) k) := by
  obtain ⟨-, -, -, -, -, -, e0, e1, -⟩ := idx t
  exact congrArg (V c main_v18) (ix2_whole e0 e1 rfl rfl)

theorem blk4 (t : Fin cfg3.N) (k : Fin 64) :
    (iblk3 V c 4 t : Vec Ideal S1x64 .f32) (ix2 (0 : Fin 1) k) = V c main_v19 (ix2 (0 : Fin 1) k) := by
  obtain ⟨-, -, -, -, -, -, -, -, e0, e1, -⟩ := idx t
  exact congrArg (V c main_v19) (ix2_whole e0 e1 rfl rfl)

theorem blk5 (t : Fin cfg3.N) (k q : Fin 64) :
    (iblk3 V c 5 t : Vec Ideal S64x64 .f32) (ix2 k q) = V c main_arg7 (ix2 k q) := by
  obtain ⟨-, -, -, -, -, -, -, -, -, -, e0, e1, -⟩ := idx t
  exact congrArg (V c main_arg7) (ix2_whole e0 e1 rfl rfl)

theorem blk6 (t : Fin cfg3.N) (p : Fin 5000) (r : Fin 150000) (hr : r.val = t.val * 5000 + p.val) :
    (iblk3 V c 6 t : Vec Ideal S5000x1 .f32) (ix2 p (0 : Fin 1)) = V c main_v12 (ix2 r (0 : Fin 1)) := by
  obtain ⟨-, -, -, -, -, -, -, -, -, -, -, -, e0, e1, -⟩ := idx t
  exact congrArg (V c main_v12) (ix2_row e0 e1 hr rfl rfl)

abbrev GA : S150000x64.Idx → EReal := fun j =>
  G (V c main_v43) (V c main_v47) (V c main_v54) (V c main_v18) (V c main_v19) (V c main_arg7) (V c main_v12) (j 0) (j 1)

theorem flushed_eq (t : Fin cfg3.N) :
    (dat3 (F := Ideal) V c).flushed 7 t = ((cfg3.win 7).blk t).view.read (Elt Ideal) (GA V c) := by
  show (cfg3.win 7).cut (grid3.coords t) ((dat3 V c).after 7 t) = _
  rw [after3_7]
  unfold out3_7
  rw [View.canon_unit_zero hz]
  simp only [View.ld_unit_zero (S := S5000x64) hz, View.ld_unit_zero (S := S1x64) hz, View.ld_unit_zero (S := S64x64) hz,
    View.ld_unit_zero (S := S5000x1) hz]
  funext j
  obtain ⟨p, q, rfl⟩ : ∃ (p : Fin 5000) (q : Fin 64), j = ix2 p q := ⟨j 0, j 1, eq_ix2 j⟩
  have ht : t.val < 30 := N_3 ▸ t.isLt
  obtain ⟨-, -, -, -, -, -, -, -, -, -, -, -, -, -, e0, e1⟩ := idx t
  obtain ⟨r, hr⟩ : ∃ r : Fin 150000, r.val = t.val * 5000 + p.val := ⟨⟨t.val * 5000 + p.val, by omega⟩, rfl⟩
  have hemb : ((cfg3.win 7).blk t).view.emb (ix2 p q) = ix2 r q :=
    ix2_row e0 e1 hr rfl rfl
  show k3_pay1 (F := Ideal) (iblk3 V c 2 t) (iblk3 V c 0 t) (iblk3 V c 1 t) (iblk3 V c 3 t) (iblk3 V c 4 t) (iblk3 V c 5 t) (iblk3 V c 6 t) (ix2 p q)
    = GA V c (((cfg3.win 7).blk t).view.emb (ix2 p q))
  rw [hemb]
  refine (bn_pay_apply _ _ _ _ _ _ _ p q).trans ?_
  refine congrArg₂ (· * ·) (congrArg (0 + ·) (Finset.sum_congr rfl fun k _ => ?_)) (blk6 V c t p r hr)
  rw [blk0 V c t p k r hr, blk1 V c t k, blk2 V c t k, blk3 V c t k, blk4 V c t k, blk5 V c t k q]

theorem cover (i : S150000x64.Idx) :
    ∃ t : Fin cfg3.N, (cfg3.win 7).flush t = true ∧ i ∈ ((cfg3.win 7).blk t).view.set := by
  have hi : (i 0).val < 150000 := (i 0).isLt
  have ht : (i 0).val / 5000 < cfg3.N := by rw [show cfg3.N = 30 from N_3]; omega
  obtain ⟨-, -, -, -, -, -, -, -, -, -, -, -, -, -, e0, e1⟩ := idx ⟨_, ht⟩
  refine ⟨⟨_, ht⟩, flush3_7 _, ?_⟩
  show i ∈ ((View.whole main_v55).slice (win3_7.rect ⟨_, ht⟩)).set
  rw [View.set_slice_whole, Rect.mem_set_unit]
  exact mem_rows (by decide) i e0 e1

theorem final (i : Fin 150000) (h : Fin 64) :
    (dat3 (F := Ideal) V c).arrAt 7 cfg3.N (ix2 i h)
      = G (V c main_v43) (V c main_v47) (V c main_v54) (V c main_v18) (V c main_v19) (V c main_arg7) (V c main_v12) i h :=
  congrFun ((dat3 (F := Ideal) V c).arrAt_eq_of_cover 7 (GA V c) (fun t _ => flushed_eq V c t) cover) (ix2 i h)

end Cert.KernelIdeal.KReg3

end
-- ==== Proof.KReg4.lean ====
import proofs.«423179_j27462020891318_2_alg».proof.Proof.KRegShared

noncomputable section

namespace Cert.KernelIdeal.KReg4

open Cert.KernelIdeal Cert.KernelIdeal.Gen Cert.KernelIdeal.KRegShared Idealize.ShloMosaic Idealize.ShloMosaic.TcCoe Idealize.ShloMosaic.ValueIdx Idealize.SL.Sem

abbrev G (a0 : S150000x64.Idx → EReal) (a1 : S150000x64.Idx → EReal) (a2 : S150000x1.Idx → EReal)
    (a3 : S1x64.Idx → EReal) (i : Fin 150000) (h : Fin 64) : EReal :=
  (a0 (ix2 i h) + a1 (ix2 i h)) * a2 (ix2 i (0 : Fin 1)) + a3 (ix2 (0 : Fin 1) h)

theorem idx : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

variable (V : (c : Dev nD) → (b : Ref sig .tc) → Buf (Elt Ideal) ((c : Thread nD τ).loc b)) (c : Dev nD)

theorem blk0 (t : Fin cfg4.N) (p : Fin 5000) (q : Fin 64) (r : Fin 150000) (hr : r.val = t.val * 5000 + p.val) :
    (iblk4 V c 0 t : Vec Ideal S5000x64 .f32) (ix2 p q) = V c main_v59 (ix2 r q) := by
  obtain ⟨e0, e1, -⟩ := idx t
  exact congrArg (V c main_v59) (ix2_row e0 e1 hr rfl rfl)

theorem blk1 (t : Fin cfg4.N) (p : Fin 5000) (q : Fin 64) (r : Fin 150000) (hr : r.val = t.val * 5000 + p.val) :
    (iblk4 V c 1 t : Vec Ideal S5000x64 .f32) (ix2 p q) = V c main_v55 (ix2 r q) := by
  obtain ⟨-, -, e0, e1, -⟩ := idx t
  exact congrArg (V c main_v55) (ix2_row e0 e1 hr rfl rfl)

theorem blk2 (t : Fin cfg4.N) (p : Fin 5000) (r : Fin 150000) (hr : r.val = t.val * 5000 + p.val) :
    (iblk4 V c 2 t : Vec Ideal S5000x1 .f32) (ix2 p (0 : Fin 1)) = V c main_v12 (ix2 r (0 : Fin 1)) := by
  obtain ⟨-, -, -, -, e0, e1, -⟩ := idx t
  exact congrArg (V c main_v12) (ix2_row e0 e1 hr rfl rfl)

theorem blk3 (t : Fin cfg4.N) (q : Fin 64) :
    (iblk4 V c 3 t : Vec Ideal S1x64 .f32) (ix2 (0 : Fin 1) q) = V c main_v15 (ix2 (0 : Fin 1) q) := by
  obtain ⟨-, -, -, -, -, -, e0, e1, -⟩ := idx t
  exact congrArg (V c main_v15) (ix2_whole e0 e1 rfl rfl)

abbrev GA : S150000x64.Idx → EReal :=
  fun j => G (V c main_v59) (V c main_v55) (V c main_v12) (V c main_v15) (j 0) (j 1)

theorem flushed_eq (t : Fin cfg4.N) :
    (dat4 (F := Ideal) V c).flushed 4 t = ((cfg4.win 4).blk t).view.read (Elt Ideal) (GA V c) := by
  show (cfg4.win 4).cut (grid4.coords t) ((dat4 V c).after 4 t) = _
  rw [after4_4]
  unfold out4_4
  rw [View.canon_unit_zero hz]
  simp only [View.ld_unit_zero (S := S5000x64) hz, View.ld_unit_zero (S := S5000x1) hz, View.ld_unit_zero (S := S1x64) hz]
  funext j
  obtain ⟨p, q, rfl⟩ : ∃ (p : Fin 5000) (q : Fin 64), j = ix2 p q := ⟨j 0, j 1, eq_ix2 j⟩
  have ht : t.val < 30 := lt_of_lt_of_eq t.isLt (by decide)
  obtain ⟨-, -, -, -, -, -, -, -, e0, e1⟩ := idx t
  obtain ⟨r, hr⟩ : ∃ r : Fin 150000, r.val = t.val * 5000 + p.val := ⟨⟨t.val * 5000 + p.val, by omega⟩, rfl⟩
  have hemb : ((cfg4.win 4).blk t).view.emb (ix2 p q) = ix2 r q :=
    ix2_row e0 e1 hr rfl rfl
  show k4_pay1 (F := Ideal) (iblk4 V c 0 t) (iblk4 V c 1 t) (iblk4 V c 2 t) (iblk4 V c 3 t) (ix2 p q)
    = GA V c (((cfg4.win 4).blk t).view.emb (ix2 p q))
  rw [hemb]
  refine (combine_pay_apply _ _ _ _ p q).trans ?_
  rw [blk0 V c t p q r hr, blk1 V c t p q r hr, blk2 V c t p r hr, blk3 V c t q]

theorem cover (i : S150000x64.Idx) :
    ∃ t : Fin cfg4.N, (cfg4.win 4).flush t = true ∧ i ∈ ((cfg4.win 4).blk t).view.set := by
  have hi : (i 0).val < 150000 := (i 0).isLt
  have ht : (i 0).val / 5000 < cfg4.N := by rw [show cfg4.N = 30 by decide]; omega
  obtain ⟨-, -, -, -, -, -, -, -, e0, e1⟩ := idx ⟨_, ht⟩
  refine ⟨⟨_, ht⟩, flush4_4 _, ?_⟩
  show i ∈ ((View.whole main_v60).slice (win4_4.rect ⟨_, ht⟩)).set
  rw [View.set_slice_whole, Rect.mem_set_unit]
  exact mem_rows (by decide) i e0 e1

theorem final (i : Fin 150000) (h : Fin 64) :
    (dat4 (F := Ideal) V c).arrAt 4 cfg4.N (ix2 i h)
      = G (V c main_v59) (V c main_v55) (V c main_v12) (V c main_v15) i h :=
  congrFun ((dat4 (F := Ideal) V c).arrAt_eq_of_cover 4 (GA V c) (fun t _ => flushed_eq V c t) cover) (ix2 i h)

end Cert.KernelIdeal.KReg4

end
-- ==== Proof.KReg5.lean ====
import proofs.«423179_j27462020891318_2_alg».proof.Proof.KRegShared

noncomputable section

namespace Cert.KernelIdeal.KReg5

open Cert.KernelIdeal Cert.KernelIdeal.Gen Cert.KernelIdeal.KRegShared Idealize.ShloMosaic Idealize.ShloMosaic.TcCoe Idealize.ShloMosaic.ValueIdx Idealize.SL.Sem

abbrev G (a0 : S150000x64.Idx → EReal) (i : Fin 150000) (h : Fin 64) : EReal :=
  max (a0 (ix2 i h)) 0

theorem pay_apply (x0 : Vec Ideal S5000x64 .f32) (p : Fin 5000) (q : Fin 64) :
    k5_pay1 x0 (ix2 p q) = max (x0 (ix2 p q)) 0 := by
  unfold k5_pay1
  simp only [shapeCast_self]
  rw [maximumf_apply, broadcast_apply]
  exact congrArg (max _) Ideal.ofBits_zero_f32

theorem idx : ∀ t : Fin cfg5.N,
    win5_0.index t (0 : Fin 2) = t.val ∧ win5_0.index t (1 : Fin 2) = 0
    ∧ win5_1.index t (0 : Fin 2) = t.val ∧ win5_1.index t (1 : Fin 2) = 0 :=
  (by decide +kernel : ∀ t : Fin grid5.N, _)

variable (V : (c : Dev nD) → (b : Ref sig .tc) → Buf (Elt Ideal) ((c : Thread nD τ).loc b)) (c : Dev nD)

theorem blk0 (t : Fin cfg5.N) (p : Fin 5000) (q : Fin 64) (r : Fin 150000) (hr : r.val = t.val * 5000 + p.val) :
    (iblk5 V c 0 t : Vec Ideal S5000x64 .f32) (ix2 p q) = V c main_v60 (ix2 r q) := by
  obtain ⟨e0, e1, -⟩ := idx t
  exact congrArg (V c main_v60) (ix2_row e0 e1 hr rfl rfl)

abbrev GA : S150000x64.Idx → EReal := fun j => G (V c main_v60) (j 0) (j 1)

theorem flushed_eq (t : Fin cfg5.N) :
    (dat5 (F := Ideal) V c).flushed 1 t = ((cfg5.win 1).blk t).view.read (Elt Ideal) (GA V c) := by
  show (cfg5.win 1).cut (grid5.coords t) ((dat5 V c).after 1 t) = _
  rw [after5_1]
  unfold out5_1
  rw [View.canon_unit_zero hz]
  simp only [View.ld_unit_zero (S := S5000x64) hz]
  funext j
  obtain ⟨p, q, rfl⟩ : ∃ (p : Fin 5000) (q : Fin 64), j = ix2 p q := ⟨j 0, j 1, eq_ix2 j⟩
  have ht : t.val < 30 := lt_of_lt_of_eq t.isLt (by decide)
  obtain ⟨-, -, e0, e1⟩ := idx t
  obtain ⟨r, hr⟩ : ∃ r : Fin 150000, r.val = t.val * 5000 + p.val := ⟨⟨t.val * 5000 + p.val, by omega⟩, rfl⟩
  have hemb : ((cfg5.win 1).blk t).view.emb (ix2 p q) = ix2 r q :=
    ix2_row e0 e1 hr rfl rfl
  show k5_pay1 (F := Ideal) (iblk5 V c 0 t) (ix2 p q) = GA V c (((cfg5.win 1).blk t).view.emb (ix2 p q))
  rw [hemb, pay_apply, blk0 V c t p q r hr]

theorem cover (i : S150000x64.Idx) :
    ∃ t : Fin cfg5.N, (cfg5.win 1).flush t = true ∧ i ∈ ((cfg5.win 1).blk t).view.set := by
  have hi : (i 0).val < 150000 := (i 0).isLt
  have ht : (i 0).val / 5000 < cfg5.N := by rw [show cfg5.N = 30 by decide]; omega
  obtain ⟨-, -, e0, e1⟩ := idx ⟨_, ht⟩
  refine ⟨⟨_, ht⟩, flush5_1 _, ?_⟩
  show i ∈ ((View.whole main_v61).slice (win5_1.rect ⟨_, ht⟩)).set
  rw [View.set_slice_whole, Rect.mem_set_unit]
  exact mem_rows (by decide) i e0 e1

theorem final (i : Fin 150000) (h : Fin 64) :
    (dat5 (F := Ideal) V c).arrAt 1 cfg5.N (ix2 i h) = G (V c main_v60) i h :=
  congrFun ((dat5 (F := Ideal) V c).arrAt_eq_of_cover 1 (GA V c) (fun t _ => flushed_eq V c t) cover) (ix2 i h)

end Cert.KernelIdeal.KReg5

end
-- ==== Proof.KReg6.lean ====
import proofs.«423179_j27462020891318_2_alg».proof.Proof.KRegShared

noncomputable section

open scoped BigOperators

namespace Cert.KernelIdeal.KReg6

open Cert.KernelIdeal Cert.KernelIdeal.Gen Cert.KernelIdeal.KRegShared Idealize.ShloMosaic Idealize.ShloMosaic.TcCoe Idealize.ShloMosaic.ValueIdx Idealize.SL.Sem

abbrev G (a0 a1 : S2000000x16.Idx → EReal) (a2 a3 : S16x64.Idx → EReal) (a4 : S1x64.Idx → EReal)
    (a5 : S64x1.Idx → EReal) (a6 : S1x1.Idx → EReal) (e : Fin 2000000) (q : Fin 1) : EReal :=
  Ideal.logistic
    ((0 + ∑ h : Fin 64,
          max ((((0 + ∑ k : Fin 16, a0 (ix2 e k) * a2 (ix2 k h))
                  + (0 + ∑ k : Fin 16, a1 (ix2 e k) * a3 (ix2 k h)))
                + a4 (ix2 (0 : Fin 1) h))) 0
            * a5 (ix2 h (0 : Fin 1)))
      + a6 (ix2 (0 : Fin 1) (0 : Fin 1)))

/-- Row `p` of the body's result: the logistic of the rectified hidden units against the output weight, plus the output bias. -/
theorem pay_apply (x0 x1 : Vec Ideal S5000x16 .f32) (x2 x3 : Vec Ideal S16x64 .f32) (x4 : Vec Ideal S1x64 .f32)
    (x5 : Vec Ideal S64x1 .f32) (x6 : Vec Ideal S1x1 .f32) (p : Fin 5000) :
    k6_pay1 x0 x1 x2 x3 x4 x5 x6 (ix2 p (0 : Fin 1))
      = Ideal.logistic
          ((0 + ∑ h : Fin 64,
                max ((((0 + ∑ k : Fin 16, x0 (ix2 p k) * x2 (ix2 k h))
                        + (0 + ∑ k : Fin 16, x1 (ix2 p k) * x3 (ix2 k h)))
                      + x4 (ix2 (0 : Fin 1) h))) 0
                  * x5 (ix2 h (0 : Fin 1)))
            + x6 (ix2 (0 : Fin 1) (0 : Fin 1))) := by
  unfold k6_pay1
  simp only [shapeCast_self]
  refine congrArg Ideal.logistic (congrArg₂ (· + ·) ?_ (broadcastTo_1b_ab_apply x6 broadcasts_S1x1_S5000x1 p 0))
  refine (mm_apply dot_S5000x64_S64x1_S5000x1_1_0_0_1_n_n rfl _ (truncf .bf16 x5 bitsLt_bf16_f32) p 0).trans ?_
  refine congrArg (0 + ·) (Finset.sum_congr rfl fun h _ => congrArg (· * x5 (ix2 h (0 : Fin 1))) ?_)
  exact congrArg₂ max
    (congrArg₂ (· + ·)
      (congrArg₂ (· + ·)
        (mm_apply dot_S5000x16_S16x64_S5000x64_1_0_0_1_n_n rfl (truncf .bf16 x0 bitsLt_bf16_f32) (truncf .bf16 x2 bitsLt_bf16_f32) p h)
        (mm_apply dot_S5000x16_S16x64_S5000x64_1_0_0_1_n_n rfl (truncf .bf16 x1 bitsLt_bf16_f32) (truncf .bf16 x3 bitsLt_bf16_f32) p h))
      (broadcastTo_1b_ab_apply x4 broadcasts_S1x64_S5000x64 p h))
    Ideal.ofBits_zero_f32

theorem idx : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = t.val ∧ win6_7.index t (1 : Fin 2) = 0 :=
  (by decide +kernel : ∀ t : Fin grid6.N, _)

variable (V : (c : Dev nD) → (b : Ref sig .tc) → Buf (Elt Ideal) ((c : Thread nD τ).loc b)) (c : Dev nD)

theorem blk0 (t : Fin cfg6.N) (p : Fin 5000) (r : Fin 2000000) (hr : r.val = t.val * 5000 + p.val) (k : Fin 16) :
    (iblk6 V c 0 t : Vec Ideal S5000x16 .f32) (ix2 p k) = V c main_v62 (ix2 r k) := by
  obtain ⟨e0, e1, -⟩ := idx t
  exact congrArg (V c main_v62) (ix2_row e0 e1 hr rfl rfl)

theorem blk1 (t : Fin cfg6.N) (p : Fin 5000) (r : Fin 2000000) (hr : r.val = t.val * 5000 + p.val) (k : Fin 16) :
    (iblk6 V c 1 t : Vec Ideal S5000x16 .f32) (ix2 p k) = V c main_v65 (ix2 r k) := by
  obtain ⟨-, -, e0, e1, -⟩ := idx t
  exact congrArg (V c main_v65) (ix2_row e0 e1 hr rfl rfl)

theorem blk2 (t : Fin cfg6.N) (k : Fin 16) (h : Fin 64) :
    (iblk6 V c 2 t : Vec Ideal S16x64 .f32) (ix2 k h) = V c main_v66 (ix2 k h) := by
  obtain ⟨-, -, -, -, e0, e1, -⟩ := idx t
  exact congrArg (V c main_v66) (ix2_whole e0 e1 rfl rfl)

theorem blk3 (t : Fin cfg6.N) (k : Fin 16) (h : Fin 64) :
    (iblk6 V c 3 t : Vec Ideal S16x64 .f32) (ix2 k h) = V c main_v67 (ix2 k h) := by
  obtain ⟨-, -, -, -, -, -, e0, e1, -⟩ := idx t
  exact congrArg (V c main_v67) (ix2_whole e0 e1 rfl rfl)

theorem blk4 (t : Fin cfg6.N) (h : Fin 64) :
    (iblk6 V c 4 t : Vec Ideal S1x64 .f32) (ix2 (0 : Fin 1) h) = V c main_v68 (ix2 (0 : Fin 1) h) := by
  obtain ⟨-, -, -, -, -, -, -, -, e0, e1, -⟩ := idx t
  exact congrArg (V c main_v68) (ix2_whole e0 e1 rfl rfl)

theorem blk5 (t : Fin cfg6.N) (h : Fin 64) :
    (iblk6 V c 5 t : Vec Ideal S64x1 .f32) (ix2 h (0 : Fin 1)) = V c main_arg15 (ix2 h (0 : Fin 1)) := by
  obtain ⟨-, -, -, -, -, -, -, -, -, -, e0, e1, -⟩ := idx t
  exact congrArg (V c main_arg15) (ix2_whole e0 e1 rfl rfl)

theorem blk6 (t : Fin cfg6.N) :
    (iblk6 V c 6 t : Vec Ideal S1x1 .f32) (ix2 (0 : Fin 1) (0 : Fin 1)) = V c main_v69 (ix2 (0 : Fin 1) (0 : Fin 1)) := by
  obtain ⟨-, -, -, -, -, -, -, -, -, -, -, -, e0, e1, -⟩ := idx t
  exact congrArg (V c main_v69) (ix2_whole e0 e1 rfl rfl)

abbrev GA : S2000000x1.Idx → EReal := fun j =>
  G (V c main_v62) (V c main_v65) (V c main_v66) (V c main_v67) (V c main_v68) (V c main_arg15) (V c main_v69) (j 0) (j 1)

theorem flushed_eq (t : Fin cfg6.N) :
    (dat6 (F := Ideal) V c).flushed 7 t = ((cfg6.win 7).blk t).view.read (Elt Ideal) (GA V c) := by
  show (cfg6.win 7).cut (grid6.coords t) ((dat6 V c).after 7 t) = _
  rw [after6_7]
  unfold out6_7
  rw [View.canon_unit_zero hz]
  simp only [View.ld_unit_zero (S := S5000x16) hz, View.ld_unit_zero (S := S16x64) hz, View.ld_unit_zero (S := S1x64) hz,
    View.ld_unit_zero (S := S64x1) hz, View.ld_unit_zero (S := S1x1) hz]
  funext j
  obtain ⟨p, q, rfl⟩ : ∃ (p : Fin 5000) (q : Fin 1), j = ix2 p q := ⟨j 0, j 1, eq_ix2 j⟩
  obtain rfl : q = 0 := Subsingleton.elim _ _
  have ht : t.val < 400 := N_6 ▸ t.isLt
  obtain ⟨-, -, -, -, -, -, -, -, -, -, -, -, -, -, e0, e1⟩ := idx t
  obtain ⟨r, hr⟩ : ∃ r : Fin 2000000, r.val = t.val * 5000 + p.val := ⟨⟨t.val * 5000 + p.val, by omega⟩, rfl⟩
  have hemb : ((cfg6.win 7).blk t).view.emb (ix2 p (0 : Fin 1)) = ix2 r (0 : Fin 1) :=
    ix2_row e0 e1 hr rfl rfl
  show k6_pay1 (F := Ideal) (iblk6 V c 0 t) (iblk6 V c 1 t) (iblk6 V c 2 t) (iblk6 V c 3 t) (iblk6 V c 4 t) (iblk6 V c 5 t) (iblk6 V c 6 t) (ix2 p (0 : Fin 1))
    = GA V c (((cfg6.win 7).blk t).view.emb (ix2 p (0 : Fin 1)))
  rw [hemb]
  refine (pay_apply _ _ _ _ _ _ _ p).trans ?_
  simp only [blk0 V c t p r hr, blk1 V c t p r hr, blk2 V c t, blk3 V c t, blk4 V c t, blk5 V c t, blk6 V c t]

theorem cover (i : S2000000x1.Idx) :
    ∃ t : Fin cfg6.N, (cfg6.win 7).flush t = true ∧ i ∈ ((cfg6.win 7).blk t).view.set := by
  have hi : (i 0).val < 2000000 := (i 0).isLt
  have ht : (i 0).val / 5000 < cfg6.N := by rw [show cfg6.N = 400 from N_6]; omega
  obtain ⟨-, -, -, -, -, -, -, -, -, -, -, -, -, -, e0, e1⟩ := idx ⟨_, ht⟩
  refine ⟨⟨_, ht⟩, flush6_7 _, ?_⟩
  show i ∈ ((View.whole main_v70).slice (win6_7.rect ⟨_, ht⟩)).set
  rw [View.set_slice_whole, Rect.mem_set_unit]
  exact mem_rows (by decide) i e0 e1

theorem final (e : Fin 2000000) (q : Fin 1) :
    (dat6 (F := Ideal) V c).arrAt 7 cfg6.N (ix2 e q)
      = G (V c main_v62) (V c main_v65) (V c main_v66) (V c main_v67) (V c main_v68) (V c main_arg15) (V c main_v69) e q :=
  congrFun ((dat6 (F := Ideal) V c).arrAt_eq_of_cover 7 (GA V c) (fun t _ => flushed_eq V c t) cover) (ix2 e q)

end Cert.KernelIdeal.KReg6

end
-- ==== Proof.Spec.lean ====
import Idealize.ShloMosaic.PureOps.Ideal

noncomputable section

open scoped BigOperators

namespace Cert.Spec

open Idealize.ShloMosaic

abbrev NN := Fin 150000
abbrev EE := Fin 2000000
abbrev DD := Fin 16
abbrev HH := Fin 64

structure Data where
  rN : EE → NN
  cN : EE → NN
  colI : EE → ℤ
  x0 : NN → DD → EReal
  dinv : NN → EReal
  ue : EE → DD → EReal
  ie : EE → DD → EReal
  W1 : DD → HH → EReal
  b1 : HH → EReal
  W2 : HH → HH → EReal
  b2 : HH → EReal
  W3 : HH → HH → EReal
  b3 : HH → EReal
  g1 : HH → EReal
  be1 : HH → EReal
  g2 : HH → EReal
  be2 : HH → EReal
  fW1 : Fin 32 → HH → EReal
  fb1 : HH → EReal
  fW2 : HH → EReal
  fb2 : EReal
  eps : EReal
  cnt : EReal

structure Data.Real (D : Data) : Prop where
  x0 : ∀ i d, ∃ r : ℝ, D.x0 i d = (r : EReal)
  dinv : ∀ i, ∃ r : ℝ, D.dinv i = (r : EReal)
  ue : ∀ e d, ∃ r : ℝ, D.ue e d = (r : EReal)
  ie : ∀ e d, ∃ r : ℝ, D.ie e d = (r : EReal)
  W1 : ∀ d h, ∃ r : ℝ, D.W1 d h = (r : EReal)
  b1 : ∀ h, ∃ r : ℝ, D.b1 h = (r : EReal)
  W2 : ∀ k h, ∃ r : ℝ, D.W2 k h = (r : EReal)
  b2 : ∀ h, ∃ r : ℝ, D.b2 h = (r : EReal)
  W3 : ∀ k h, ∃ r : ℝ, D.W3 k h = (r : EReal)
  b3 : ∀ h, ∃ r : ℝ, D.b3 h = (r : EReal)
  g1 : ∀ h, ∃ r : ℝ, D.g1 h = (r : EReal)
  be1 : ∀ h, ∃ r : ℝ, D.be1 h = (r : EReal)
  g2 : ∀ h, ∃ r : ℝ, D.g2 h = (r : EReal)
  be2 : ∀ h, ∃ r : ℝ, D.be2 h = (r : EReal)
  fW1 : ∀ k h, ∃ r : ℝ, D.fW1 k h = (r : EReal)
  fb1 : ∀ h, ∃ r : ℝ, D.fb1 h = (r : EReal)
  fW2 : ∀ h, ∃ r : ℝ, D.fW2 h = (r : EReal)
  fb2 : ∃ r : ℝ, D.fb2 = (r : EReal)
  eps : ∃ r : ℝ, 0 < r ∧ D.eps = (r : EReal)
  cnt : D.cnt = ((150000 : ℝ) : EReal)
  col : ∀ e, D.colI e = (((D.cN e).val : ℕ) : ℤ)

variable (D : Data)

def mean (p : NN → HH → EReal) (h : HH) : EReal := Ideal.div (0 + ∑ i : NN, p i h) D.cnt

def var (p : NN → HH → EReal) (h : HH) : EReal :=
  Ideal.div (0 + ∑ i : NN, (p i h - mean D p h) * (p i h - mean D p h)) D.cnt

def bnRelu (p : NN → HH → EReal) (g be : HH → EReal) (i : NN) (h : HH) : EReal :=
  max ((p i h - mean D p h) * Ideal.rsqrt (var D p h + D.eps) * g h + be h) 0

def agg (f : EE → EReal) (i : NN) : EReal := 0 + ∑ e : EE, if D.colI e = ((i.val : ℕ) : ℤ) then f e else 0

namespace K

def x0s (i : NN) (d : DD) : EReal := D.x0 i d * D.dinv i

def pre1 (i : NN) (h : HH) : EReal :=
  (0 + ∑ d : DD, ((agg D (fun e => x0s D (D.rN e) d) i + x0s D i d) * D.dinv i) * D.W1 d h) + D.b1 h

def scaled (y : NN → HH → EReal) (W : HH → HH → EReal) (i : NN) (h : HH) : EReal :=
  (0 + ∑ k : HH, y i k * W k h) * D.dinv i

def combine (s : NN → HH → EReal) (b : HH → EReal) (i : NN) (h : HH) : EReal :=
  (agg D (fun e => s (D.rN e) h) i + s i h) * D.dinv i + b h
def y1 : NN → HH → EReal := bnRelu D (pre1 D) D.g1 D.be1
def s2 : NN → HH → EReal := scaled D (y1 D) D.W2
def pre2 : NN → HH → EReal := combine D (s2 D) D.b2
def y2 : NN → HH → EReal := bnRelu D (pre2 D) D.g2 D.be2
def s3 : NN → HH → EReal := scaled D (y2 D) D.W3
def pre3 : NN → HH → EReal := combine D (s3 D) D.b3

def xout (i : NN) (h : HH) : EReal := max (pre3 D i h) 0

def hid (e : EE) (h : HH) : EReal :=
  max (((0 + ∑ k : DD, D.ue e k * D.fW1 (Fin.castAdd 16 k) h) + (0 + ∑ k : DD, D.ie e k * D.fW1 (Fin.natAdd 16 k) h)) + D.fb1 h) 0

def pred (e : EE) : EReal := Ideal.logistic ((0 + ∑ h : HH, hid D e h * D.fW2 h) + D.fb2)

end K

namespace R

def lin {A : Type} [Fintype A] (z : NN → A → EReal) (W : A → HH → EReal) (i : NN) (h : HH) : EReal :=
  0 + ∑ k : A, z i k * W k h

def conv (xw : NN → HH → EReal) (b : HH → EReal) (i : NN) (h : HH) : EReal :=
  (agg D (fun e => xw (D.rN e) h * (D.dinv (D.rN e) * D.dinv (D.cN e))) i + xw i h * (D.dinv i * D.dinv i)) + b h
def pre1 : NN → HH → EReal := conv D (lin D.x0 D.W1) D.b1
def y1 : NN → HH → EReal := bnRelu D (pre1 D) D.g1 D.be1
def pre2 : NN → HH → EReal := conv D (lin (y1 D) D.W2) D.b2
def y2 : NN → HH → EReal := bnRelu D (pre2 D) D.g2 D.be2
def pre3 : NN → HH → EReal := conv D (lin (y2 D) D.W3) D.b3

def xout (i : NN) (h : HH) : EReal := max (pre3 D i h) 0

def cat (e : EE) (k : Fin 32) : EReal := if h : k.val < 16 then D.ue e ⟨k.val, h⟩ else D.ie e ⟨k.val - 16, by omega⟩

def hid (e : EE) (h : HH) : EReal := max ((0 + ∑ k : Fin 32, cat D e k * D.fW1 k h) + D.fb1 h) 0

def pred (e : EE) : EReal := Ideal.logistic ((0 + ∑ h : HH, hid D e h * D.fW2 h) + D.fb2)

end R

end Cert.Spec

end
-- ==== Proof.SpecData.lean ====
import proofs.«423179_j27462020891318_2_alg».proof.Proof.Spec
import Idealize.ShloMosaic.Lib.ValueIdx

noncomputable section

open scoped BigOperators

namespace Cert.Spec

open Idealize.ShloMosaic Idealize.ShloMosaic.ValueIdx

def IsReal (x : EReal) : Prop := ∃ r : ℝ, x = (r : EReal)

def dataOf
    (a0 : (⟨2, ![2, 2000000]⟩ : Shape).Idx → BitVec 32)
    (user : (⟨2, ![100000, 16]⟩ : Shape).Idx → EReal) (item : (⟨2, ![50000, 16]⟩ : Shape).Idx → EReal)
    (w1 : (⟨2, ![16, 64]⟩ : Shape).Idx → EReal) (b1 : (⟨1, ![64]⟩ : Shape).Idx → EReal)
    (w2 : (⟨2, ![64, 64]⟩ : Shape).Idx → EReal) (b2 : (⟨1, ![64]⟩ : Shape).Idx → EReal)
    (w3 : (⟨2, ![64, 64]⟩ : Shape).Idx → EReal) (b3 : (⟨1, ![64]⟩ : Shape).Idx → EReal)
    (g1 be1 g2 be2 : (⟨1, ![64]⟩ : Shape).Idx → EReal)
    (fw1 : (⟨2, ![32, 64]⟩ : Shape).Idx → EReal) (fb1 : (⟨1, ![64]⟩ : Shape).Idx → EReal)
    (fw2 : (⟨2, ![64, 1]⟩ : Shape).Idx → EReal) (fb2 : (⟨1, ![1]⟩ : Shape).Idx → EReal) : Data where
  rN e := ⟨min (a0 (ix2 (0 : Fin 2) e)).toInt.toNat 149999, by omega⟩
  cN e := ⟨min (a0 (ix2 (1 : Fin 2) e)).toInt.toNat 149999, by omega⟩
  colI e := (a0 (ix2 (1 : Fin 2) e)).toInt
  x0 i d := if h : i.val < 100000 then user (ix2 (⟨i.val, h⟩ : Fin 100000) d)
    else item (ix2 (⟨i.val - 100000, by have := i.isLt; omega⟩ : Fin 50000) d)
  dinv i := Ideal.rsqrt ((0 + ∑ e : EE, if (a0 (ix2 (1 : Fin 2) e)).toInt = ((i.val : ℕ) : ℤ) then (1 : EReal) else 0) + 1)
  ue e d := user (ix2 (⟨min (a0 (ix2 (0 : Fin 2) e)).toInt.toNat 99999, by omega⟩ : Fin 100000) d)
  ie e d := item (ix2 (⟨min (a0 (ix2 (1 : Fin 2) e) - 100000#32).toInt.toNat 49999, by omega⟩ : Fin 50000) d)
  W1 d h := w1 (ix2 d h)
  b1 h := b1 (ix1 h)
  W2 k h := w2 (ix2 k h)
  b2 h := b2 (ix1 h)
  W3 k h := w3 (ix2 k h)
  b3 h := b3 (ix1 h)
  g1 h := g1 (ix1 h)
  be1 h := be1 (ix1 h)
  g2 h := g2 (ix1 h)
  be2 h := be2 (ix1 h)
  fW1 k h := fw1 (ix2 k h)
  fb1 h := fb1 (ix1 h)
  fW2 h := fw2 (ix2 h (0 : Fin 1))
  fb2 := fb2 (ix1 (0 : Fin 1))
  eps := Ideal.ofBits .f32 0x3727C5AC#32
  cnt := Ideal.ofBits .f32 0x48127C00#32

end Cert.Spec

end
-- ==== Proof.KChain.lean ====
import proofs.«423179_j27462020891318_2_alg».proof.Proof.KSeg0
import proofs.«423179_j27462020891318_2_alg».proof.Proof.KTakeScatter
import proofs.«423179_j27462020891318_2_alg».proof.Proof.KMeanVar
import proofs.«423179_j27462020891318_2_alg».proof.Proof.KSeg6
import proofs.«423179_j27462020891318_2_alg».proof.Proof.KKeep
import proofs.«423179_j27462020891318_2_alg».proof.Proof.KReg0
import proofs.«423179_j27462020891318_2_alg».proof.Proof.KReg1
import proofs.«423179_j27462020891318_2_alg».proof.Proof.KReg2
import proofs.«423179_j27462020891318_2_alg».proof.Proof.KReg3
import proofs.«423179_j27462020891318_2_alg».proof.Proof.KReg4
import proofs.«423179_j27462020891318_2_alg».proof.Proof.KReg5
import proofs.«423179_j27462020891318_2_alg».proof.Proof.KReg6
import proofs.«423179_j27462020891318_2_alg».proof.Proof.SpecData

noncomputable section

open scoped BigOperators

namespace Cert.KernelIdeal.KChain

open Cert.KernelIdeal Cert.KernelIdeal.Gen Idealize.ShloMosaic Idealize.ShloMosaic.TcCoe Idealize.ShloMosaic.ValueIdx
open Idealize.SL.Sem Cert.Spec

variable (m : (ℓ : Loc nD τ sig) → Buf (Elt Ideal) ℓ) (ρ : Dev nD → PrngReg) (c : Dev nD)

abbrev KD : Cert.Spec.Data :=
  Cert.Spec.dataOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    (m ((c : Thread nD τ).loc main_arg15)) (m ((c : Thread nD τ).loc main_arg16))

section Chain

variable (hrow : ∀ e : Fin 2000000, 0 ≤ ((m ((c : Thread nD τ).loc main_arg0)) (ix2 (0 : Fin 2) e)).toInt ∧ ((m ((c : Thread nD τ).loc main_arg0)) (ix2 (0 : Fin 2) e)).toInt < 100000)
variable (hcol : ∀ e : Fin 2000000, 100000 ≤ ((m ((c : Thread nD τ).loc main_arg0)) (ix2 (1 : Fin 2) e)).toInt ∧ ((m ((c : Thread nD τ).loc main_arg0)) (ix2 (1 : Fin 2) e)).toInt < 150000)

theorem dinv_W1 (i : Fin 150000) : W1 m ρ c (Proc.devRef .tc main_v12) (ix2 i (0 : Fin 1)) = (KD m c).dinv i := by
  dsimp only [KD, Cert.Spec.dataOf]
  exact KSeg0.dinvc m ρ c i

theorem x0s_W1 (i : Fin 150000) (d : Fin 16) : W1 m ρ c (Proc.devRef .tc main_v21) (ix2 i d) = K.x0s (KD m c) i d := by
  dsimp only [K.x0s, KD, Cert.Spec.dataOf]
  exact KSeg0.x0s m ρ c i d

include hrow in

theorem row_node (e : Fin 2000000) : 0 ≤ ((m ((c : Thread nD τ).loc main_arg0)) (ix2 (0 : Fin 2) e)).toInt ∧ ((m ((c : Thread nD τ).loc main_arg0)) (ix2 (0 : Fin 2) e)).toInt < 150000 :=
  ⟨(hrow e).1, lt_trans (hrow e).2 (by norm_num)⟩

include hrow in
theorem agg0_W3 (i : Fin 150000) (d : Fin 16) :
    W3 m ρ c (Proc.devRef .tc main_v25) (ix2 i d) = agg (KD m c) (fun e => K.x0s (KD m c) ((KD m c).rN e) d) i :=
  KTakeScatter.agg0 m ρ c (K.x0s (KD m c)) (fun e => (m ((c : Thread nD τ).loc main_arg0)) (ix2 (0 : Fin 2) e)) (fun e => (m ((c : Thread nD τ).loc main_arg0)) (ix2 (1 : Fin 2) e))
    (x0s_W1 m ρ c) (KSeg0.row m ρ c) (KSeg0.col m ρ c) (row_node m c hrow) i d

include hrow in
theorem pre1_W4 (i : Fin 150000) (h : Fin 64) : W4 m ρ c (Proc.devRef .tc main_v26) (ix2 i h) = K.pre1 (KD m c) i h := by
  refine (congrFun (W4_arr m ρ c 5) (ix2 i h)).trans ((KReg0.final (V3 m ρ) c i h).trans ?_)
  simp only [KReg0.G, V3, agg0_W3 m ρ c hrow, KKeep.keep_main_v21_W3 m ρ c, x0s_W1 m ρ c, KKeep.keep_main_v12_W3 m ρ c, dinv_W1 m ρ c,
    KKeep.keep_main_arg3_W3 m ρ c, KKeep.keep_main_v13_W3 m ρ c, KSeg0.b13 m ρ c]
  rfl

include hrow in
theorem mean1_W5 (h : Fin 64) : W5 m ρ c (Proc.devRef .tc main_v30) (ix2 (0 : Fin 1) h) = mean (KD m c) (K.pre1 (KD m c)) h := by
  rw [KMeanVar.mean1 m ρ c h]
  simp only [KMeanVar.X1, pre1_W4 m ρ c hrow]
  rfl

include hrow in
theorem var1_W5 (h : Fin 64) : W5 m ρ c (Proc.devRef .tc main_v37) (ix2 (0 : Fin 1) h) = var (KD m c) (K.pre1 (KD m c)) h := by
  rw [KMeanVar.var1 m ρ c h]
  simp only [KMeanVar.X1, pre1_W4 m ρ c hrow]
  rfl

include hrow in
theorem s2_W6 (i : Fin 150000) (h : Fin 64) : W6 m ρ c (Proc.devRef .tc main_v38) (ix2 i h) = K.s2 (KD m c) i h := by
  refine (congrFun (W6_arr m ρ c 7) (ix2 i h)).trans ((KReg1.final (V5 m ρ) c i h).trans ?_)
  simp only [KReg1.G, V5, KKeep.keep_main_v26_W5 m ρ c, pre1_W4 m ρ c hrow, mean1_W5 m ρ c hrow, var1_W5 m ρ c hrow,
    KKeep.keep_main_v16_W5 m ρ c, KSeg0.b16 m ρ c, KKeep.keep_main_v17_W5 m ρ c, KSeg0.b17 m ρ c,
    KKeep.keep_main_arg5_W5 m ρ c, KKeep.keep_main_v12_W5 m ρ c, dinv_W1 m ρ c]
  rfl

include hrow in
theorem agg2_W8 (i : Fin 150000) (h : Fin 64) :
    W8 m ρ c (Proc.devRef .tc main_v42) (ix2 i h) = agg (KD m c) (fun e => K.s2 (KD m c) ((KD m c).rN e) h) i :=
  KTakeScatter.agg2 m ρ c (K.s2 (KD m c)) (fun e => (m ((c : Thread nD τ).loc main_arg0)) (ix2 (0 : Fin 2) e)) (fun e => (m ((c : Thread nD τ).loc main_arg0)) (ix2 (1 : Fin 2) e))
    (s2_W6 m ρ c hrow) (fun e => (congrFun (KKeep.keep_main_v1_W6 m ρ c) (ix1 e)).trans (KSeg0.row m ρ c e))
    (fun e => (congrFun (KKeep.keep_main_v3_W6 m ρ c) (ix1 e)).trans (KSeg0.col m ρ c e)) (row_node m c hrow) i h

include hrow in
theorem pre2_W9 (i : Fin 150000) (h : Fin 64) : W9 m ρ c (Proc.devRef .tc main_v43) (ix2 i h) = K.pre2 (KD m c) i h := by
  refine (congrFun (W9_arr m ρ c 4) (ix2 i h)).trans ((KReg2.final (V8 m ρ) c i h).trans ?_)
  simp only [KReg2.G, V8, agg2_W8 m ρ c hrow, KKeep.keep_main_v38_W8 m ρ c, s2_W6 m ρ c hrow, KKeep.keep_main_v12_W8 m ρ c, dinv_W1 m ρ c,
    KKeep.keep_main_v14_W8 m ρ c, KSeg0.b14 m ρ c]
  rfl

include hrow in
theorem mean2_W10 (h : Fin 64) : W10 m ρ c (Proc.devRef .tc main_v47) (ix2 (0 : Fin 1) h) = mean (KD m c) (K.pre2 (KD m c)) h := by
  rw [KMeanVar.mean2 m ρ c h]
  simp only [KMeanVar.X2, pre2_W9 m ρ c hrow]
  rfl

include hrow in
theorem var2_W10 (h : Fin 64) : W10 m ρ c (Proc.devRef .tc main_v54) (ix2 (0 : Fin 1) h) = var (KD m c) (K.pre2 (KD m c)) h := by
  rw [KMeanVar.var2 m ρ c h]
  simp only [KMeanVar.X2, pre2_W9 m ρ c hrow]
  rfl

include hrow in
theorem s3_W11 (i : Fin 150000) (h : Fin 64) : W11 m ρ c (Proc.devRef .tc main_v55) (ix2 i h) = K.s3 (KD m c) i h := by
  refine (congrFun (W11_arr m ρ c 7) (ix2 i h)).trans ((KReg3.final (V10 m ρ) c i h).trans ?_)
  simp only [KReg3.G, V10, KKeep.keep_main_v43_W10 m ρ c, pre2_W9 m ρ c hrow, mean2_W10 m ρ c hrow, var2_W10 m ρ c hrow,
    KKeep.keep_main_v18_W10 m ρ c, KSeg0.b18 m ρ c, KKeep.keep_main_v19_W10 m ρ c, KSeg0.b19 m ρ c,
    KKeep.keep_main_arg7_W10 m ρ c, KKeep.keep_main_v12_W10 m ρ c, dinv_W1 m ρ c]
  rfl

include hrow in
theorem agg3_W13 (i : Fin 150000) (h : Fin 64) :
    W13 m ρ c (Proc.devRef .tc main_v59) (ix2 i h) = agg (KD m c) (fun e => K.s3 (KD m c) ((KD m c).rN e) h) i :=
  KTakeScatter.agg3 m ρ c (K.s3 (KD m c)) (fun e => (m ((c : Thread nD τ).loc main_arg0)) (ix2 (0 : Fin 2) e)) (fun e => (m ((c : Thread nD τ).loc main_arg0)) (ix2 (1 : Fin 2) e))
    (s3_W11 m ρ c hrow) (fun e => (congrFun (KKeep.keep_main_v1_W11 m ρ c) (ix1 e)).trans (KSeg0.row m ρ c e))
    (fun e => (congrFun (KKeep.keep_main_v3_W11 m ρ c) (ix1 e)).trans (KSeg0.col m ρ c e)) (row_node m c hrow) i h

include hrow in
theorem pre3_W14 (i : Fin 150000) (h : Fin 64) : W14 m ρ c (Proc.devRef .tc main_v60) (ix2 i h) = K.pre3 (KD m c) i h := by
  refine (congrFun (W14_arr m ρ c 4) (ix2 i h)).trans ((KReg4.final (V13 m ρ) c i h).trans ?_)
  simp only [KReg4.G, V13, agg3_W13 m ρ c hrow, KKeep.keep_main_v55_W13 m ρ c, s3_W11 m ρ c hrow, KKeep.keep_main_v12_W13 m ρ c, dinv_W1 m ρ c,
    KKeep.keep_main_v15_W13 m ρ c, KSeg0.b15 m ρ c]
  rfl

include hrow in

theorem xout_W20 (i : Fin 150000) (h : Fin 64) : W20 m ρ c (Proc.devRef .tc main_v61) (ix2 i h) = K.xout (KD m c) i h := by
  rw [KKeep.keep_main_v61_W20 m ρ c]
  refine (congrFun (W15_arr m ρ c 1) (ix2 i h)).trans ((KReg5.final (V14 m ρ) c i h).trans ?_)
  simp only [KReg5.G, V14, pre3_W14 m ρ c hrow]
  rfl

include hrow hcol in

theorem pred_W20 (e : Fin 2000000) : W20 m ρ c (Proc.devRef .tc main_v70) (ix2 e (0 : Fin 1)) = K.pred (KD m c) e := by
  refine (congrFun (W20_arr m ρ c 7) (ix2 e (0 : Fin 1))).trans ((KReg6.final (V19 m ρ) c e (0 : Fin 1)).trans ?_)
  have hue : ∀ (e : Fin 2000000) (k : Fin 16), W19 m ρ c (Proc.devRef .tc main_v62) (ix2 e k) = (KD m c).ue e k := fun e k =>
    (KSeg6.ue m ρ c (fun e => (m ((c : Thread nD τ).loc main_arg0)) (ix2 (0 : Fin 2) e))
      (fun e => (congrFun (KKeep.keep_main_v1_W15 m ρ c) (ix1 e)).trans (KSeg0.row m ρ c e)) hrow e k).trans
      (congrFun (KKeep.keep_main_arg1_W15 m ρ c) _)
  have hie : ∀ (e : Fin 2000000) (k : Fin 16), W19 m ρ c (Proc.devRef .tc main_v65) (ix2 e k) = (KD m c).ie e k := fun e k =>
    (KSeg6.ie m ρ c (fun e => (m ((c : Thread nD τ).loc main_arg0)) (ix2 (1 : Fin 2) e))
      (fun e => (congrFun (KKeep.keep_main_v3_W15 m ρ c) (ix1 e)).trans (KSeg0.col m ρ c e)) hcol e k).trans
      (congrFun (KKeep.keep_main_arg2_W15 m ρ c) _)
  simp only [KReg6.G, V19, hue, hie, KSeg6.w1a m ρ c, KSeg6.w1b m ρ c, KSeg6.fb1 m ρ c, KSeg6.fb2 m ρ c,
    KKeep.keep_main_arg13_W15 m ρ c, KKeep.keep_main_arg14_W15 m ρ c, KKeep.keep_main_arg16_W15 m ρ c,
    KKeep.keep_main_arg15_W19 m ρ c]
  rfl

end Chain

end Cert.KernelIdeal.KChain

end
-- ==== Proof.RefRead.lean ====
import proofs.«423179_j27462020891318_2_alg».proof.Proof.RefReadP

namespace Cert.ReferenceIdeal.Read

open Cert.ReferenceIdeal Idealize.ShloMosaic Idealize.SL.Sem Idealize.ShloMosaic.StableHlo

/-- A one-buffer write set lies inside any listed set of buffers that has the buffer. -/
theorem wsub {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

end Cert.ReferenceIdeal.Read
-- ==== Proof.RefRunA1.lean ====
import proofs.«423179_j27462020891318_2_alg».proof.Proof.RefRead
import Idealize.ShloMosaic.Lib.StableHlo.Run

noncomputable section

namespace Cert.ReferenceIdeal.RefRunA1

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The reference's first 35 operations: the edge words, the first linear map, the degrees and the edge coefficients. -/
abbrev opsP : List (HloOp τ sig (Elt F)) :=
  [ unary main_arg0 main_v0 ((extractStridedSlice S1x2000000 ![0, 0] · slices_S2x2000000_S1x2000000_0_0)),
    reshape main_v0 main_v1 rfl shapeCasts_S1x2000000_S2000000,
    unary main_arg0 main_v2 ((extractStridedSlice S1x2000000 ![1, 0] · slices_S2x2000000_S1x2000000_1_0)),
    reshape main_v2 main_v3 rfl shapeCasts_S1x2000000_S2000000,
    binary main_arg1 main_arg2 main_v4 (fun a b => concatenate S150000x16 0 [⟨S100000x16, a⟩, ⟨S50000x16, b⟩] concatenates_S100000x16_S50000x16_S150000x16_d0),
    binary main_v4 main_arg3 main_v5 (fun l r => Host.dotGeneral dot_S150000x16_S16x64_S150000x64_1_0_0_1_n_n none l r),
    nullary main_cst (constant S_ .f32 0x3F800000#32),
    unary main_cst main_v6 (broadcastInDim S2000000 ![] bcast_S_S2000000),
    nullary main_cst_0 (constant S_ .f32 0x00000000#32),
    unary main_cst_0 main_v7 (broadcastInDim S150000 ![] bcast_S_S150000),
    unary main_v3 main_v8 (broadcastInDim S2000000x1 ![0] bcast_S2000000_S2000000x1_0),
    ternary main_v7 main_v8 main_v6 main_v9 (fun x i u => Host.scatterAdd scatter_S150000_S2000000x1_S2000000_n_0_0_1 x i u),
    nullary main_cst_1 (constant S_ .f32 0x3F800000#32),
    unary main_cst_1 main_v10 (broadcastInDim S150000 ![] bcast_S_S150000),
    binary main_v9 main_v10 main_v11 addf,
    unary main_v11 main_v12 Host.rsqrt,
    nullary main_c (constantI S_ 32 0#32),
    unary main_c main_v13 (broadcastInDim S2000000 ![] bcast_S_S2000000),
    binary main_v1 main_v13 main_v14 (cmpi .slt),
    nullary main_c_2 (constantI S_ 32 150000#32),
    unary main_c_2 main_v15 (broadcastInDim S2000000 ![] bcast_S_S2000000),
    binary main_v1 main_v15 main_v16 addi,
    ternary main_v14 main_v16 main_v1 main_v17 select,
    unary main_v17 main_v18 (broadcastInDim S2000000x1 ![0] bcast_S2000000_S2000000x1_0),
    binary main_v12 main_v18 main_v19 (fun x i => Host.gather gather_S150000_S2000000x1_S2000000_n_0_n_n_0_1_1 x i),
    nullary main_c_3 (constantI S_ 32 0#32),
    unary main_c_3 main_v20 (broadcastInDim S2000000 ![] bcast_S_S2000000),
    binary main_v3 main_v20 main_v21 (cmpi .slt),
    nullary main_c_4 (constantI S_ 32 150000#32),
    unary main_c_4 main_v22 (broadcastInDim S2000000 ![] bcast_S_S2000000),
    binary main_v3 main_v22 main_v23 addi,
    ternary main_v21 main_v23 main_v3 main_v24 select,
    unary main_v24 main_v25 (broadcastInDim S2000000x1 ![0] bcast_S2000000_S2000000x1_0),
    binary main_v12 main_v25 main_v26 (fun x i => Host.gather gather_S150000_S2000000x1_S2000000_n_0_n_n_0_1_1 x i),
    binary main_v19 main_v26 main_v27 mulf ]

theorem opsP_sub : (opsP : List (HloOp τ sig (Elt F))).Forall fun op => op.bufs ⊆ tcRefs τ sig := by
  simp only [List.Forall, nullary_bufs_sub, unary_bufs_sub, binary_bufs_sub, ternary_bufs_sub, reshape_bufs_sub, and_self]

abbrev opsP_W : List (Ref sig .tc) :=
  [ main_v0, main_v1, main_v2, main_v3, main_v4, main_v5, main_cst, main_v6, main_cst_0, main_v7,
    main_v8, main_v9, main_cst_1, main_v10, main_v11, main_v12, main_c, main_v13, main_v14, main_c_2,
    main_v15, main_v16, main_v17, main_v18, main_v19, main_c_3, main_v20, main_v21, main_c_4, main_v22,
    main_v23, main_v24, main_v25, main_v26, main_v27 ]

theorem opsP_writes :
    (opsP : List (HloOp τ sig (Elt F))).Forall fun op => op.writes ⊆ (opsP_W.map (Proc.devRef (τ := τ) .tc)).toFinset := by
  repeat' (first | apply And.intro | exact wsub (by decide))

theorem opsP_keep (W : Valuation τ sig (Elt F)) {r : Ref sig .tc} (hr : r ∉ opsP_W) :
    after opsP W (Proc.devRef .tc r) = W (Proc.devRef .tc r) :=
  after_of_writes_sub opsP W opsP_writes hr

/-- The next 24: the rows gathered along the edges, summed into their targets, the self term and the bias. -/
abbrev opsQ : List (HloOp τ sig (Elt F)) :=
  [ nullary main_c_5 (constantI S_ 32 0#32),
    unary main_c_5 main_v28 (broadcastInDim S2000000 ![] bcast_S_S2000000),
    binary main_v1 main_v28 main_v29 (cmpi .slt),
    nullary main_c_6 (constantI S_ 32 150000#32),
    unary main_c_6 main_v30 (broadcastInDim S2000000 ![] bcast_S_S2000000),
    binary main_v1 main_v30 main_v31 addi,
    ternary main_v29 main_v31 main_v1 main_v32 select,
    unary main_v32 main_v33 (broadcastInDim S2000000x1 ![0] bcast_S2000000_S2000000x1_0),
    binary main_v5 main_v33 main_v34 (fun x i => Host.gather gather_S150000x64_S2000000x1_S2000000x64_1_0_n_n_0_1_164 x i),
    unary main_v27 main_v35 (broadcastInDim S2000000x1 ![0] bcast_S2000000_S2000000x1_0),
    unary main_v35 main_v36 (broadcastInDim S2000000x64 ![0, 1] bcast_S2000000x1_S2000000x64_0_1),
    binary main_v34 main_v36 main_v37 mulf,
    nullary main_cst_7 (constant S_ .f32 0x00000000#32),
    unary main_cst_7 main_v38 (broadcastInDim S150000x64 ![] bcast_S_S150000x64),
    unary main_v3 main_v39 (broadcastInDim S2000000x1 ![0] bcast_S2000000_S2000000x1_0),
    ternary main_v38 main_v39 main_v37 main_v40 (fun x i u => Host.scatterAdd scatter_S150000x64_S2000000x1_S2000000x64_1_0_0_1 x i u),
    binary main_v12 main_v12 main_v41 mulf,
    unary main_v41 main_v42 (broadcastInDim S150000x1 ![0] bcast_S150000_S150000x1_0),
    unary main_v42 main_v43 (broadcastInDim S150000x64 ![0, 1] bcast_S150000x1_S150000x64_0_1),
    binary main_v5 main_v43 main_v44 mulf,
    binary main_v40 main_v44 main_v45 addf,
    unary main_arg4 main_v46 (broadcastInDim S1x64 ![1] bcast_S64_S1x64_1),
    unary main_v46 main_v47 (broadcastInDim S150000x64 ![0, 1] bcast_S1x64_S150000x64_0_1),
    binary main_v45 main_v47 main_v48 addf ]

theorem opsQ_sub : (opsQ : List (HloOp τ sig (Elt F))).Forall fun op => op.bufs ⊆ tcRefs τ sig := by
  simp only [List.Forall, nullary_bufs_sub, unary_bufs_sub, binary_bufs_sub, ternary_bufs_sub, reshape_bufs_sub, and_self]

abbrev opsQ_W : List (Ref sig .tc) :=
  [ main_c_5, main_v28, main_v29, main_c_6, main_v30, main_v31, main_v32, main_v33, main_v34, main_v35,
    main_v36, main_v37, main_cst_7, main_v38, main_v39, main_v40, main_v41, main_v42, main_v43, main_v44,
    main_v45, main_v46, main_v47, main_v48 ]

theorem opsQ_writes :
    (opsQ : List (HloOp τ sig (Elt F))).Forall fun op => op.writes ⊆ (opsQ_W.map (Proc.devRef (τ := τ) .tc)).toFinset := by
  repeat' (first | apply And.intro | exact wsub (by decide))

theorem opsQ_keep (W : Valuation τ sig (Elt F)) {r : Ref sig .tc} (hr : r ∉ opsQ_W) :
    after opsQ W (Proc.devRef .tc r) = W (Proc.devRef .tc r) :=
  after_of_writes_sub opsQ W opsQ_writes hr

/-- The next 33: the normalisation over the nodes, its scale and shift, and the rectifier. -/
abbrev opsR : List (HloOp τ sig (Elt F)) :=
  [ nullary main_cst_8 (constant S_ .f32 0x00000000#32),
    binary main_v48 main_cst_8 main_v49 (fun x v => Host.reduceAdd x v reducesTo_S150000x64_S64_d0 h_S_),
    nullary main_cst_9 (constant S_ .f32 0x48127C00#32),
    unary main_cst_9 main_v50 (broadcastInDim S64 ![] bcast_S_S64),
    binary main_v49 main_v50 main_v51 Host.divf,
    unary main_v51 main_v52 (broadcastInDim S1x64 ![1] bcast_S64_S1x64_1),
    unary main_v52 main_v53 (broadcastInDim S150000x64 ![0, 1] bcast_S1x64_S150000x64_0_1),
    binary main_v48 main_v53 main_v54 subf,
    binary main_v54 main_v54 main_v55 mulf,
    nullary main_cst_10 (constant S_ .f32 0x00000000#32),
    binary main_v55 main_cst_10 main_v56 (fun x v => Host.reduceAdd x v reducesTo_S150000x64_S64_d0 h_S_),
    nullary main_cst_11 (constant S_ .f32 0x48127C00#32),
    unary main_cst_11 main_v57 (broadcastInDim S64 ![] bcast_S_S64),
    binary main_v56 main_v57 main_v58 Host.divf,
    unary main_v51 main_v59 (broadcastInDim S1x64 ![1] bcast_S64_S1x64_1),
    unary main_v59 main_v60 (broadcastInDim S150000x64 ![0, 1] bcast_S1x64_S150000x64_0_1),
    binary main_v48 main_v60 main_v61 subf,
    nullary main_cst_12 (constant S_ .f32 0x3727C5AC#32),
    unary main_cst_12 main_v62 (broadcastInDim S64 ![] bcast_S_S64),
    binary main_v58 main_v62 main_v63 addf,
    unary main_v63 main_v64 Host.rsqrt,
    unary main_v64 main_v65 (broadcastInDim S1x64 ![1] bcast_S64_S1x64_1),
    unary main_v65 main_v66 (broadcastInDim S150000x64 ![0, 1] bcast_S1x64_S150000x64_0_1),
    binary main_v61 main_v66 main_v67 mulf,
    unary main_arg9 main_v68 (broadcastInDim S1x64 ![1] bcast_S64_S1x64_1),
    unary main_v68 main_v69 (broadcastInDim S150000x64 ![0, 1] bcast_S1x64_S150000x64_0_1),
    binary main_v67 main_v69 main_v70 mulf,
    unary main_arg10 main_v71 (broadcastInDim S1x64 ![1] bcast_S64_S1x64_1),
    unary main_v71 main_v72 (broadcastInDim S150000x64 ![0, 1] bcast_S1x64_S150000x64_0_1),
    binary main_v70 main_v72 main_v73 addf,
    TRef.nullary (TRef.of (T := ⟨S_, .f32⟩) main_call0_cst) (constant S_ .f32 0x00000000#32),
    TRef.unary (TRef.of (T := ⟨S_, .f32⟩) main_call0_cst) (TRef.of (T := ⟨S150000x64, .f32⟩) main_call0_v0) (broadcastInDim S150000x64 ![] bcast_S_S150000x64),
    TRef.binary (TRef.of (T := ⟨S150000x64, .f32⟩) main_v73) (TRef.of (T := ⟨S150000x64, .f32⟩) main_call0_v0) (TRef.of (T := ⟨S150000x64, .f32⟩) main_v74) maximumf ]

theorem opsR_sub : (opsR : List (HloOp τ sig (Elt F))).Forall fun op => op.bufs ⊆ tcRefs τ sig := by
  simp only [List.Forall, nullary_bufs_sub, unary_bufs_sub, binary_bufs_sub, ternary_bufs_sub, reshape_bufs_sub, and_self]

abbrev opsR_W : List (Ref sig .tc) :=
  [ main_cst_8, main_v49, main_cst_9, main_v50, main_v51, main_v52, main_v53, main_v54, main_v55, main_cst_10,
    main_v56, main_cst_11, main_v57, main_v58, main_v59, main_v60, main_v61, main_cst_12, main_v62, main_v63,
    main_v64, main_v65, main_v66, main_v67, main_v68, main_v69, main_v70, main_v71, main_v72, main_v73,
    main_call0_cst, main_call0_v0, main_v74 ]

theorem opsR_writes :
    (opsR : List (HloOp τ sig (Elt F))).Forall fun op => op.writes ⊆ (opsR_W.map (Proc.devRef (τ := τ) .tc)).toFinset := by
  repeat' (first | apply And.intro | exact wsub (by decide))

theorem opsR_keep (W : Valuation τ sig (Elt F)) {r : Ref sig .tc} (hr : r ∉ opsR_W) :
    after opsR W (Proc.devRef .tc r) = W (Proc.devRef .tc r) :=
  after_of_writes_sub opsR W opsR_writes hr

section Results
variable {W : Valuation τ sig (Elt F)}
  {a0 : (⟨S2x2000000, .i32⟩ : BufTy).Contents (Elt F)} {a1 : (⟨S100000x16, .f32⟩ : BufTy).Contents (Elt F)}
  {a2 : (⟨S50000x16, .f32⟩ : BufTy).Contents (Elt F)} {a3 : (⟨S16x64, .f32⟩ : BufTy).Contents (Elt F)}
  {a4 a9 a10 : (⟨S64, .f32⟩ : BufTy).Contents (Elt F)}

theorem P_v1 (V : Valuation τ sig (Elt F)) :
    after opsP V (Proc.devRef .tc main_v1) = val_main_v1 (F := F) (V (Proc.devRef .tc main_arg0)) := by
  after_results_simp
  rfl

theorem P_v3 (V : Valuation τ sig (Elt F)) :
    after opsP V (Proc.devRef .tc main_v3) = val_main_v3 (F := F) (V (Proc.devRef .tc main_arg0)) := by
  after_results_simp
  rfl

theorem P_v5 (V : Valuation τ sig (Elt F)) :
    after opsP V (Proc.devRef .tc main_v5)
      = val_main_v5 (F := F) (V (Proc.devRef .tc main_arg1)) (V (Proc.devRef .tc main_arg2)) (V (Proc.devRef .tc main_arg3)) := by
  after_results_simp
  rfl

theorem P_v12 (V : Valuation τ sig (Elt F)) :
    after opsP V (Proc.devRef .tc main_v12) = val_main_v12 (F := F) (V (Proc.devRef .tc main_arg0)) := by
  after_results_simp
  rfl

theorem P_v27 (V : Valuation τ sig (Elt F)) :
    after opsP V (Proc.devRef .tc main_v27) = val_main_v27 (F := F) (V (Proc.devRef .tc main_arg0)) := by
  after_results_simp
  rfl

theorem Q_v48 (h1 : W (Proc.devRef .tc main_v1) = val_main_v1 (F := F) a0)
    (h3 : W (Proc.devRef .tc main_v3) = val_main_v3 (F := F) a0)
    (h5 : W (Proc.devRef .tc main_v5) = val_main_v5 (F := F) a1 a2 a3)
    (h12 : W (Proc.devRef .tc main_v12) = val_main_v12 (F := F) a0)
    (h27 : W (Proc.devRef .tc main_v27) = val_main_v27 (F := F) a0)
    (hA4 : W (Proc.devRef .tc main_arg4) = a4) :
    after opsQ W (Proc.devRef .tc main_v48) = val_main_v48 (F := F) a0 a1 a2 a3 a4 := by
  after_results_simp
  rw [h1, h3, h5, h12, h27, hA4]
  rfl

theorem R_v74 (h48 : W (Proc.devRef .tc main_v48) = val_main_v48 (F := F) a0 a1 a2 a3 a4)
    (hA9 : W (Proc.devRef .tc main_arg9) = a9) (hA10 : W (Proc.devRef .tc main_arg10) = a10) :
    after opsR W (Proc.devRef .tc main_v74) = val_main_v74 (F := F) a0 a1 a2 a3 a4 a9 a10 := by
  after_results_simp
  rw [h48, hA9, hA10]
  rfl

end Results

abbrev opsA1 : List (HloOp τ sig (Elt F)) := opsP ++ (opsQ ++ opsR)

theorem opsA1_sub : (opsA1 : List (HloOp τ sig (Elt F))).Forall fun op => op.bufs ⊆ tcRefs τ sig :=
  List.forall_append.2 ⟨opsP_sub, List.forall_append.2 ⟨opsQ_sub, opsR_sub⟩⟩

variable (V : Valuation τ sig (Elt F))

theorem opsA1_keep {r : Ref sig .tc} (hP : r ∉ opsP_W) (hQ : r ∉ opsQ_W) (hR : r ∉ opsR_W) :
    after opsA1 V (Proc.devRef .tc r) = V (Proc.devRef .tc r) := by
  show after (opsP ++ (opsQ ++ opsR)) V _ = _
  rw [after_append, after_append, opsR_keep _ hR, opsQ_keep _ hQ, opsP_keep _ hP]

theorem v1 : after opsA1 V (Proc.devRef .tc main_v1) = val_main_v1 (F := F) (V (Proc.devRef .tc main_arg0)) := by
  show after (opsP ++ (opsQ ++ opsR)) V _ = _
  rw [after_append, after_append, opsR_keep _ (by decide), opsQ_keep _ (by decide)]
  exact P_v1 V

theorem v3 : after opsA1 V (Proc.devRef .tc main_v3) = val_main_v3 (F := F) (V (Proc.devRef .tc main_arg0)) := by
  show after (opsP ++ (opsQ ++ opsR)) V _ = _
  rw [after_append, after_append, opsR_keep _ (by decide), opsQ_keep _ (by decide)]
  exact P_v3 V

/-- Each stretch computes from what the one before left; what it does not write passes through. -/
theorem v74 : after opsA1 V (Proc.devRef .tc main_v74)
    = val_main_v74 (F := F) (V (Proc.devRef .tc main_arg0)) (V (Proc.devRef .tc main_arg1)) (V (Proc.devRef .tc main_arg2))
        (V (Proc.devRef .tc main_arg3)) (V (Proc.devRef .tc main_arg4)) (V (Proc.devRef .tc main_arg9))
        (V (Proc.devRef .tc main_arg10)) := by
  show after (opsP ++ (opsQ ++ opsR)) V _ = _
  rw [after_append, after_append]
  refine R_v74 (Q_v48 (P_v1 V) (P_v3 V) (P_v5 V) (P_v12 V) (P_v27 V) (opsP_keep V (by decide))) ?_ ?_
  · rw [opsQ_keep _ (by decide), opsP_keep _ (by decide)]
  · rw [opsQ_keep _ (by decide), opsP_keep _ (by decide)]

end Cert.ReferenceIdeal.RefRunA1

end
-- ==== Proof.RefRunA2.lean ====
import proofs.«423179_j27462020891318_2_alg».proof.Proof.RefRead
import Idealize.ShloMosaic.Lib.StableHlo.Run
import Idealize.ShloMosaic.Lib.Pipeline.Frame

noncomputable section

namespace Cert.ReferenceIdeal.RefRunA2

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The second layer's linear map, degrees and edge coefficients. -/
abbrev opsA2a : List (HloOp τ sig (Elt F)) :=
  [ binary main_v74 main_arg5 main_v75 (fun l r => Host.dotGeneral dot_S150000x64_S64x64_S150000x64_1_0_0_1_n_n none l r),
    nullary main_cst_13 (constant S_ .f32 0x3F800000#32),
    unary main_cst_13 main_v76 (broadcastInDim S2000000 ![] bcast_S_S2000000),
    nullary main_cst_14 (constant S_ .f32 0x00000000#32),
    unary main_cst_14 main_v77 (broadcastInDim S150000 ![] bcast_S_S150000),
    unary main_v3 main_v78 (broadcastInDim S2000000x1 ![0] bcast_S2000000_S2000000x1_0),
    ternary main_v77 main_v78 main_v76 main_v79 (fun x i u => Host.scatterAdd scatter_S150000_S2000000x1_S2000000_n_0_0_1 x i u),
    nullary main_cst_15 (constant S_ .f32 0x3F800000#32),
    unary main_cst_15 main_v80 (broadcastInDim S150000 ![] bcast_S_S150000),
    binary main_v79 main_v80 main_v81 addf,
    unary main_v81 main_v82 Host.rsqrt,
    nullary main_c_16 (constantI S_ 32 0#32),
    unary main_c_16 main_v83 (broadcastInDim S2000000 ![] bcast_S_S2000000),
    binary main_v1 main_v83 main_v84 (cmpi .slt),
    nullary main_c_17 (constantI S_ 32 150000#32),
    unary main_c_17 main_v85 (broadcastInDim S2000000 ![] bcast_S_S2000000),
    binary main_v1 main_v85 main_v86 addi,
    ternary main_v84 main_v86 main_v1 main_v87 select,
    unary main_v87 main_v88 (broadcastInDim S2000000x1 ![0] bcast_S2000000_S2000000x1_0),
    binary main_v82 main_v88 main_v89 (fun x i => Host.gather gather_S150000_S2000000x1_S2000000_n_0_n_n_0_1_1 x i),
    nullary main_c_18 (constantI S_ 32 0#32),
    unary main_c_18 main_v90 (broadcastInDim S2000000 ![] bcast_S_S2000000),
    binary main_v3 main_v90 main_v91 (cmpi .slt),
    nullary main_c_19 (constantI S_ 32 150000#32),
    unary main_c_19 main_v92 (broadcastInDim S2000000 ![] bcast_S_S2000000),
    binary main_v3 main_v92 main_v93 addi,
    ternary main_v91 main_v93 main_v3 main_v94 select,
    unary main_v94 main_v95 (broadcastInDim S2000000x1 ![0] bcast_S2000000_S2000000x1_0),
    binary main_v82 main_v95 main_v96 (fun x i => Host.gather gather_S150000_S2000000x1_S2000000_n_0_n_n_0_1_1 x i),
    binary main_v89 main_v96 main_v97 mulf ]

/-- The second layer's aggregation, self term and bias. -/
abbrev opsA2b : List (HloOp τ sig (Elt F)) :=
  [ nullary main_c_20 (constantI S_ 32 0#32),
    unary main_c_20 main_v98 (broadcastInDim S2000000 ![] bcast_S_S2000000),
    binary main_v1 main_v98 main_v99 (cmpi .slt),
    nullary main_c_21 (constantI S_ 32 150000#32),
    unary main_c_21 main_v100 (broadcastInDim S2000000 ![] bcast_S_S2000000),
    binary main_v1 main_v100 main_v101 addi,
    ternary main_v99 main_v101 main_v1 main_v102 select,
    unary main_v102 main_v103 (broadcastInDim S2000000x1 ![0] bcast_S2000000_S2000000x1_0),
    binary main_v75 main_v103 main_v104 (fun x i => Host.gather gather_S150000x64_S2000000x1_S2000000x64_1_0_n_n_0_1_164 x i),
    unary main_v97 main_v105 (broadcastInDim S2000000x1 ![0] bcast_S2000000_S2000000x1_0),
    unary main_v105 main_v106 (broadcastInDim S2000000x64 ![0, 1] bcast_S2000000x1_S2000000x64_0_1),
    binary main_v104 main_v106 main_v107 mulf,
    nullary main_cst_22 (constant S_ .f32 0x00000000#32),
    unary main_cst_22 main_v108 (broadcastInDim S150000x64 ![] bcast_S_S150000x64),
    unary main_v3 main_v109 (broadcastInDim S2000000x1 ![0] bcast_S2000000_S2000000x1_0),
    ternary main_v108 main_v109 main_v107 main_v110 (fun x i u => Host.scatterAdd scatter_S150000x64_S2000000x1_S2000000x64_1_0_0_1 x i u),
    binary main_v82 main_v82 main_v111 mulf,
    unary main_v111 main_v112 (broadcastInDim S150000x1 ![0] bcast_S150000_S150000x1_0),
    unary main_v112 main_v113 (broadcastInDim S150000x64 ![0, 1] bcast_S150000x1_S150000x64_0_1),
    binary main_v75 main_v113 main_v114 mulf,
    binary main_v110 main_v114 main_v115 addf,
    unary main_arg6 main_v116 (broadcastInDim S1x64 ![1] bcast_S64_S1x64_1),
    unary main_v116 main_v117 (broadcastInDim S150000x64 ![0, 1] bcast_S1x64_S150000x64_0_1),
    binary main_v115 main_v117 main_v118 addf ]

/-- The second layer's normalisation and rectifier. -/
abbrev opsA2c : List (HloOp τ sig (Elt F)) :=
  [ nullary main_cst_23 (constant S_ .f32 0x00000000#32),
    binary main_v118 main_cst_23 main_v119 (fun x v => Host.reduceAdd x v reducesTo_S150000x64_S64_d0 h_S_),
    nullary main_cst_24 (constant S_ .f32 0x48127C00#32),
    unary main_cst_24 main_v120 (broadcastInDim S64 ![] bcast_S_S64),
    binary main_v119 main_v120 main_v121 Host.divf,
    unary main_v121 main_v122 (broadcastInDim S1x64 ![1] bcast_S64_S1x64_1),
    unary main_v122 main_v123 (broadcastInDim S150000x64 ![0, 1] bcast_S1x64_S150000x64_0_1),
    binary main_v118 main_v123 main_v124 subf,
    binary main_v124 main_v124 main_v125 mulf,
    nullary main_cst_25 (constant S_ .f32 0x00000000#32),
    binary main_v125 main_cst_25 main_v126 (fun x v => Host.reduceAdd x v reducesTo_S150000x64_S64_d0 h_S_),
    nullary main_cst_26 (constant S_ .f32 0x48127C00#32),
    unary main_cst_26 main_v127 (broadcastInDim S64 ![] bcast_S_S64),
    binary main_v126 main_v127 main_v128 Host.divf,
    unary main_v121 main_v129 (broadcastInDim S1x64 ![1] bcast_S64_S1x64_1),
    unary main_v129 main_v130 (broadcastInDim S150000x64 ![0, 1] bcast_S1x64_S150000x64_0_1),
    binary main_v118 main_v130 main_v131 subf,
    nullary main_cst_27 (constant S_ .f32 0x3727C5AC#32),
    unary main_cst_27 main_v132 (broadcastInDim S64 ![] bcast_S_S64),
    binary main_v128 main_v132 main_v133 addf,
    unary main_v133 main_v134 Host.rsqrt,
    unary main_v134 main_v135 (broadcastInDim S1x64 ![1] bcast_S64_S1x64_1),
    unary main_v135 main_v136 (broadcastInDim S150000x64 ![0, 1] bcast_S1x64_S150000x64_0_1),
    binary main_v131 main_v136 main_v137 mulf,
    unary main_arg11 main_v138 (broadcastInDim S1x64 ![1] bcast_S64_S1x64_1),
    unary main_v138 main_v139 (broadcastInDim S150000x64 ![0, 1] bcast_S1x64_S150000x64_0_1),
    binary main_v137 main_v139 main_v140 mulf,
    unary main_arg12 main_v141 (broadcastInDim S1x64 ![1] bcast_S64_S1x64_1),
    unary main_v141 main_v142 (broadcastInDim S150000x64 ![0, 1] bcast_S1x64_S150000x64_0_1),
    binary main_v140 main_v142 main_v143 addf,
    TRef.nullary (TRef.of (T := ⟨S_, .f32⟩) main_call1_cst) (constant S_ .f32 0x00000000#32),
    TRef.unary (TRef.of (T := ⟨S_, .f32⟩) main_call1_cst) (TRef.of (T := ⟨S150000x64, .f32⟩) main_call1_v0) (broadcastInDim S150000x64 ![] bcast_S_S150000x64),
    TRef.binary (TRef.of (T := ⟨S150000x64, .f32⟩) main_v143) (TRef.of (T := ⟨S150000x64, .f32⟩) main_call1_v0) (TRef.of (T := ⟨S150000x64, .f32⟩) main_v144) maximumf ]

abbrev opsA2 : List (HloOp τ sig (Elt F)) := opsA2a ++ (opsA2b ++ opsA2c)

theorem opsA2a_sub : (opsA2a : List (HloOp τ sig (Elt F))).Forall fun op => op.bufs ⊆ tcRefs τ sig := by
  simp only [List.Forall, nullary_bufs_sub, unary_bufs_sub, binary_bufs_sub, ternary_bufs_sub, reshape_bufs_sub, and_self]
theorem opsA2b_sub : (opsA2b : List (HloOp τ sig (Elt F))).Forall fun op => op.bufs ⊆ tcRefs τ sig := by
  simp only [List.Forall, nullary_bufs_sub, unary_bufs_sub, binary_bufs_sub, ternary_bufs_sub, reshape_bufs_sub, and_self]
theorem opsA2c_sub : (opsA2c : List (HloOp τ sig (Elt F))).Forall fun op => op.bufs ⊆ tcRefs τ sig := by
  simp only [List.Forall, nullary_bufs_sub, unary_bufs_sub, binary_bufs_sub, ternary_bufs_sub, reshape_bufs_sub, and_self]

theorem opsA2_sub : (opsA2 : List (HloOp τ sig (Elt F))).Forall fun op => op.bufs ⊆ tcRefs τ sig :=
  List.forall_append.2 ⟨opsA2a_sub, List.forall_append.2 ⟨opsA2b_sub, opsA2c_sub⟩⟩

abbrev Wa : List (Ref sig .tc) := [main_v75, main_cst_13, main_v76, main_cst_14, main_v77, main_v78, main_v79, main_cst_15, main_v80, main_v81, main_v82, main_c_16, main_v83, main_v84, main_c_17, main_v85, main_v86, main_v87, main_v88, main_v89, main_c_18, main_v90, main_v91, main_c_19, main_v92, main_v93, main_v94, main_v95, main_v96, main_v97]

abbrev Wb : List (Ref sig .tc) := [main_c_20, main_v98, main_v99, main_c_21, main_v100, main_v101, main_v102, main_v103, main_v104, main_v105, main_v106, main_v107, main_cst_22, main_v108, main_v109, main_v110, main_v111, main_v112, main_v113, main_v114, main_v115, main_v116, main_v117, main_v118]

abbrev Wc : List (Ref sig .tc) := [main_cst_23, main_v119, main_cst_24, main_v120, main_v121, main_v122, main_v123, main_v124, main_v125, main_cst_25, main_v126, main_cst_26, main_v127, main_v128, main_v129, main_v130, main_v131, main_cst_27, main_v132, main_v133, main_v134, main_v135, main_v136, main_v137, main_v138, main_v139, main_v140, main_v141, main_v142, main_v143, main_call1_cst, main_call1_v0, main_v144]

theorem opsA2a_writes : (opsA2a : List (HloOp τ sig (Elt F))).Forall fun op => op.writes ⊆ (Wa.map (Proc.devRef (τ := τ) .tc)).toFinset := by
  repeat' (first | apply And.intro | exact wsub (by decide))

theorem opsA2b_writes : (opsA2b : List (HloOp τ sig (Elt F))).Forall fun op => op.writes ⊆ (Wb.map (Proc.devRef (τ := τ) .tc)).toFinset := by
  repeat' (first | apply And.intro | exact wsub (by decide))

theorem opsA2c_writes : (opsA2c : List (HloOp τ sig (Elt F))).Forall fun op => op.writes ⊆ (Wc.map (Proc.devRef (τ := τ) .tc)).toFinset := by
  repeat' (first | apply And.intro | exact wsub (by decide))

variable (W : Valuation τ sig (Elt F))

theorem keep_a (r : Ref sig .tc) (h : r ∉ Wa) : after opsA2a W (Proc.devRef .tc r) = W (Proc.devRef .tc r) :=
  after_of_writes_sub opsA2a W opsA2a_writes h
theorem keep_b (r : Ref sig .tc) (h : r ∉ Wb) : after opsA2b W (Proc.devRef .tc r) = W (Proc.devRef .tc r) :=
  after_of_writes_sub opsA2b W opsA2b_writes h
theorem keep_c (r : Ref sig .tc) (h : r ∉ Wc) : after opsA2c W (Proc.devRef .tc r) = W (Proc.devRef .tc r) :=
  after_of_writes_sub opsA2c W opsA2c_writes h

theorem after_split : after opsA2 W = after opsA2c (after opsA2b (after opsA2a W)) := by
  show after (opsA2a ++ (opsA2b ++ opsA2c)) W = _
  rw [StableHlo.after_append, StableHlo.after_append]

theorem keepA2 (r : Ref sig .tc) (h : r ∉ Wa ++ (Wb ++ Wc)) : after opsA2 W (Proc.devRef .tc r) = W (Proc.devRef .tc r) := by
  have ha : r ∉ Wa := fun hh => h (List.mem_append_left _ hh)
  have hb : r ∉ Wb := fun hh => h (List.mem_append_right _ (List.mem_append_left _ hh))
  have hc : r ∉ Wc := fun hh => h (List.mem_append_right _ (List.mem_append_right _ hh))
  rw [after_split, keep_c _ r hc, keep_b _ r hb, keep_a _ r ha]

section Values

variable (a0 : (⟨S2x2000000, .i32⟩ : BufTy).Contents (Elt F)) (a1 : (⟨S100000x16, .f32⟩ : BufTy).Contents (Elt F)) (a2 : (⟨S50000x16, .f32⟩ : BufTy).Contents (Elt F)) (a3 : (⟨S16x64, .f32⟩ : BufTy).Contents (Elt F)) (a4 : (⟨S64, .f32⟩ : BufTy).Contents (Elt F)) (a5 : (⟨S64x64, .f32⟩ : BufTy).Contents (Elt F)) (a6 a9 a10 a11 a12 : (⟨S64, .f32⟩ : BufTy).Contents (Elt F))

theorem a_v75 (h74 : W (Proc.devRef .tc main_v74) = val_main_v74 (F := F) a0 a1 a2 a3 a4 a9 a10) (h5 : W (Proc.devRef .tc main_arg5) = a5) :
    after opsA2a W (Proc.devRef .tc main_v75) = val_main_v75 (F := F) a0 a1 a2 a3 a4 a5 a9 a10 := by
  simp only [opsA2a]
  after_results_simp
  rw [h74, h5]
  rfl

theorem a_v82 (h3 : W (Proc.devRef .tc main_v3) = val_main_v3 (F := F) a0) :
    after opsA2a W (Proc.devRef .tc main_v82) = val_main_v82 (F := F) a0 := by
  simp only [opsA2a]
  after_results_simp
  rw [h3]
  rfl

theorem a_v97 (h1 : W (Proc.devRef .tc main_v1) = val_main_v1 (F := F) a0) (h3 : W (Proc.devRef .tc main_v3) = val_main_v3 (F := F) a0) :
    after opsA2a W (Proc.devRef .tc main_v97) = val_main_v97 (F := F) a0 := by
  simp only [opsA2a]
  after_results_simp
  rw [h1, h3]
  rfl

theorem b_v118 (h1 : W (Proc.devRef .tc main_v1) = val_main_v1 (F := F) a0) (h3 : W (Proc.devRef .tc main_v3) = val_main_v3 (F := F) a0) (h75 : W (Proc.devRef .tc main_v75) = val_main_v75 (F := F) a0 a1 a2 a3 a4 a5 a9 a10) (h82 : W (Proc.devRef .tc main_v82) = val_main_v82 (F := F) a0) (h97 : W (Proc.devRef .tc main_v97) = val_main_v97 (F := F) a0) (h6 : W (Proc.devRef .tc main_arg6) = a6) :
    after opsA2b W (Proc.devRef .tc main_v118) = val_main_v118 (F := F) a0 a1 a2 a3 a4 a5 a6 a9 a10 := by
  simp only [opsA2b]
  after_results_simp
  rw [h1, h3, h75, h82, h97, h6]
  rfl

theorem c_v144 (h118 : W (Proc.devRef .tc main_v118) = val_main_v118 (F := F) a0 a1 a2 a3 a4 a5 a6 a9 a10) (h11 : W (Proc.devRef .tc main_arg11) = a11) (h12 : W (Proc.devRef .tc main_arg12) = a12) :
    after opsA2c W (Proc.devRef .tc main_v144) = val_main_v144 (F := F) a0 a1 a2 a3 a4 a5 a6 a9 a10 a11 a12 := by
  simp only [opsA2c]
  after_results_simp
  rw [h118, h11, h12]
  try simp only [TRef.ofBuf, TRef.toBuf, cast_eq]
  rfl

end Values

theorem keep_v1 : after opsA2 W (Proc.devRef .tc main_v1) = W (Proc.devRef .tc main_v1) := keepA2 W main_v1 (by decide)

theorem keep_v3 : after opsA2 W (Proc.devRef .tc main_v3) = W (Proc.devRef .tc main_v3) := keepA2 W main_v3 (by decide)

/-- From contents holding the edge words, the first layer's result and the layer's arguments, the layer leaves its result. -/
theorem v144 (a0 : (⟨S2x2000000, .i32⟩ : BufTy).Contents (Elt F)) (a1 : (⟨S100000x16, .f32⟩ : BufTy).Contents (Elt F)) (a2 : (⟨S50000x16, .f32⟩ : BufTy).Contents (Elt F)) (a3 : (⟨S16x64, .f32⟩ : BufTy).Contents (Elt F)) (a4 : (⟨S64, .f32⟩ : BufTy).Contents (Elt F)) (a5 : (⟨S64x64, .f32⟩ : BufTy).Contents (Elt F)) (a6 a9 a10 a11 a12 : (⟨S64, .f32⟩ : BufTy).Contents (Elt F))
    (h1 : W (Proc.devRef .tc main_v1) = val_main_v1 (F := F) a0) (h3 : W (Proc.devRef .tc main_v3) = val_main_v3 (F := F) a0)
    (h74 : W (Proc.devRef .tc main_v74) = val_main_v74 (F := F) a0 a1 a2 a3 a4 a9 a10)
    (h5 : W (Proc.devRef .tc main_arg5) = a5) (h6 : W (Proc.devRef .tc main_arg6) = a6) (h11 : W (Proc.devRef .tc main_arg11) = a11) (h12 : W (Proc.devRef .tc main_arg12) = a12) :
    after opsA2 W (Proc.devRef .tc main_v144) = val_main_v144 (F := F) a0 a1 a2 a3 a4 a5 a6 a9 a10 a11 a12 := by
  rw [after_split]
  have h1a : after opsA2a W (Proc.devRef .tc main_v1) = val_main_v1 (F := F) a0 := (keep_a W main_v1 (by decide)).trans h1
  have h3a : after opsA2a W (Proc.devRef .tc main_v3) = val_main_v3 (F := F) a0 := (keep_a W main_v3 (by decide)).trans h3
  have h6a : after opsA2a W (Proc.devRef .tc main_arg6) = a6 := (keep_a W main_arg6 (by decide)).trans h6
  have h11b : after opsA2b (after opsA2a W) (Proc.devRef .tc main_arg11) = a11 :=
    (keep_b _ main_arg11 (by decide)).trans ((keep_a W main_arg11 (by decide)).trans h11)
  have h12b : after opsA2b (after opsA2a W) (Proc.devRef .tc main_arg12) = a12 :=
    (keep_b _ main_arg12 (by decide)).trans ((keep_a W main_arg12 (by decide)).trans h12)
  exact c_v144 (after opsA2b (after opsA2a W)) a0 a1 a2 a3 a4 a5 a6 a9 a10 a11 a12
    (b_v118 (after opsA2a W) a0 a1 a2 a3 a4 a5 a6 a9 a10 h1a h3a
      (a_v75 W a0 a1 a2 a3 a4 a5 a9 a10 h74 h5) (a_v82 W a0 h3) (a_v97 W a0 h1 h3) h6a)
    h11b h12b

end Cert.ReferenceIdeal.RefRunA2

end
-- ==== Proof.RefRunB1.lean ====
import proofs.«423179_j27462020891318_2_alg».proof.Proof.RefRead
import Idealize.ShloMosaic.Lib.StableHlo.Run

noncomputable section

namespace Cert.ReferenceIdeal.RefRunB1

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The third layer: linear map, coefficients, aggregation, bias and rectifier. -/
abbrev opsB1 : List (HloOp τ sig (Elt F)) :=
  [ binary main_v144 main_arg7 main_v145 (fun l r => Host.dotGeneral dot_S150000x64_S64x64_S150000x64_1_0_0_1_n_n none l r),
    nullary main_cst_28 (constant S_ .f32 0x3F800000#32),
    unary main_cst_28 main_v146 (broadcastInDim S2000000 ![] bcast_S_S2000000),
    nullary main_cst_29 (constant S_ .f32 0x00000000#32),
    unary main_cst_29 main_v147 (broadcastInDim S150000 ![] bcast_S_S150000),
    unary main_v3 main_v148 (broadcastInDim S2000000x1 ![0] bcast_S2000000_S2000000x1_0),
    ternary main_v147 main_v148 main_v146 main_v149 (fun x i u => Host.scatterAdd scatter_S150000_S2000000x1_S2000000_n_0_0_1 x i u),
    nullary main_cst_30 (constant S_ .f32 0x3F800000#32),
    unary main_cst_30 main_v150 (broadcastInDim S150000 ![] bcast_S_S150000),
    binary main_v149 main_v150 main_v151 addf,
    unary main_v151 main_v152 Host.rsqrt,
    nullary main_c_31 (constantI S_ 32 0#32),
    unary main_c_31 main_v153 (broadcastInDim S2000000 ![] bcast_S_S2000000),
    binary main_v1 main_v153 main_v154 (cmpi .slt),
    nullary main_c_32 (constantI S_ 32 150000#32),
    unary main_c_32 main_v155 (broadcastInDim S2000000 ![] bcast_S_S2000000),
    binary main_v1 main_v155 main_v156 addi,
    ternary main_v154 main_v156 main_v1 main_v157 select,
    unary main_v157 main_v158 (broadcastInDim S2000000x1 ![0] bcast_S2000000_S2000000x1_0),
    binary main_v152 main_v158 main_v159 (fun x i => Host.gather gather_S150000_S2000000x1_S2000000_n_0_n_n_0_1_1 x i),
    nullary main_c_33 (constantI S_ 32 0#32),
    unary main_c_33 main_v160 (broadcastInDim S2000000 ![] bcast_S_S2000000),
    binary main_v3 main_v160 main_v161 (cmpi .slt),
    nullary main_c_34 (constantI S_ 32 150000#32),
    unary main_c_34 main_v162 (broadcastInDim S2000000 ![] bcast_S_S2000000),
    binary main_v3 main_v162 main_v163 addi,
    ternary main_v161 main_v163 main_v3 main_v164 select,
    unary main_v164 main_v165 (broadcastInDim S2000000x1 ![0] bcast_S2000000_S2000000x1_0),
    binary main_v152 main_v165 main_v166 (fun x i => Host.gather gather_S150000_S2000000x1_S2000000_n_0_n_n_0_1_1 x i),
    binary main_v159 main_v166 main_v167 mulf,
    nullary main_c_35 (constantI S_ 32 0#32),
    unary main_c_35 main_v168 (broadcastInDim S2000000 ![] bcast_S_S2000000),
    binary main_v1 main_v168 main_v169 (cmpi .slt),
    nullary main_c_36 (constantI S_ 32 150000#32),
    unary main_c_36 main_v170 (broadcastInDim S2000000 ![] bcast_S_S2000000),
    binary main_v1 main_v170 main_v171 addi,
    ternary main_v169 main_v171 main_v1 main_v172 select,
    unary main_v172 main_v173 (broadcastInDim S2000000x1 ![0] bcast_S2000000_S2000000x1_0),
    binary main_v145 main_v173 main_v174 (fun x i => Host.gather gather_S150000x64_S2000000x1_S2000000x64_1_0_n_n_0_1_164 x i),
    unary main_v167 main_v175 (broadcastInDim S2000000x1 ![0] bcast_S2000000_S2000000x1_0),
    unary main_v175 main_v176 (broadcastInDim S2000000x64 ![0, 1] bcast_S2000000x1_S2000000x64_0_1),
    binary main_v174 main_v176 main_v177 mulf,
    nullary main_cst_37 (constant S_ .f32 0x00000000#32),
    unary main_cst_37 main_v178 (broadcastInDim S150000x64 ![] bcast_S_S150000x64),
    unary main_v3 main_v179 (broadcastInDim S2000000x1 ![0] bcast_S2000000_S2000000x1_0),
    ternary main_v178 main_v179 main_v177 main_v180 (fun x i u => Host.scatterAdd scatter_S150000x64_S2000000x1_S2000000x64_1_0_0_1 x i u),
    binary main_v152 main_v152 main_v181 mulf,
    unary main_v181 main_v182 (broadcastInDim S150000x1 ![0] bcast_S150000_S150000x1_0),
    unary main_v182 main_v183 (broadcastInDim S150000x64 ![0, 1] bcast_S150000x1_S150000x64_0_1),
    binary main_v145 main_v183 main_v184 mulf,
    binary main_v180 main_v184 main_v185 addf,
    unary main_arg8 main_v186 (broadcastInDim S1x64 ![1] bcast_S64_S1x64_1),
    unary main_v186 main_v187 (broadcastInDim S150000x64 ![0, 1] bcast_S1x64_S150000x64_0_1),
    binary main_v185 main_v187 main_v188 addf,
    TRef.nullary (TRef.of (T := ⟨S_, .f32⟩) main_call2_cst) (constant S_ .f32 0x00000000#32),
    TRef.unary (TRef.of (T := ⟨S_, .f32⟩) main_call2_cst) (TRef.of (T := ⟨S150000x64, .f32⟩) main_call2_v0) (broadcastInDim S150000x64 ![] bcast_S_S150000x64),
    TRef.binary (TRef.of (T := ⟨S150000x64, .f32⟩) main_v188) (TRef.of (T := ⟨S150000x64, .f32⟩) main_call2_v0) (TRef.of (T := ⟨S150000x64, .f32⟩) main_v189) maximumf ]

theorem opsB1_sub : (opsB1 : List (HloOp τ sig (Elt F))).Forall fun op => op.bufs ⊆ tcRefs τ sig := by
  simp only [List.Forall, nullary_bufs_sub, unary_bufs_sub, binary_bufs_sub, ternary_bufs_sub, reshape_bufs_sub, and_self]

theorem v189 (W : Valuation τ sig (Elt F)) (a0 : (⟨S2x2000000, .i32⟩ : BufTy).Contents (Elt F)) (a1 : (⟨S100000x16, .f32⟩ : BufTy).Contents (Elt F)) (a2 : (⟨S50000x16, .f32⟩ : BufTy).Contents (Elt F)) (a3 : (⟨S16x64, .f32⟩ : BufTy).Contents (Elt F)) (a4 : (⟨S64, .f32⟩ : BufTy).Contents (Elt F)) (a5 : (⟨S64x64, .f32⟩ : BufTy).Contents (Elt F)) (a6 : (⟨S64, .f32⟩ : BufTy).Contents (Elt F)) (a7 : (⟨S64x64, .f32⟩ : BufTy).Contents (Elt F)) (a8 : (⟨S64, .f32⟩ : BufTy).Contents (Elt F)) (a9 : (⟨S64, .f32⟩ : BufTy).Contents (Elt F)) (a10 : (⟨S64, .f32⟩ : BufTy).Contents (Elt F)) (a11 : (⟨S64, .f32⟩ : BufTy).Contents (Elt F)) (a12 : (⟨S64, .f32⟩ : BufTy).Contents (Elt F))
    (h1 : W (Proc.devRef .tc main_v1) = val_main_v1 (F := F) a0)
    (h3 : W (Proc.devRef .tc main_v3) = val_main_v3 (F := F) a0)
    (h144 : W (Proc.devRef .tc main_v144) = val_main_v144 (F := F) a0 a1 a2 a3 a4 a5 a6 a9 a10 a11 a12)
    (h7 : W (Proc.devRef .tc main_arg7) = a7) (h8 : W (Proc.devRef .tc main_arg8) = a8) :
    after opsB1 W (Proc.devRef .tc main_v189) = val_main_v189 (F := F) a0 a1 a2 a3 a4 a5 a6 a7 a8 a9 a10 a11 a12 := by
  after_results_simp
  rw [h144, h1, h3, h7, h8]
  try simp only [TRef.ofBuf, TRef.toBuf, cast_eq]
  rfl

abbrev writtenB1 : List (Ref sig .tc) :=
  [main_v145, main_cst_28, main_v146, main_cst_29, main_v147, main_v148, main_v149, main_cst_30, main_v150, main_v151, main_v152, main_c_31, main_v153, main_v154, main_c_32, main_v155, main_v156, main_v157, main_v158, main_v159, main_c_33, main_v160, main_v161, main_c_34, main_v162, main_v163, main_v164, main_v165, main_v166, main_v167, main_c_35, main_v168, main_v169, main_c_36, main_v170, main_v171, main_v172, main_v173, main_v174, main_v175, main_v176, main_v177, main_cst_37, main_v178, main_v179, main_v180, main_v181, main_v182, main_v183, main_v184, main_v185, main_v186, main_v187, main_v188, main_call2_cst, main_call2_v0, main_v189]

theorem opsB1_writes : (opsB1 : List (HloOp τ sig (Elt F))).Forall fun op =>
    op.writes ⊆ (writtenB1.map (Proc.devRef (τ := τ) .tc)).toFinset := by
  repeat' (first | apply And.intro | exact wsub (by decide))

theorem keep (W : Valuation τ sig (Elt F)) (r : Ref sig .tc) (h : r ∉ writtenB1) :
    after opsB1 W (Proc.devRef .tc r) = W (Proc.devRef .tc r) :=
  after_of_writes_sub opsB1 W opsB1_writes h

theorem keep_v1 (W : Valuation τ sig (Elt F)) : after opsB1 W (Proc.devRef .tc main_v1) = W (Proc.devRef .tc main_v1) :=
  keep W main_v1 (by decide)

theorem keep_v3 (W : Valuation τ sig (Elt F)) : after opsB1 W (Proc.devRef .tc main_v3) = W (Proc.devRef .tc main_v3) :=
  keep W main_v3 (by decide)

end Cert.ReferenceIdeal.RefRunB1

end
-- ==== Proof.RefRunB2.lean ====
import proofs.«423179_j27462020891318_2_alg».proof.Proof.RefRead
import Idealize.ShloMosaic.Lib.StableHlo.Run

noncomputable section

namespace Cert.ReferenceIdeal.RefRunB2

open Cert.ReferenceIdeal Cert.ReferenceIdeal.Gen Cert.ReferenceIdeal.Read Idealize.ShloMosaic Idealize.ShloMosaic.TcCoe
  Idealize.SL.Sem Idealize.ShloMosaic.StableHlo

variable {F : FTy → Type} [FloatOps F]

/-- The two embedding lookups along the edges. -/
abbrev opsB2a : List (HloOp τ sig (Elt F)) :=
  [ nullary main_c_38 (constantI S_ 32 0#32),
    unary main_c_38 main_v190 (broadcastInDim S2000000 ![] bcast_S_S2000000),
    binary main_v1 main_v190 main_v191 (cmpi .slt),
    nullary main_c_39 (constantI S_ 32 100000#32),
    unary main_c_39 main_v192 (broadcastInDim S2000000 ![] bcast_S_S2000000),
    binary main_v1 main_v192 main_v193 addi,
    ternary main_v191 main_v193 main_v1 main_v194 select,
    unary main_v194 main_v195 (broadcastInDim S2000000x1 ![0] bcast_S2000000_S2000000x1_0),
    binary main_arg1 main_v195 main_v196 (fun x i => Host.gather gather_S100000x16_S2000000x1_S2000000x16_1_0_n_n_0_1_116 x i),
    nullary main_c_40 (constantI S_ 32 100000#32),
    unary main_c_40 main_v197 (broadcastInDim S2000000 ![] bcast_S_S2000000),
    binary main_v3 main_v197 main_v198 subi,
    nullary main_c_41 (constantI S_ 32 0#32),
    unary main_c_41 main_v199 (broadcastInDim S2000000 ![] bcast_S_S2000000),
    binary main_v198 main_v199 main_v200 (cmpi .slt),
    nullary main_c_42 (constantI S_ 32 50000#32),
    unary main_c_42 main_v201 (broadcastInDim S2000000 ![] bcast_S_S2000000),
    binary main_v198 main_v201 main_v202 addi,
    ternary main_v200 main_v202 main_v198 main_v203 select,
    unary main_v203 main_v204 (broadcastInDim S2000000x1 ![0] bcast_S2000000_S2000000x1_0),
    binary main_arg2 main_v204 main_v205 (fun x i => Host.gather gather_S50000x16_S2000000x1_S2000000x16_1_0_n_n_0_1_116 x i) ]

/-- The edge perceptron on the two looked-up rows. -/
abbrev opsB2b : List (HloOp τ sig (Elt F)) :=
  [ binary main_v196 main_v205 main_v206 (fun a b => concatenate S2000000x32 1 [⟨S2000000x16, a⟩, ⟨S2000000x16, b⟩] concatenates_S2000000x16_S2000000x16_S2000000x32_d1),
    binary main_v206 main_arg13 main_v207 (fun l r => Host.dotGeneral dot_S2000000x32_S32x64_S2000000x64_1_0_0_1_n_n none l r),
    unary main_arg14 main_v208 (broadcastInDim S1x64 ![1] bcast_S64_S1x64_1),
    unary main_v208 main_v209 (broadcastInDim S2000000x64 ![0, 1] bcast_S1x64_S2000000x64_0_1),
    binary main_v207 main_v209 main_v210 addf,
    TRef.nullary (TRef.of (T := ⟨S_, .f32⟩) main_call3_cst) (constant S_ .f32 0x00000000#32),
    TRef.unary (TRef.of (T := ⟨S_, .f32⟩) main_call3_cst) (TRef.of (T := ⟨S2000000x64, .f32⟩) main_call3_v0) (broadcastInDim S2000000x64 ![] bcast_S_S2000000x64),
    TRef.binary (TRef.of (T := ⟨S2000000x64, .f32⟩) main_v210) (TRef.of (T := ⟨S2000000x64, .f32⟩) main_call3_v0) (TRef.of (T := ⟨S2000000x64, .f32⟩) main_v211) maximumf,
    binary main_v211 main_arg15 main_v212 (fun l r => Host.dotGeneral dot_S2000000x64_S64x1_S2000000x1_1_0_0_1_n_n none l r),
    unary main_arg16 main_v213 (broadcastInDim S1x1 ![1] bcast_S1_S1x1_1),
    unary main_v213 main_v214 (broadcastInDim S2000000x1 ![0, 1] bcast_S1x1_S2000000x1_0_1),
    binary main_v212 main_v214 main_v215 addf,
    unary main_v215 main_v216 Host.negf,
    unary main_v216 main_v217 Host.exp,
    nullary main_cst_43 (constant S_ .f32 0x3F800000#32),
    unary main_cst_43 main_v218 (broadcastInDim S2000000x1 ![] bcast_S_S2000000x1),
    binary main_v218 main_v217 main_v219 addf,
    nullary main_cst_44 (constant S_ .f32 0x3F800000#32),
    unary main_cst_44 main_v220 (broadcastInDim S2000000x1 ![] bcast_S_S2000000x1),
    binary main_v220 main_v219 main_v221 Host.divf ]

abbrev opsB2 : List (HloOp τ sig (Elt F)) := opsB2a ++ opsB2b

theorem opsB2a_sub : (opsB2a : List (HloOp τ sig (Elt F))).Forall fun op => op.bufs ⊆ tcRefs τ sig := by
  simp only [List.Forall, nullary_bufs_sub, unary_bufs_sub, binary_bufs_sub, ternary_bufs_sub, reshape_bufs_sub, and_self]
theorem opsB2b_sub : (opsB2b : List (HloOp τ sig (Elt F))).Forall fun op => op.bufs ⊆ tcRefs τ sig := by
  simp only [List.Forall, nullary_bufs_sub, unary_bufs_sub, binary_bufs_sub, ternary_bufs_sub, reshape_bufs_sub, and_self]

theorem opsB2_sub : (opsB2 : List (HloOp τ sig (Elt F))).Forall fun op => op.bufs ⊆ tcRefs τ sig :=
  List.forall_append.2 ⟨opsB2a_sub, opsB2b_sub⟩

abbrev writesB2 : List (Ref sig .tc) :=
  [main_c_38, main_v190, main_v191, main_c_39, main_v192, main_v193, main_v194, main_v195, main_v196, main_c_40, main_v197, main_v198, main_c_41, main_v199, main_v200, main_c_42, main_v201, main_v202, main_v203, main_v204, main_v205, main_v206, main_v207, main_v208, main_v209, main_v210, main_call3_cst, main_call3_v0, main_v211, main_v212, main_v213, main_v214, main_v215, main_v216, main_v217, main_cst_43, main_v218, main_v219, main_cst_44, main_v220, main_v221]

theorem opsB2a_writes : (opsB2a : List (HloOp τ sig (Elt F))).Forall
    fun op => op.writes ⊆ (writesB2.map (Proc.devRef (τ := τ) .tc)).toFinset := by
  repeat' (first | apply And.intro | exact wsub (by decide))

theorem opsB2b_writes : (opsB2b : List (HloOp τ sig (Elt F))).Forall
    fun op => op.writes ⊆ (writesB2.map (Proc.devRef (τ := τ) .tc)).toFinset := by
  repeat' (first | apply And.intro | exact wsub (by decide))

variable (W : Valuation τ sig (Elt F))

theorem keepA (r : Ref sig .tc) (hr : r ∉ writesB2) : after opsB2a W (Proc.devRef .tc r) = W (Proc.devRef .tc r) :=
  after_of_writes_sub opsB2a W opsB2a_writes hr

theorem keepB (r : Ref sig .tc) (hr : r ∉ writesB2) : after opsB2b W (Proc.devRef .tc r) = W (Proc.devRef .tc r) :=
  after_of_writes_sub opsB2b W opsB2b_writes hr

theorem keepB2 (r : Ref sig .tc) (hr : r ∉ writesB2) : after opsB2 W (Proc.devRef .tc r) = W (Proc.devRef .tc r) := by
  show after (opsB2a ++ opsB2b) W _ = _
  rw [after_append, keepB _ r hr, keepA W r hr]

theorem keep_v189 : after opsB2 W (Proc.devRef .tc main_v189) = W (Proc.devRef .tc main_v189) :=
  keepB2 W main_v189 (by decide)

theorem keep_v1 : after opsB2 W (Proc.devRef .tc main_v1) = W (Proc.devRef .tc main_v1) :=
  keepB2 W main_v1 (by decide)
theorem keep_v3 : after opsB2 W (Proc.devRef .tc main_v3) = W (Proc.devRef .tc main_v3) :=
  keepB2 W main_v3 (by decide)

theorem a196 (a0 : (⟨S2x2000000, .i32⟩ : BufTy).Contents (Elt F)) (a1 : (⟨S100000x16, .f32⟩ : BufTy).Contents (Elt F))
    (h1 : W (Proc.devRef .tc main_v1) = val_main_v1 (F := F) a0) (g1 : W (Proc.devRef .tc main_arg1) = a1) :
    after opsB2a W (Proc.devRef .tc main_v196) = val_main_v196 (F := F) a0 a1 := by
  after_results_simp
  rw [h1, g1]
  rfl

theorem a205 (a0 : (⟨S2x2000000, .i32⟩ : BufTy).Contents (Elt F)) (a2 : (⟨S50000x16, .f32⟩ : BufTy).Contents (Elt F))
    (h3 : W (Proc.devRef .tc main_v3) = val_main_v3 (F := F) a0) (g2 : W (Proc.devRef .tc main_arg2) = a2) :
    after opsB2a W (Proc.devRef .tc main_v205) = val_main_v205 (F := F) a0 a2 := by
  after_results_simp
  rw [h3, g2]
  rfl

theorem b221 (a0 : (⟨S2x2000000, .i32⟩ : BufTy).Contents (Elt F)) (a1 : (⟨S100000x16, .f32⟩ : BufTy).Contents (Elt F))
    (a2 : (⟨S50000x16, .f32⟩ : BufTy).Contents (Elt F)) (a13 : (⟨S32x64, .f32⟩ : BufTy).Contents (Elt F))
    (a14 : (⟨S64, .f32⟩ : BufTy).Contents (Elt F)) (a15 : (⟨S64x1, .f32⟩ : BufTy).Contents (Elt F))
    (a16 : (⟨S1, .f32⟩ : BufTy).Contents (Elt F))
    (h196 : W (Proc.devRef .tc main_v196) = val_main_v196 (F := F) a0 a1)
    (h205 : W (Proc.devRef .tc main_v205) = val_main_v205 (F := F) a0 a2)
    (g13 : W (Proc.devRef .tc main_arg13) = a13) (g14 : W (Proc.devRef .tc main_arg14) = a14)
    (g15 : W (Proc.devRef .tc main_arg15) = a15) (g16 : W (Proc.devRef .tc main_arg16) = a16) :
    after opsB2b W (Proc.devRef .tc main_v221) = val_main_v221 (F := F) a0 a1 a2 a13 a14 a15 a16 := by
  after_results_simp
  rw [h196, h205, g13, g14, g15, g16]
  rfl

theorem v221 (a0 : (⟨S2x2000000, .i32⟩ : BufTy).Contents (Elt F)) (a1 : (⟨S100000x16, .f32⟩ : BufTy).Contents (Elt F))
    (a2 : (⟨S50000x16, .f32⟩ : BufTy).Contents (Elt F)) (a13 : (⟨S32x64, .f32⟩ : BufTy).Contents (Elt F))
    (a14 : (⟨S64, .f32⟩ : BufTy).Contents (Elt F)) (a15 : (⟨S64x1, .f32⟩ : BufTy).Contents (Elt F))
    (a16 : (⟨S1, .f32⟩ : BufTy).Contents (Elt F))
    (h1 : W (Proc.devRef .tc main_v1) = val_main_v1 (F := F) a0)
    (h3 : W (Proc.devRef .tc main_v3) = val_main_v3 (F := F) a0)
    (g0 : W (Proc.devRef .tc main_arg0) = a0)
    (g1 : W (Proc.devRef .tc main_arg1) = a1) (g2 : W (Proc.devRef .tc main_arg2) = a2)
    (g13 : W (Proc.devRef .tc main_arg13) = a13) (g14 : W (Proc.devRef .tc main_arg14) = a14)
    (g15 : W (Proc.devRef .tc main_arg15) = a15) (g16 : W (Proc.devRef .tc main_arg16) = a16) :
    after opsB2 W (Proc.devRef .tc main_v221) = val_main_v221 (F := F) a0 a1 a2 a13 a14 a15 a16 := by
  show after (opsB2a ++ opsB2b) W _ = _
  rw [after_append]
  exact b221 (after opsB2a W) a0 a1 a2 a13 a14 a15 a16 (a196 W a0 a1 h1 g1) (a205 W a0 a2 h3 g2)
    ((keepA W main_arg13 (by decide)).trans g13) ((keepA W main_arg14 (by decide)).trans g14)
    ((keepA W main_arg15 (by decide)).trans g15) ((keepA W main_arg16 (by decide)).trans g16)

end Cert.ReferenceIdeal.RefRunB2

end
-- ==== Proof.RefRun.lean ====
import proofs.«423179_j27462020891318_2_alg».proof.Proof.RefRunA1
import proofs.«423179_j27462020891318_2_alg».proof.Proof.RefRunA2
import proofs.«423179_j27462020891318_2_alg».proof.Proof.RefRunB1
import proofs.«423179_j27462020891318_2_alg».proof.Proof.RefRunB2
import Idealize.ShloMosaic.Lib.StableHlo.Run

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

abbrev opsAll : List (HloOp τ sig (Elt F)) := RefRunA1.opsA1 ++ (RefRunA2.opsA2 ++ (RefRunB1.opsB1 ++ RefRunB2.opsB2))

/-- The program's five blocks in a row unfold to the one chain of the line's operations. -/
theorem main_eq (c : Dev nD) : main (F := F) c = seq opsAll := rfl

theorem scopedRefs_eq : (Finset.univ.filter fun b : Ref sig .tc => b.isScoped) = ∅ := by decide
theorem scopedSems_eq : (Finset.univ.filter fun sm : SemLoc sig => sm.isScoped .tc) = ∅ := by decide

theorem opsAll_sub : (opsAll : List (HloOp τ sig (Elt F))).Forall fun op => op.bufs ⊆ tcRefs τ sig :=
  List.forall_append.2 ⟨RefRunA1.opsA1_sub, List.forall_append.2 ⟨RefRunA2.opsA2_sub,
    List.forall_append.2 ⟨RefRunB1.opsB1_sub, RefRunB2.opsB2_sub⟩⟩⟩

theorem opsP_fresh : (RefRunA1.opsP : List (HloOp τ sig (Elt F))).Forall fun op => op.fresh = ∅ := by
  repeat' (first | apply And.intro | exact rfl)

theorem opsQ_fresh : (RefRunA1.opsQ : List (HloOp τ sig (Elt F))).Forall fun op => op.fresh = ∅ := by
  repeat' (first | apply And.intro | exact rfl)

theorem opsR_fresh : (RefRunA1.opsR : List (HloOp τ sig (Elt F))).Forall fun op => op.fresh = ∅ := by
  repeat' (first | apply And.intro | exact rfl)

theorem opsA2a_fresh : (RefRunA2.opsA2a : List (HloOp τ sig (Elt F))).Forall fun op => op.fresh = ∅ := by
  repeat' (first | apply And.intro | exact rfl)
theorem opsA2b_fresh : (RefRunA2.opsA2b : List (HloOp τ sig (Elt F))).Forall fun op => op.fresh = ∅ := by
  repeat' (first | apply And.intro | exact rfl)
theorem opsA2c_fresh : (RefRunA2.opsA2c : List (HloOp τ sig (Elt F))).Forall fun op => op.fresh = ∅ := by
  repeat' (first | apply And.intro | exact rfl)

theorem opsB1_fresh : (RefRunB1.opsB1 : List (HloOp τ sig (Elt F))).Forall fun op => op.fresh = ∅ := by
  repeat' (first | apply And.intro | exact rfl)

theorem opsB2a_fresh : (RefRunB2.opsB2a : List (HloOp τ sig (Elt F))).Forall fun op => op.fresh = ∅ := by
  repeat' (first | apply And.intro | exact rfl)
theorem opsB2b_fresh : (RefRunB2.opsB2b : List (HloOp τ sig (Elt F))).Forall fun op => op.fresh = ∅ := by
  repeat' (first | apply And.intro | exact rfl)

theorem opsAll_fresh : ∀ op ∈ (opsAll : List (HloOp τ sig (Elt F))), op.fresh = ∅ :=
  List.forall_iff_forall_mem.1 (List.forall_append.2 ⟨List.forall_append.2 ⟨opsP_fresh, List.forall_append.2 ⟨opsQ_fresh, opsR_fresh⟩⟩,
    List.forall_append.2 ⟨List.forall_append.2 ⟨opsA2a_fresh, List.forall_append.2 ⟨opsA2b_fresh, opsA2c_fresh⟩⟩,
      List.forall_append.2 ⟨opsB1_fresh, List.forall_append.2 ⟨opsB2a_fresh, opsB2b_fresh⟩⟩⟩⟩)

variable (V : Valuation τ sig (Elt F))

theorem after_quarters :
    after opsAll V = after RefRunB2.opsB2 (after RefRunB1.opsB1 (after RefRunA2.opsA2 (after RefRunA1.opsA1 V))) := by
  show after (RefRunA1.opsA1 ++ (RefRunA2.opsA2 ++ (RefRunB1.opsB1 ++ RefRunB2.opsB2))) V = _
  rw [StableHlo.after_append, StableHlo.after_append, StableHlo.after_append]

theorem keep12 {r : Ref sig .tc} (hP : r ∉ RefRunA1.opsP_W) (hQ : r ∉ RefRunA1.opsQ_W) (hR : r ∉ RefRunA1.opsR_W)
    (h2 : r ∉ RefRunA2.Wa ++ (RefRunA2.Wb ++ RefRunA2.Wc)) :
    after RefRunA2.opsA2 (after RefRunA1.opsA1 V) (Proc.devRef .tc r) = V (Proc.devRef .tc r) :=
  (RefRunA2.keepA2 _ r h2).trans (RefRunA1.opsA1_keep V hP hQ hR)

theorem keep123 {r : Ref sig .tc} (hP : r ∉ RefRunA1.opsP_W) (hQ : r ∉ RefRunA1.opsQ_W) (hR : r ∉ RefRunA1.opsR_W)
    (h2 : r ∉ RefRunA2.Wa ++ (RefRunA2.Wb ++ RefRunA2.Wc)) (h3 : r ∉ RefRunB1.writtenB1) :
    after RefRunB1.opsB1 (after RefRunA2.opsA2 (after RefRunA1.opsA1 V)) (Proc.devRef .tc r) = V (Proc.devRef .tc r) :=
  (RefRunB1.keep _ r h3).trans (keep12 V hP hQ hR h2)

/-- A buffer no stretch writes holds at the end what it held at the start. -/
theorem keep_all {r : Ref sig .tc} (hP : r ∉ RefRunA1.opsP_W) (hQ : r ∉ RefRunA1.opsQ_W) (hR : r ∉ RefRunA1.opsR_W)
    (h2 : r ∉ RefRunA2.Wa ++ (RefRunA2.Wb ++ RefRunA2.Wc)) (h3 : r ∉ RefRunB1.writtenB1) (h4 : r ∉ RefRunB2.writesB2) :
    after opsAll V (Proc.devRef .tc r) = V (Proc.devRef .tc r) := by
  rw [after_quarters]
  exact (RefRunB2.keepB2 _ r h4).trans (keep123 V hP hQ hR h2 h3)

theorem q2_v1 : after RefRunA2.opsA2 (after RefRunA1.opsA1 V) (Proc.devRef .tc main_v1) = val_main_v1 (F := F) (V (Proc.devRef .tc main_arg0)) :=
  (RefRunA2.keep_v1 _).trans (RefRunA1.v1 V)

theorem q2_v3 : after RefRunA2.opsA2 (after RefRunA1.opsA1 V) (Proc.devRef .tc main_v3) = val_main_v3 (F := F) (V (Proc.devRef .tc main_arg0)) :=
  (RefRunA2.keep_v3 _).trans (RefRunA1.v3 V)

theorem q2_v144 : after RefRunA2.opsA2 (after RefRunA1.opsA1 V) (Proc.devRef .tc main_v144)
    = val_main_v144 (F := F) (V (Proc.devRef .tc main_arg0)) (V (Proc.devRef .tc main_arg1)) (V (Proc.devRef .tc main_arg2))
        (V (Proc.devRef .tc main_arg3)) (V (Proc.devRef .tc main_arg4)) (V (Proc.devRef .tc main_arg5))
        (V (Proc.devRef .tc main_arg6)) (V (Proc.devRef .tc main_arg9)) (V (Proc.devRef .tc main_arg10))
        (V (Proc.devRef .tc main_arg11)) (V (Proc.devRef .tc main_arg12)) :=
  RefRunA2.v144 (h1 := RefRunA1.v1 V) (h3 := RefRunA1.v3 V) (h74 := RefRunA1.v74 V)
    (h5 := RefRunA1.opsA1_keep V (by decide) (by decide) (by decide)) (h6 := RefRunA1.opsA1_keep V (by decide) (by decide) (by decide)) (h11 := RefRunA1.opsA1_keep V (by decide) (by decide) (by decide))
    (h12 := RefRunA1.opsA1_keep V (by decide) (by decide) (by decide))

theorem all_v189 : after opsAll V (Proc.devRef .tc main_v189)
    = val_main_v189 (F := F) (V (Proc.devRef .tc main_arg0)) (V (Proc.devRef .tc main_arg1)) (V (Proc.devRef .tc main_arg2))
        (V (Proc.devRef .tc main_arg3)) (V (Proc.devRef .tc main_arg4)) (V (Proc.devRef .tc main_arg5))
        (V (Proc.devRef .tc main_arg6)) (V (Proc.devRef .tc main_arg7)) (V (Proc.devRef .tc main_arg8))
        (V (Proc.devRef .tc main_arg9)) (V (Proc.devRef .tc main_arg10)) (V (Proc.devRef .tc main_arg11))
        (V (Proc.devRef .tc main_arg12)) := by
  rw [after_quarters, RefRunB2.keep_v189]
  exact RefRunB1.v189 (h1 := q2_v1 V) (h3 := q2_v3 V) (h144 := q2_v144 V)
    (h7 := keep12 V (by decide) (by decide) (by decide) (by decide))
    (h8 := keep12 V (by decide) (by decide) (by decide) (by decide))

theorem all_v221 : after opsAll V (Proc.devRef .tc main_v221)
    = val_main_v221 (F := F) (V (Proc.devRef .tc main_arg0)) (V (Proc.devRef .tc main_arg1)) (V (Proc.devRef .tc main_arg2))
        (V (Proc.devRef .tc main_arg13)) (V (Proc.devRef .tc main_arg14)) (V (Proc.devRef .tc main_arg15))
        (V (Proc.devRef .tc main_arg16)) := by
  rw [after_quarters]
  exact RefRunB2.v221 (h1 := (RefRunB1.keep_v1 _).trans (q2_v1 V)) (h3 := (RefRunB1.keep_v3 _).trans (q2_v3 V))
    (g0 := keep123 V (by decide) (by decide) (by decide) (by decide) (by decide))
    (g1 := keep123 V (by decide) (by decide) (by decide) (by decide) (by decide))
    (g2 := keep123 V (by decide) (by decide) (by decide) (by decide) (by decide))
    (g13 := keep123 V (by decide) (by decide) (by decide) (by decide) (by decide))
    (g14 := keep123 V (by decide) (by decide) (by decide) (by decide) (by decide))
    (g15 := keep123 V (by decide) (by decide) (by decide) (by decide) (by decide))
    (g16 := keep123 V (by decide) (by decide) (by decide) (by decide) (by decide))

/-- Every weakly fair execution ends with the two results at the operation-by-operation values of the launch arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v221)
        = val_main_v221 (F := F) (m ((c.tc : Thread nD τ).loc main_arg0)) (m ((c.tc : Thread nD τ).loc main_arg1))
            (m ((c.tc : Thread nD τ).loc main_arg2)) (m ((c.tc : Thread nD τ).loc main_arg13))
            (m ((c.tc : Thread nD τ).loc main_arg14)) (m ((c.tc : Thread nD τ).loc main_arg15))
            (m ((c.tc : Thread nD τ).loc main_arg16))
      ∧ r.2.mem ((c.tc : Thread nD τ).loc main_v189)
        = val_main_v189 (F := F) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10)) (m ((c.tc : Thread nD τ).loc main_arg11))
            (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) := by
  refine (θ_run defs _ _).mono (fun _ h c => ⟨(h c main_v221).trans (all_v221 (launchContents m c)),
      (h c main_v189).trans (all_v189 (launchContents m c)), ?_⟩)
    (run_seq scopedRefs_eq scopedSems_eq defs main (fun _ => opsAll) main_eq (fun _ => opsAll_sub) m ρ (fun _ => opsAll_fresh))
  repeat' (first | apply And.intro | exact (h c _).trans (keep_all (launchContents m c) (by decide) (by decide) (by decide) (by decide) (by decide) (by decide)))

end Cert.ReferenceIdeal.RefRun

end
-- ==== Proof.LibGatherVec.lean ====
import Idealize.ShloMosaic.PureOps
import Idealize.ShloMosaic.Lib.ValueIdx

noncomputable section

namespace Idealize.ShloMosaic.GatherVec

open Idealize.ShloMosaic Idealize.ShloMosaic.ValueIdx

variable {α : Type}

abbrev dims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

def sel {N R w : Nat} (hN : 0 < N) (idx : IVec ⟨2, ![R, 1]⟩ w) (e : Fin R) : Fin N :=
  ⟨min (idx (ix2 e (0 : Fin 1))).toInt.toNat (N - 1), by omega⟩

theorem siIdx_vec {N R : Nat}
    (wf : GatherDims.WF ⟨1, ![N]⟩ ⟨2, ![R, 1]⟩ ⟨1, ![R]⟩ [] [0] [] [0] [] 1 ![1])
    (y : (⟨1, ![R]⟩ : Shape).Idx) (c : Fin (dims N R wf).startIndexMap.length) :
    (dims N R wf).siIdx y c = ix2 (⟨(y 0).val, (y 0).isLt⟩ : Fin R) (0 : Fin 1) := by
  funext b
  refine Fin.ext ?_
  match b with
  | ⟨0, _⟩ => rfl
  | ⟨1, _⟩ =>
    show c.val = 0
    have := c.isLt
    simp only [List.length_singleton] at this
    omega

theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (dims N R wf) x idx (ix1 e)
      = x (ix1 (⟨min (idx (ix2 e (0 : Fin 1))).toInt.toNat (N - 1), by omega⟩ : Fin N)) := by
  unfold Host.gather
  congr 1
  funext a
  refine Fin.ext ?_
  match a with
  | ⟨0, _⟩ =>

    show (dims N R wf).start (ix1 e) idx 0 + (dims N R wf).batchCoord (ix1 e) 0 + (dims N R wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (dims N R wf).startIndexMap from List.mem_singleton.mpr rfl), siIdx_vec]
    rfl

theorem gather_vec_apply_sel {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (dims N R wf) x idx (ix1 e) = x (ix1 (sel hN idx e)) :=
  gather_vec_apply hN wf x idx e

end Idealize.ShloMosaic.GatherVec

end
-- ==== Proof.RShared.lean ====
import proofs.«423179_j27462020891318_2_alg».proof.Proof.RefRead
import proofs.«423179_j27462020891318_2_alg».proof.Proof.SpecData
import proofs.«423179_j27462020891318_2_alg».proof.Proof.LibGatherRow
import proofs.«423179_j27462020891318_2_alg».proof.Proof.LibGatherVec
import proofs.«423179_j27462020891318_2_alg».proof.Proof.LibGatherClamp
import proofs.«423179_j27462020891318_2_alg».proof.Proof.LibScatterRows
import Idealize.ShloMosaic.PureOps.Ideal.Laws
import Idealize.ShloMosaic.Lib.IdealHost

noncomputable section

open scoped BigOperators

namespace Cert.ReferenceIdeal.RShared

open Cert.ReferenceIdeal Cert.ReferenceIdeal.Gen Cert.ReferenceIdeal.Read Idealize.ShloMosaic Idealize.ShloMosaic.TcCoe
  Idealize.ShloMosaic.ValueIdx Cert.Spec

scoped macro "idx_ext" : tactic =>
  `(tactic| (refine funext fun a => Fin.ext ?_; match a with | ⟨0, _⟩ => rfl))

scoped macro "idx_ext2" : tactic =>
  `(tactic| (refine funext fun a => Fin.ext ?_; match a with | ⟨0, _⟩ => rfl | ⟨1, _⟩ => rfl))

variable {α : Type}

/-- A vector over the edges laid out as a column. -/
theorem col_apply (y : S2000000.Idx → α) (e : Fin 2000000) :
    broadcastInDim S2000000x1 ![0] bcast_S2000000_S2000000x1_0 y (ix2 e (0 : Fin 1)) = y (ix1 e) :=
  broadcastInDim_apply _ _ y _ _ fun a => match a with | ⟨0, _⟩ => rfl

/-- A value per edge, per node, per column, repeated along the other axis of the table. -/
def perEdge (v : S2000000.Idx → α) : S2000000x64.Idx → α :=
  broadcastInDim S2000000x64 ![0, 1] bcast_S2000000x1_S2000000x64_0_1 (broadcastInDim S2000000x1 ![0] bcast_S2000000_S2000000x1_0 v)
def perNode (v : S150000.Idx → α) : S150000x64.Idx → α :=
  broadcastInDim S150000x64 ![0, 1] bcast_S150000x1_S150000x64_0_1 (broadcastInDim S150000x1 ![0] bcast_S150000_S150000x1_0 v)
def perCol (v : S64.Idx → α) : S150000x64.Idx → α :=
  broadcastInDim S150000x64 ![0, 1] bcast_S1x64_S150000x64_0_1 (broadcastInDim S1x64 ![1] bcast_S64_S1x64_1 v)

theorem perEdge_apply (v : S2000000.Idx → α) (e : Fin 2000000) (h : Fin 64) : perEdge v (ix2 e h) = v (ix1 e) :=
  (broadcastInDim_apply _ _ _ _ (ix2 e (0 : Fin 1)) fun a => match a with | ⟨0, _⟩ => rfl | ⟨1, _⟩ => rfl).trans (col_apply v e)
theorem perNode_apply (v : S150000.Idx → α) (i : Fin 150000) (h : Fin 64) : perNode v (ix2 i h) = v (ix1 i) :=
  (broadcastInDim_apply _ _ _ _ (ix2 i (0 : Fin 1)) fun a => match a with | ⟨0, _⟩ => rfl | ⟨1, _⟩ => rfl).trans
    (broadcastInDim_apply _ _ v _ _ fun a => match a with | ⟨0, _⟩ => rfl)
theorem perCol_apply (v : S64.Idx → α) (i : Fin 150000) (h : Fin 64) : perCol v (ix2 i h) = v (ix1 h) :=
  (broadcastInDim_apply _ _ _ _ (ix2 (0 : Fin 1) h) fun a => match a with | ⟨0, _⟩ => rfl | ⟨1, _⟩ => rfl).trans
    (broadcastInDim_apply _ _ v _ _ fun a => match a with | ⟨0, _⟩ => rfl)

/-- A vector of index words as a column of start indices: a negative word is raised by `n`. -/
def wrapCol (n : BitVec 32) (w : IVec S2000000 32) : IVec S2000000x1 32 :=
  broadcastInDim S2000000x1 ![0] bcast_S2000000_S2000000x1_0
    (select (cmpi .slt w (broadcastInDim S2000000 ![] bcast_S_S2000000 (constantI S_ 32 0#32)))
      (addi w (broadcastInDim S2000000 ![] bcast_S_S2000000 (constantI S_ 32 n))) w)

/-- A non-negative word is left as it is. -/
theorem wrapCol_apply (n : BitVec 32) (w : IVec S2000000 32) (e : Fin 2000000) (q : BitVec 32) (hq : w (ix1 e) = q)
    (h : 0 ≤ q.toInt) : wrapCol n w (ix2 e (0 : Fin 1)) = q := by
  subst hq
  exact (col_apply _ e).trans (GatherClamp.wrap_of_nonneg _ n h)

/-- Row 0 of the edge array, sliced out and flattened, is the sources' words; row 1 the targets'. -/
theorem row_word (x0 : (⟨S2x2000000, .i32⟩ : BufTy).Contents (Elt Ideal)) (e : Fin 2000000) :
    val_main_v1 (F := Ideal) x0 (ix1 e) = x0 (ix2 (0 : Fin 2) e) := by
  rw [val_main_v1_apply, val_main_v0_apply]
  exact congrArg x0 (funext fun a => Fin.ext (by match a with | ⟨0, _⟩ => rfl | ⟨1, _⟩ => exact Nat.mod_eq_of_lt e.isLt))

theorem col_word (x0 : (⟨S2x2000000, .i32⟩ : BufTy).Contents (Elt Ideal)) (e : Fin 2000000) :
    val_main_v3 (F := Ideal) x0 (ix1 e) = x0 (ix2 (1 : Fin 2) e) := by
  rw [val_main_v3_apply, val_main_v2_apply]
  exact congrArg x0 (funext fun a => Fin.ext (by match a with | ⟨0, _⟩ => rfl | ⟨1, _⟩ => exact Nat.mod_eq_of_lt e.isLt))

/-- A word read signed and clamped to the last node. -/
abbrev node (w : BitVec 32) : Fin 150000 := ⟨min w.toInt.toNat 149999, by omega⟩

/-- The operations that read by an operand's values: two gathers (the start word clamped to the last node), one scatter-add. -/
theorem dinv_at_start (dv : FVec Ideal S150000 .f32) (idx : IVec S2000000x1 32) (e : Fin 2000000) (w : BitVec 32)
    (hw : idx (ix2 e (0 : Fin 1)) = w) :
    Host.gather gather_S150000_S2000000x1_S2000000_n_0_n_n_0_1_1 dv idx (ix1 e) = dv (ix1 (node w)) := by
  subst hw
  exact GatherVec.gather_vec_apply (N := 150000) (by decide) gather_S150000_S2000000x1_S2000000_n_0_n_n_0_1_1_wf dv idx e

theorem rows_at_start (t : FVec Ideal S150000x64 .f32) (idx : IVec S2000000x1 32) (e : Fin 2000000) (h : Fin 64) (w : BitVec 32)
    (hw : idx (ix2 e (0 : Fin 1)) = w) :
    Host.gather gather_S150000x64_S2000000x1_S2000000x64_1_0_n_n_0_1_164 t idx (ix2 e h) = t (ix2 (node w) h) := by
  subst hw
  exact GatherRow.gather_row_apply (N := 150000) (by decide) gather_S150000x64_S2000000x1_S2000000x64_1_0_n_n_0_1_164_wf t idx (ix2 e h)

theorem scatter_rows_at (x : FVec Ideal S150000x64 .f32) (idx : IVec S2000000x1 32) (upd : FVec Ideal S2000000x64 .f32)
    (i : Fin 150000) (h : Fin 64) :
    Host.scatterAdd (F := Ideal) (φ := .f32) scatter_S150000x64_S2000000x1_S2000000x64_1_0_0_1 x idx upd (ix2 i h)
      = x (ix2 i h) + ∑ b : Fin 2000000, if (idx (ix2 b (0 : Fin 1))).toInt = (i.val : ℤ) then upd (ix2 b h) else 0 :=
  ScatterRows.hostScatterAdd_rows scatter_S150000x64_S2000000x1_S2000000x64_1_0_0_1_wf x idx upd i h

theorem hostRsqrt_apply {s : Shape} (x : FVec Ideal s .f32) (i : s.Idx) : Host.rsqrt x i = Ideal.rsqrt (x i) := rfl

/-- One graph convolution on whole arrays, from the table `xw`, the vector `dv`, the edges' source and target words and the bias. -/
def convArr (xw : FVec Ideal S150000x64 .f32) (dv : FVec Ideal S150000 .f32) (r c : IVec S2000000 32)
    (b : FVec Ideal S64 .f32) : FVec Ideal S150000x64 .f32 :=
  addf (addf
    (Host.scatterAdd scatter_S150000x64_S2000000x1_S2000000x64_1_0_0_1
      (broadcastInDim S150000x64 ![] bcast_S_S150000x64 (constant S_ .f32 0x00000000#32))
      (broadcastInDim S2000000x1 ![0] bcast_S2000000_S2000000x1_0 c)
      (mulf (Host.gather gather_S150000x64_S2000000x1_S2000000x64_1_0_n_n_0_1_164 xw (wrapCol 150000#32 r))
        (perEdge (mulf (Host.gather gather_S150000_S2000000x1_S2000000_n_0_n_n_0_1_1 dv (wrapCol 150000#32 r))
          (Host.gather gather_S150000_S2000000x1_S2000000_n_0_n_n_0_1_1 dv (wrapCol 150000#32 c))))))
    (mulf xw (perNode (mulf dv dv))))
    (perCol b)

/-- The convolution at entry `(i, h)`: the messages of the edges that end at `i`, the node's own term, the bias. -/
theorem convArr_apply (xw : FVec Ideal S150000x64 .f32) (dv : FVec Ideal S150000 .f32) (r c : IVec S2000000 32)
    (b : FVec Ideal S64 .f32) (T : Fin 150000 → Fin 64 → EReal) (dn : Fin 150000 → EReal) (rw cw : Fin 2000000 → BitVec 32)
    (hT : ∀ i h, xw (ix2 i h) = T i h) (hd : ∀ i, dv (ix1 i) = dn i)
    (hr : ∀ e, r (ix1 e) = rw e) (hc : ∀ e, c (ix1 e) = cw e)
    (hr0 : ∀ e, 0 ≤ (rw e).toInt) (hc0 : ∀ e, 0 ≤ (cw e).toInt) (i : Fin 150000) (h : Fin 64) :
    convArr xw dv r c b (ix2 i h)
      = ((0 + ∑ e : Fin 2000000, if (cw e).toInt = ((i.val : ℕ) : ℤ)
            then T (node (rw e)) h * (dn (node (rw e)) * dn (node (cw e))) else 0)
          + T i h * (dn i * dn i)) + b (ix1 h) := by
  have hR := fun e => wrapCol_apply 150000#32 r e _ (hr e) (hr0 e)
  have hC := fun e => wrapCol_apply 150000#32 c e _ (hc e) (hc0 e)
  have hx : ∀ e h, Host.gather gather_S150000x64_S2000000x1_S2000000x64_1_0_n_n_0_1_164 xw (wrapCol 150000#32 r) (ix2 e h)
      = T (node (rw e)) h := fun e h => (rows_at_start _ _ e h _ (hR e)).trans (hT _ _)
  have hdr : ∀ e, Host.gather gather_S150000_S2000000x1_S2000000_n_0_n_n_0_1_1 dv (wrapCol 150000#32 r) (ix1 e)
      = dn (node (rw e)) := fun e => (dinv_at_start _ _ e _ (hR e)).trans (hd _)
  have hdc : ∀ e, Host.gather gather_S150000_S2000000x1_S2000000_n_0_n_n_0_1_1 dv (wrapCol 150000#32 c) (ix1 e)
      = dn (node (cw e)) := fun e => (dinv_at_start _ _ e _ (hC e)).trans (hd _)
  have hcc : ∀ e, broadcastInDim S2000000x1 ![0] bcast_S2000000_S2000000x1_0 c (ix2 e (0 : Fin 1)) = cw e :=
    fun e => (col_apply c e).trans (hc e)
  rw [convArr, addf_apply, addf_apply, mulf_apply, perCol_apply, perNode_apply, mulf_apply, hT, hd, scatter_rows_at,
    broadcastInDim_scalar_apply, constant_apply, Ideal.ofBits_zero_f32]
  simp only [hcc, mulf_apply, perEdge_apply, hx, hdr, hdc]

/-- The column mean on whole arrays: the column sums from zero over the node count. -/
def meanArr (p : FVec Ideal S150000x64 .f32) : FVec Ideal S64 .f32 :=
  Host.divf (Host.reduceAdd p (constant S_ .f32 0x00000000#32) reducesTo_S150000x64_S64_d0 h_S_)
    (broadcastInDim S64 ![] bcast_S_S64 (constant S_ .f32 0x48127C00#32))

/-- A column's sum over the nodes, from an initial value. -/
theorem colSum_apply (p : FVec Ideal S150000x64 .f32) (z : EReal) (h : Fin 64) :
    Ideal.hostReduceAdd reducesTo_S150000x64_S64_d0 p z (ix1 h) = z + ∑ k : Fin 150000, p (ix2 k h) := by
  rw [Ideal.hostReduceAdd_single reducesTo_S150000x64_S64_d0 (by decide)]
  exact congrArg (_ + ·) (Finset.sum_congr rfl fun k _ => congrArg p (by idx_ext2))

theorem meanArr_apply (D : Data) (hc : D.cnt = Ideal.ofBits .f32 0x48127C00#32) (p : FVec Ideal S150000x64 .f32)
    (P : Fin 150000 → Fin 64 → EReal) (hP : ∀ i h, p (ix2 i h) = P i h) (h : Fin 64) :
    meanArr p (ix1 h) = mean D P h := by
  rw [mean, hc, meanArr, hostDivf_apply, broadcastInDim_scalar_apply, constant_apply, hostReduceAdd_apply, constant_apply,
    colSum_apply, Ideal.ofBits_zero_f32]
  simp only [hP]

/-- Batch normalisation over the node axis and the rectifier, on whole arrays. -/
def bnArr (p : FVec Ideal S150000x64 .f32) (g be : FVec Ideal S64 .f32) : FVec Ideal S150000x64 .f32 :=
  maximumf (addf (mulf (mulf (subf p (perCol (meanArr p)))
      (perCol (Host.rsqrt (addf (meanArr (mulf (subf p (perCol (meanArr p))) (subf p (perCol (meanArr p)))))
        (broadcastInDim S64 ![] bcast_S_S64 (constant S_ .f32 0x3727C5AC#32)))))) (perCol g)) (perCol be))
    (broadcastInDim S150000x64 ![] bcast_S_S150000x64 (constant S_ .f32 0x00000000#32))

theorem bnArr_apply (D : Data) (hc : D.cnt = Ideal.ofBits .f32 0x48127C00#32) (he : D.eps = Ideal.ofBits .f32 0x3727C5AC#32)
    (p : FVec Ideal S150000x64 .f32) (g be : FVec Ideal S64 .f32) (P : Fin 150000 → Fin 64 → EReal)
    (hP : ∀ i h, p (ix2 i h) = P i h) (i : Fin 150000) (h : Fin 64) :
    bnArr p g be (ix2 i h) = bnRelu D P (fun h => g (ix1 h)) (fun h => be (ix1 h)) i h := by
  have hdev : ∀ k h', subf p (perCol (meanArr p)) (ix2 k h') = P k h' - mean D P h' := fun k h' => by
    rw [subf_apply, perCol_apply, hP, meanArr_apply D hc p P hP]
  have hvar : meanArr (mulf (subf p (perCol (meanArr p))) (subf p (perCol (meanArr p)))) (ix1 h) = var D P h :=
    meanArr_apply D hc _ (fun k h => (P k h - mean D P h) * (P k h - mean D P h)) (fun k h' => by rw [mulf_apply, hdev]) h
  rw [bnRelu, he, bnArr, maximumf_apply, addf_apply, mulf_apply, mulf_apply, hdev, perCol_apply, perCol_apply, perCol_apply,
    hostRsqrt_apply, addf_apply, hvar, broadcastInDim_scalar_apply, constant_apply, broadcastInDim_scalar_apply, constant_apply,
    Ideal.ofBits_zero_f32]

end Cert.ReferenceIdeal.RShared

end
-- ==== Proof.RLayer1.lean ====
import proofs.«423179_j27462020891318_2_alg».proof.Proof.RShared

noncomputable section

open scoped BigOperators

namespace Cert.ReferenceIdeal.RLayer1

open Cert.ReferenceIdeal Cert.ReferenceIdeal.Gen Cert.ReferenceIdeal.Read Idealize.ShloMosaic Idealize.ShloMosaic.TcCoe
  Idealize.ShloMosaic.ValueIdx Cert.Spec Cert.ReferenceIdeal.RShared

variable (x0 : (⟨S2x2000000, .i32⟩ : BufTy).Contents (Elt Ideal)) (x1 : (⟨S100000x16, .f32⟩ : BufTy).Contents (Elt Ideal)) (x2 : (⟨S50000x16, .f32⟩ : BufTy).Contents (Elt Ideal))
  (x3 : (⟨S16x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal))
  (x7 : (⟨S64x64, .f32⟩ : BufTy).Contents (Elt Ideal)) (x8 x9 x10 x11 x12 : (⟨S64, .f32⟩ : BufTy).Contents (Elt Ideal)) (x13 : (⟨S32x64, .f32⟩ : BufTy).Contents (Elt Ideal))
  (x14 : (⟨S64, .f32⟩ : BufTy).Contents (Elt Ideal)) (x15 : (⟨S64x1, .f32⟩ : BufTy).Contents (Elt Ideal)) (x16 : (⟨S1, .f32⟩ : BufTy).Contents (Elt Ideal))

local notation "𝔻" => (Cert.Spec.dataOf x0 x1 x2 x3 x4 x5 x6 x7 x8 x9 x10 x11 x12 x13 x14 x15 x16)

/-- Layer 1's result: the batch normalisation of the table before it with `g1`, `be1`, then the rectifier. -/
theorem y1 (P : Fin 150000 → Fin 64 → EReal) (hP : ∀ i h, val_main_v48 (F := Ideal) x0 x1 x2 x3 x4 (ix2 i h) = P i h) (i : Fin 150000) (h : Fin 64) :
    val_main_v74 (F := Ideal) x0 x1 x2 x3 x4 x9 x10 (ix2 i h) = bnRelu 𝔻 P (𝔻).g1 (𝔻).be1 i h :=
  bnArr_apply 𝔻 rfl rfl _ x9 x10 P hP i h

end Cert.ReferenceIdeal.RLayer1

end
-- ==== Proof.RLayer1b.lean ====
import proofs.«423179_j27462020891318_2_alg».proof.Proof.RShared

noncomputable section

open scoped BigOperators

namespace Cert.ReferenceIdeal.RLayer1b

open Cert.ReferenceIdeal Cert.ReferenceIdeal.Gen Cert.ReferenceIdeal.Read Idealize.ShloMosaic Idealize.ShloMosaic.TcCoe
  Idealize.ShloMosaic.ValueIdx Cert.Spec Cert.ReferenceIdeal.RShared

variable (x0 : (⟨S2x2000000, .i32⟩ : BufTy).Contents (Elt Ideal)) (x1 : (⟨S100000x16, .f32⟩ : BufTy).Contents (Elt Ideal)) (x2 : (⟨S50000x16, .f32⟩ : BufTy).Contents (Elt Ideal))
  (x3 : (⟨S16x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal))
  (x7 : (⟨S64x64, .f32⟩ : BufTy).Contents (Elt Ideal)) (x8 x9 x10 x11 x12 : (⟨S64, .f32⟩ : BufTy).Contents (Elt Ideal)) (x13 : (⟨S32x64, .f32⟩ : BufTy).Contents (Elt Ideal))
  (x14 : (⟨S64, .f32⟩ : BufTy).Contents (Elt Ideal)) (x15 : (⟨S64x1, .f32⟩ : BufTy).Contents (Elt Ideal)) (x16 : (⟨S1, .f32⟩ : BufTy).Contents (Elt Ideal))

local notation "𝔻" => (Cert.Spec.dataOf x0 x1 x2 x3 x4 x5 x6 x7 x8 x9 x10 x11 x12 x13 x14 x15 x16)

/-- The node table is the user table on top of the item table: node `i` is user `i` below 100000, else item `i − 100000`. -/
theorem table_at (i : Fin 150000) (d : Fin 16) :
    val_main_v4 (F := Ideal) x1 x2 (ix2 i d)
      = if h : i.val < 100000 then x1 (ix2 (⟨i.val, h⟩ : Fin 100000) d)
        else x2 (ix2 (⟨i.val - 100000, by have := i.isLt; omega⟩ : Fin 50000) d) := by
  unfold val_main_v4
  by_cases hlt : i.val < 100000
  · rw [dif_pos hlt]
    exact concatenate_pair_apply_left (0 : Fin S150000x16.rank) x1 x2 concatenates_S100000x16_S50000x16_S150000x16_d0
      (ix2 i d) rfl (ix2 (⟨i.val, hlt⟩ : Fin 100000) d)
      (fun b => by match b with | ⟨0, _⟩ => rfl | ⟨1, _⟩ => rfl)
  · rw [dif_neg hlt]
    exact concatenate_pair_apply_right (0 : Fin S150000x16.rank) x1 x2 concatenates_S100000x16_S50000x16_S150000x16_d0
      (ix2 i d) rfl rfl (ix2 (⟨i.val - 100000, by have := i.isLt; omega⟩ : Fin 50000) d)
      (fun b hb => by match b with | ⟨0, _⟩ => exact absurd rfl hb | ⟨1, _⟩ => rfl)
      (by show (i.val - 100000) + 100000 = i.val; omega)

/-- The table times the 16 × 64 weights, entry by entry. -/
theorem xw1 (Y : Fin 150000 → Fin 16 → EReal) (hY : ∀ i k, val_main_v4 (F := Ideal) x1 x2 (ix2 i k) = Y i k) (i : Fin 150000) (h : Fin 64) :
    val_main_v5 (F := Ideal) x1 x2 x3 (ix2 i h) = R.lin Y (fun k h => x3 (ix2 k h)) i h := by
  rw [val_main_v5_apply]
  exact (Finset.sum_congr rfl fun k _ => by
    rw [show lidx_main_v5 (ix2 i h) k = ix2 i k from by idx_ext2, show ridx_main_v5 (ix2 i h) k = ix2 k h from by idx_ext2, hY]).trans
    (zero_add _).symm

/-- Layer 1 before its normalisation is the specification's convolution of the node table times `W1`. -/
theorem pre1 (hd : ∀ i : Fin 150000, val_main_v12 (F := Ideal) x0 (ix1 i) = Data.dinv 𝔻 i)
    (hrow : ∀ e : Fin 2000000, 0 ≤ (x0 (ix2 (0 : Fin 2) e)).toInt ∧ (x0 (ix2 (0 : Fin 2) e)).toInt < 100000) (hcol : ∀ e : Fin 2000000, 100000 ≤ (x0 (ix2 (1 : Fin 2) e)).toInt ∧ (x0 (ix2 (1 : Fin 2) e)).toInt < 150000) (i : Fin 150000) (h : Fin 64) :
    val_main_v48 (F := Ideal) x0 x1 x2 x3 x4 (ix2 i h) = R.pre1 𝔻 i h :=
  (convArr_apply _ _ _ _ x4 _ _ _ _ (xw1 x1 x2 x3 (Data.x0 𝔻) (table_at x1 x2)) hd (row_word x0) (col_word x0)
    (fun e => (hrow e).1) (fun e => le_trans (by decide) (hcol e).1) i h).trans rfl

end Cert.ReferenceIdeal.RLayer1b

end
-- ==== Proof.RLayer23.lean ====
import proofs.«423179_j27462020891318_2_alg».proof.Proof.RShared

noncomputable section

open scoped BigOperators

namespace Cert.ReferenceIdeal.RLayer23

open Cert.ReferenceIdeal Cert.ReferenceIdeal.Gen Cert.ReferenceIdeal.Read Idealize.ShloMosaic Idealize.ShloMosaic.TcCoe
  Idealize.ShloMosaic.ValueIdx Cert.Spec Cert.ReferenceIdeal.RShared

variable (x0 : (⟨S2x2000000, .i32⟩ : BufTy).Contents (Elt Ideal)) (x1 : (⟨S100000x16, .f32⟩ : BufTy).Contents (Elt Ideal)) (x2 : (⟨S50000x16, .f32⟩ : BufTy).Contents (Elt Ideal))
  (x3 : (⟨S16x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal))
  (x7 : (⟨S64x64, .f32⟩ : BufTy).Contents (Elt Ideal)) (x8 x9 x10 x11 x12 : (⟨S64, .f32⟩ : BufTy).Contents (Elt Ideal)) (x13 : (⟨S32x64, .f32⟩ : BufTy).Contents (Elt Ideal))
  (x14 : (⟨S64, .f32⟩ : BufTy).Contents (Elt Ideal)) (x15 : (⟨S64x1, .f32⟩ : BufTy).Contents (Elt Ideal)) (x16 : (⟨S1, .f32⟩ : BufTy).Contents (Elt Ideal))

local notation "𝔻" => (Cert.Spec.dataOf x0 x1 x2 x3 x4 x5 x6 x7 x8 x9 x10 x11 x12 x13 x14 x15 x16)

/-- `y · W` at entry `(i, h)` is the contraction of row `i` of the previous table with column `h` of the weights. -/
theorem xw2 (Y : Fin 150000 → Fin 64 → EReal) (hY : ∀ i k, val_main_v74 (F := Ideal) x0 x1 x2 x3 x4 x9 x10 (ix2 i k) = Y i k) (i : Fin 150000) (h : Fin 64) :
    val_main_v75 (F := Ideal) x0 x1 x2 x3 x4 x5 x9 x10 (ix2 i h) = R.lin Y (fun k h => x5 (ix2 k h)) i h := by
  rw [val_main_v75_apply]
  exact (Finset.sum_congr rfl fun k _ => by
    rw [show lidx_main_v75 (ix2 i h) k = ix2 i k from by idx_ext2, show ridx_main_v75 (ix2 i h) k = ix2 k h from by idx_ext2, hY]).trans
    (zero_add _).symm

theorem xw3 (Y : Fin 150000 → Fin 64 → EReal) (hY : ∀ i k, val_main_v144 (F := Ideal) x0 x1 x2 x3 x4 x5 x6 x9 x10 x11 x12 (ix2 i k) = Y i k) (i : Fin 150000) (h : Fin 64) :
    val_main_v145 (F := Ideal) x0 x1 x2 x3 x4 x5 x6 x7 x9 x10 x11 x12 (ix2 i h) = R.lin Y (fun k h => x7 (ix2 k h)) i h := by
  rw [val_main_v145_apply]
  exact (Finset.sum_congr rfl fun k _ => by
    rw [show lidx_main_v145 (ix2 i h) k = ix2 i k from by idx_ext2, show ridx_main_v145 (ix2 i h) k = ix2 k h from by idx_ext2, hY]).trans
    (zero_add _).symm

/-- Layer 2 before its normalisation is the specification's convolution of `Y · W2`. -/
theorem pre2 (Y : Fin 150000 → Fin 64 → EReal)
    (hY : ∀ i k, val_main_v74 (F := Ideal) x0 x1 x2 x3 x4 x9 x10 (ix2 i k) = Y i k)
    (hd : ∀ i : Fin 150000, val_main_v82 (F := Ideal) x0 (ix1 i) = Data.dinv 𝔻 i)
    (hrow : ∀ e : Fin 2000000, 0 ≤ (x0 (ix2 (0 : Fin 2) e)).toInt ∧ (x0 (ix2 (0 : Fin 2) e)).toInt < 100000) (hcol : ∀ e : Fin 2000000, 100000 ≤ (x0 (ix2 (1 : Fin 2) e)).toInt ∧ (x0 (ix2 (1 : Fin 2) e)).toInt < 150000) (i : Fin 150000) (h : Fin 64) :
    val_main_v118 (F := Ideal) x0 x1 x2 x3 x4 x5 x6 x9 x10 (ix2 i h) = R.conv 𝔻 (R.lin Y (Data.W2 𝔻)) (Data.b2 𝔻) i h :=
  (convArr_apply _ _ _ _ x6 _ _ _ _ (xw2 x0 x1 x2 x3 x4 x5 x9 x10 Y hY) hd (row_word x0) (col_word x0)
    (fun e => (hrow e).1) (fun e => le_trans (by decide) (hcol e).1) i h).trans rfl

/-- Layer 2's result: the batch normalisation with `g2`, `be2`, then the rectifier. -/
theorem y2 (P : Fin 150000 → Fin 64 → EReal) (hP : ∀ i h, val_main_v118 (F := Ideal) x0 x1 x2 x3 x4 x5 x6 x9 x10 (ix2 i h) = P i h) (i : Fin 150000) (h : Fin 64) :
    val_main_v144 (F := Ideal) x0 x1 x2 x3 x4 x5 x6 x9 x10 x11 x12 (ix2 i h) = bnRelu 𝔻 P (Data.g2 𝔻) (Data.be2 𝔻) i h :=
  bnArr_apply 𝔻 rfl rfl _ x11 x12 P hP i h

/-- Layer 3 before its rectifier is the specification's convolution of `Y · W3`. -/
theorem pre3 (Y : Fin 150000 → Fin 64 → EReal)
    (hY : ∀ i k, val_main_v144 (F := Ideal) x0 x1 x2 x3 x4 x5 x6 x9 x10 x11 x12 (ix2 i k) = Y i k)
    (hd : ∀ i : Fin 150000, val_main_v152 (F := Ideal) x0 (ix1 i) = Data.dinv 𝔻 i)
    (hrow : ∀ e : Fin 2000000, 0 ≤ (x0 (ix2 (0 : Fin 2) e)).toInt ∧ (x0 (ix2 (0 : Fin 2) e)).toInt < 100000) (hcol : ∀ e : Fin 2000000, 100000 ≤ (x0 (ix2 (1 : Fin 2) e)).toInt ∧ (x0 (ix2 (1 : Fin 2) e)).toInt < 150000) (i : Fin 150000) (h : Fin 64) :
    val_main_v188 (F := Ideal) x0 x1 x2 x3 x4 x5 x6 x7 x8 x9 x10 x11 x12 (ix2 i h) = R.conv 𝔻 (R.lin Y (Data.W3 𝔻)) (Data.b3 𝔻) i h :=
  (convArr_apply _ _ _ _ x8 _ _ _ _ (xw3 x0 x1 x2 x3 x4 x5 x6 x7 x9 x10 x11 x12 Y hY) hd (row_word x0) (col_word x0)
    (fun e => (hrow e).1) (fun e => le_trans (by decide) (hcol e).1) i h).trans rfl

/-- The node result: the rectifier on layer 3. -/
theorem xout (P : Fin 150000 → Fin 64 → EReal)
    (hP : ∀ i h, val_main_v188 (F := Ideal) x0 x1 x2 x3 x4 x5 x6 x7 x8 x9 x10 x11 x12 (ix2 i h) = P i h) (i : Fin 150000) (h : Fin 64) :
    val_main_v189 (F := Ideal) x0 x1 x2 x3 x4 x5 x6 x7 x8 x9 x10 x11 x12 (ix2 i h) = max (P i h) 0 := by
  rw [val_main_v189_apply, val_main_call2_v0_apply, val_main_call2_cst_apply, hP]
  simp only [Ideal.maximumf_def, Ideal.ofBits_def, Ideal.ofBits_zero_f32]

end Cert.ReferenceIdeal.RLayer23

end
-- ==== Proof.RMlp.lean ====
import proofs.«423179_j27462020891318_2_alg».proof.Proof.RShared

noncomputable section

open scoped BigOperators

namespace Cert.ReferenceIdeal.RMlp

open Cert.ReferenceIdeal Cert.ReferenceIdeal.Gen Cert.ReferenceIdeal.Read Idealize.ShloMosaic Idealize.ShloMosaic.TcCoe
  Idealize.ShloMosaic.ValueIdx Cert.Spec Cert.ReferenceIdeal.RShared

/-- A target word in [100000, 150000) less 100000 is not negative: the difference stays inside the signed range. -/
theorem sub_nonneg_of_range (c : BitVec 32) (h1 : 100000 ≤ c.toInt) (h2 : c.toInt < 150000) :
    0 ≤ (IntOp.subi c 100000#32).toInt := by
  show 0 ≤ (c - 100000#32).toInt
  rw [BitVec.toInt_sub, show (100000#32 : BitVec 32).toInt = 100000 by decide,
    Int.bmod_eq_of_le (by omega) (by omega)]
  omega

/-- A row of a 16-wide table gathered at a start word `q`: the row whose number is `q` read signed and clamped into the table. -/
theorem gather16_apply {N : Nat} (hN : 0 < N)
    (wf : GatherDims.WF ⟨2, ![N, 16]⟩ ⟨2, ![2000000, 1]⟩ ⟨2, ![2000000, 16]⟩ [1] [0] [] [0] [] 1 ![1, 16])
    (t : (⟨2, ![N, 16]⟩ : Shape).Idx → EReal) (idx : IVec ⟨2, ![2000000, 1]⟩ 32) (e : Fin 2000000) (k : Fin 16) (q : BitVec 32)
    (hq : idx (ix2 e (0 : Fin 1)) = q) :
    Host.gather (GatherRow.dims N 16 2000000 wf) t idx (ix2 e k)
      = t (ix2 (⟨min q.toInt.toNat (N - 1), by omega⟩ : Fin N) k) := by
  subst hq
  exact GatherRow.gather_row_apply hN wf t idx (ix2 e k)

/-- Two 16-wide rows side by side: column `k` is the first row's below 16 and the second's column `k − 16` from there on. -/
theorem cat_apply (a b : (⟨S2000000x16, .f32⟩ : BufTy).Contents (Elt Ideal)) (e : Fin 2000000) (k : Fin 32) :
    concatenate S2000000x32 1 [⟨S2000000x16, a⟩, ⟨S2000000x16, b⟩]
        concatenates_S2000000x16_S2000000x16_S2000000x32_d1 (ix2 e k)
      = if h : k.val < 16 then a (ix2 e (⟨k.val, h⟩ : Fin 16)) else b (ix2 e (⟨k.val - 16, by omega⟩ : Fin 16)) := by
  by_cases h : k.val < 16
  · rw [dif_pos h]
    exact concatenate_pair_apply_left 1 a b _ (ix2 e k) rfl (ix2 e (⟨k.val, h⟩ : Fin 16))
      (fun c => by match c with | ⟨0, _⟩ => rfl | ⟨1, _⟩ => rfl)
  · rw [dif_neg h]
    exact concatenate_pair_apply_right 1 a b _ (ix2 e k) rfl rfl (ix2 e (⟨k.val - 16, by omega⟩ : Fin 16))
      (fun c hc => by match c with | ⟨0, _⟩ => rfl | ⟨1, _⟩ => exact absurd rfl hc)
      (by show k.val - 16 + 16 = k.val; omega)

variable (x0 : (⟨S2x2000000, .i32⟩ : BufTy).Contents (Elt Ideal))
  (x1 : (⟨S100000x16, .f32⟩ : BufTy).Contents (Elt Ideal)) (x2 : (⟨S50000x16, .f32⟩ : BufTy).Contents (Elt Ideal))
  (x3 : (⟨S16x64, .f32⟩ : BufTy).Contents (Elt Ideal)) (x4 : (⟨S64, .f32⟩ : BufTy).Contents (Elt Ideal))
  (x5 : (⟨S64x64, .f32⟩ : BufTy).Contents (Elt Ideal)) (x6 : (⟨S64, .f32⟩ : BufTy).Contents (Elt Ideal))
  (x7 : (⟨S64x64, .f32⟩ : BufTy).Contents (Elt Ideal)) (x8 x9 x10 x11 x12 : (⟨S64, .f32⟩ : BufTy).Contents (Elt Ideal))
  (x13 : (⟨S32x64, .f32⟩ : BufTy).Contents (Elt Ideal)) (x14 : (⟨S64, .f32⟩ : BufTy).Contents (Elt Ideal))
  (x15 : (⟨S64x1, .f32⟩ : BufTy).Contents (Elt Ideal)) (x16 : (⟨S1, .f32⟩ : BufTy).Contents (Elt Ideal))
  (hrow : ∀ e : Fin 2000000, 0 ≤ (x0 (ix2 (0 : Fin 2) e)).toInt ∧ (x0 (ix2 (0 : Fin 2) e)).toInt < 100000)
  (hcol : ∀ e : Fin 2000000, 100000 ≤ (x0 (ix2 (1 : Fin 2) e)).toInt ∧ (x0 (ix2 (1 : Fin 2) e)).toInt < 150000)

include hrow hcol

omit hcol in
/-- The gathered user rows are the specification's source embeddings: a source word is not negative. -/
theorem ue_eq (e : Fin 2000000) (k : Fin 16) :
    val_main_v196 (F := Ideal) x0 x1 (ix2 e k) = (dataOf x0 x1 x2 x3 x4 x5 x6 x7 x8 x9 x10 x11 x12 x13 x14 x15 x16).ue e k := by
  unfold val_main_v196
  exact gather16_apply (by decide) gather_S100000x16_S2000000x1_S2000000x16_1_0_n_n_0_1_116_wf x1 _ e k _
    (wrapCol_apply 100000#32 (val_main_v1 (F := Ideal) x0) e _ (row_word x0 e) (hrow e).1)

omit hrow in
/-- The gathered item rows are the specification's target embeddings: a target word less 100000 is not negative. -/
theorem ie_eq (e : Fin 2000000) (k : Fin 16) :
    val_main_v205 (F := Ideal) x0 x2 (ix2 e k) = (dataOf x0 x1 x2 x3 x4 x5 x6 x7 x8 x9 x10 x11 x12 x13 x14 x15 x16).ie e k := by
  have hw : val_main_v198 (F := Ideal) x0 (ix1 e) = x0 (ix2 (1 : Fin 2) e) - 100000#32 := by
    rw [val_main_v198_apply, val_main_v197_apply, val_main_c_40_apply, col_word]
    rfl
  unfold val_main_v205
  exact gather16_apply (by decide) gather_S50000x16_S2000000x1_S2000000x16_1_0_n_n_0_1_116_wf x2 _ e k _
    (wrapCol_apply 50000#32 (val_main_v198 (F := Ideal) x0) e _ hw (sub_nonneg_of_range _ (hcol e).1 (hcol e).2))

/-- The joined 32-wide row is the specification's. -/
theorem cat_eq (e : Fin 2000000) (k : Fin 32) :
    val_main_v206 (F := Ideal) x0 x1 x2 (ix2 e k) = R.cat (dataOf x0 x1 x2 x3 x4 x5 x6 x7 x8 x9 x10 x11 x12 x13 x14 x15 x16) e k := by
  unfold val_main_v206
  rw [cat_apply]
  unfold R.cat
  by_cases h : k.val < 16
  · rw [dif_pos h, dif_pos h]
    exact ue_eq x0 x1 x2 x3 x4 x5 x6 x7 x8 x9 x10 x11 x12 x13 x14 x15 x16 hrow e ⟨k.val, h⟩
  · rw [dif_neg h, dif_neg h]
    exact ie_eq x0 x1 x2 x3 x4 x5 x6 x7 x8 x9 x10 x11 x12 x13 x14 x15 x16 hcol e ⟨k.val - 16, by omega⟩

/-- The rectified first layer is the specification's hidden row. -/
theorem hid_eq (e : Fin 2000000) (h : Fin 64) :
    val_main_v211 (F := Ideal) x0 x1 x2 x13 x14 (ix2 e h) = R.hid (dataOf x0 x1 x2 x3 x4 x5 x6 x7 x8 x9 x10 x11 x12 x13 x14 x15 x16) e h := by
  have hl : ∀ k : Fin 32, lidx_main_v207 (ix2 e h) k = ix2 e k := fun k => by idx_ext2
  have hr : ∀ k : Fin 32, ridx_main_v207 (ix2 e h) k = ix2 k h := fun k => by idx_ext2
  rw [val_main_v211_apply, val_main_v210_apply, val_main_v207_apply, val_main_v209_apply, val_main_v208_apply,
    val_main_call3_v0_apply, val_main_call3_cst_apply, show idx_main_v208 (idx_main_v209 (ix2 e h)) = ix1 h from by idx_ext]
  simp only [hl, hr, cat_eq x0 x1 x2 x3 x4 x5 x6 x7 x8 x9 x10 x11 x12 x13 x14 x15 x16 hrow hcol,
    Ideal.maximumf_def, Ideal.addf_def, Ideal.ofBits_def, Ideal.ofBits_zero_f32]
  unfold R.hid
  rw [zero_add]
  rfl

/-- The reference's prediction for edge `e` is the specification's. -/
theorem pred (e : Fin 2000000) :
    val_main_v221 (F := Ideal) x0 x1 x2 x13 x14 x15 x16 (ix2 e (0 : Fin 1))
      = R.pred (dataOf x0 x1 x2 x3 x4 x5 x6 x7 x8 x9 x10 x11 x12 x13 x14 x15 x16) e := by
  have hl : ∀ k : Fin 64, lidx_main_v212 (ix2 e (0 : Fin 1)) k = ix2 e k := fun k => by idx_ext2
  have hr : ∀ k : Fin 64, ridx_main_v212 (ix2 e (0 : Fin 1)) k = ix2 k (0 : Fin 1) := fun k => by idx_ext2
  rw [val_main_v221_apply, val_main_v220_apply, val_main_cst_44_apply, val_main_v219_apply, val_main_v218_apply,
    val_main_cst_43_apply, val_main_v217_apply, val_main_v216_apply, val_main_v215_apply, val_main_v212_apply,
    val_main_v214_apply, val_main_v213_apply,
    show idx_main_v213 (idx_main_v214 (ix2 e (0 : Fin 1))) = ix1 (0 : Fin 1) from by idx_ext]
  simp only [hl, hr, hid_eq x0 x1 x2 x3 x4 x5 x6 x7 x8 x9 x10 x11 x12 x13 x14 x15 x16 hrow hcol,
    Ideal.hostDivf_def, Ideal.addf_def, Ideal.hostUnary_exp_def, Ideal.hostNegf_def, Ideal.negf_def,
    Ideal.ofBits_def, Ideal.ofBits_one_f32]
  unfold R.pred Ideal.logistic
  rw [zero_add]
  rfl

end Cert.ReferenceIdeal.RMlp

end
-- ==== Proof.RDinv.lean ====
import proofs.«423179_j27462020891318_2_alg».proof.Proof.RShared
import proofs.«423179_j27462020891318_2_alg».proof.Proof.LibScatterVec

noncomputable section

open scoped BigOperators

namespace Cert.ReferenceIdeal.RDinv

open Cert.ReferenceIdeal Cert.ReferenceIdeal.Gen Cert.ReferenceIdeal.Read Idealize.ShloMosaic Idealize.ShloMosaic.TcCoe
  Idealize.ShloMosaic.ValueIdx Cert.Spec Cert.ReferenceIdeal.RShared

variable (x0 : (⟨S2x2000000, .i32⟩ : BufTy).Contents (Elt Ideal))

/-- Ones scattered from zero at the targets' words, one more for the node's own loop: a word outside the nodes counts at no node. -/
theorem deg_rsqrt (zero : (⟨S150000, .f32⟩ : BufTy).Contents (Elt Ideal))
    (col : (⟨S2000000x1, .i32⟩ : BufTy).Contents (Elt Ideal)) (ones : (⟨S2000000, .f32⟩ : BufTy).Contents (Elt Ideal))
    (one : (⟨S150000, .f32⟩ : BufTy).Contents (Elt Ideal))
    (hz : ∀ i, zero i = Ideal.ofBits .f32 0x00000000#32)
    (hc : ∀ e : Fin 2000000, col (ix2 e (0 : Fin 1)) = x0 (ix2 (1 : Fin 2) e))
    (hs : ∀ e, ones e = Ideal.ofBits .f32 0x3F800000#32)
    (ho : ∀ i, one i = Ideal.ofBits .f32 0x3F800000#32) (i : Fin 150000) :
    Host.rsqrt (F := Ideal) (φ := .f32) (addf (F := Ideal) (φ := .f32)
        (Host.scatterAdd (F := Ideal) (φ := .f32) scatter_S150000_S2000000x1_S2000000_n_0_0_1 zero col ones) one) (ix1 i)
      = Ideal.rsqrt ((0 + ∑ e : Fin 2000000,
          if (x0 (ix2 (1 : Fin 2) e)).toInt = ((i.val : ℕ) : ℤ) then (1 : EReal) else 0) + 1) := by
  show Ideal.rsqrt (Ideal.hostScatterAdd
      (ScatterVec.vecDims 150000 2000000 Facts₀.scatter_S150000_S2000000x1_S2000000_n_0_0_1_wf) zero col ones (ix1 i)
      + one (ix1 i)) = _
  rw [ScatterVec.hostScatterAdd_vec, hz, ho, Ideal.ofBits_zero_f32, Ideal.ofBits_one_f32]
  refine congrArg (fun t : EReal => Ideal.rsqrt ((0 + t) + 1)) (Finset.sum_congr rfl fun e _ => ?_)
  rw [hc, hs, Ideal.ofBits_one_f32]

theorem dinv12 (i : Fin 150000) :
    val_main_v12 (F := Ideal) x0 (ix1 i)
      = Ideal.rsqrt ((0 + ∑ e : Fin 2000000,
          if (x0 (ix2 (1 : Fin 2) e)).toInt = ((i.val : ℕ) : ℤ) then (1 : EReal) else 0) + 1) :=
  deg_rsqrt x0 (val_main_v7 (F := Ideal)) (val_main_v8 (F := Ideal) x0) (val_main_v6 (F := Ideal)) (val_main_v10 (F := Ideal))
    (fun j => by rw [val_main_v7_apply, val_main_cst_0_apply]; rfl)
    (fun e => (col_apply _ e).trans (col_word x0 e))
    (fun j => by rw [val_main_v6_apply, val_main_cst_apply]; rfl)
    (fun j => by rw [val_main_v10_apply, val_main_cst_1_apply]; rfl) i

theorem dinv82 (i : Fin 150000) :
    val_main_v82 (F := Ideal) x0 (ix1 i)
      = Ideal.rsqrt ((0 + ∑ e : Fin 2000000,
          if (x0 (ix2 (1 : Fin 2) e)).toInt = ((i.val : ℕ) : ℤ) then (1 : EReal) else 0) + 1) :=
  deg_rsqrt x0 (val_main_v77 (F := Ideal)) (val_main_v78 (F := Ideal) x0) (val_main_v76 (F := Ideal)) (val_main_v80 (F := Ideal))
    (fun j => by rw [val_main_v77_apply, val_main_cst_14_apply]; rfl)
    (fun e => (col_apply _ e).trans (col_word x0 e))
    (fun j => by rw [val_main_v76_apply, val_main_cst_13_apply]; rfl)
    (fun j => by rw [val_main_v80_apply, val_main_cst_15_apply]; rfl) i

theorem dinv152 (i : Fin 150000) :
    val_main_v152 (F := Ideal) x0 (ix1 i)
      = Ideal.rsqrt ((0 + ∑ e : Fin 2000000,
          if (x0 (ix2 (1 : Fin 2) e)).toInt = ((i.val : ℕ) : ℤ) then (1 : EReal) else 0) + 1) :=
  deg_rsqrt x0 (val_main_v147 (F := Ideal)) (val_main_v148 (F := Ideal) x0) (val_main_v146 (F := Ideal)) (val_main_v150 (F := Ideal))
    (fun j => by rw [val_main_v147_apply, val_main_cst_29_apply]; rfl)
    (fun e => (col_apply _ e).trans (col_word x0 e))
    (fun j => by rw [val_main_v146_apply, val_main_cst_28_apply]; rfl)
    (fun j => by rw [val_main_v150_apply, val_main_cst_30_apply]; rfl) i

end Cert.ReferenceIdeal.RDinv

end
-- ==== Proof.RChain.lean ====
import proofs.«423179_j27462020891318_2_alg».proof.Proof.RefRead
import proofs.«423179_j27462020891318_2_alg».proof.Proof.SpecData
import proofs.«423179_j27462020891318_2_alg».proof.Proof.RLayer1
import proofs.«423179_j27462020891318_2_alg».proof.Proof.RLayer1b
import proofs.«423179_j27462020891318_2_alg».proof.Proof.RLayer23
import proofs.«423179_j27462020891318_2_alg».proof.Proof.RMlp
import proofs.«423179_j27462020891318_2_alg».proof.Proof.RDinv

noncomputable section

namespace Cert.ReferenceIdeal.RChain

open Cert.ReferenceIdeal Cert.ReferenceIdeal.Gen Cert.ReferenceIdeal.Read Idealize.ShloMosaic Idealize.ShloMosaic.TcCoe
open Idealize.ShloMosaic.ValueIdx Cert.Spec

variable (x0 : (⟨S2x2000000, .i32⟩ : BufTy).Contents (Elt Ideal)) (x1 : (⟨S100000x16, .f32⟩ : BufTy).Contents (Elt Ideal)) (x2 : (⟨S50000x16, .f32⟩ : BufTy).Contents (Elt Ideal))
  (x3 : (⟨S16x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal))
  (x7 : (⟨S64x64, .f32⟩ : BufTy).Contents (Elt Ideal)) (x8 x9 x10 x11 x12 : (⟨S64, .f32⟩ : BufTy).Contents (Elt Ideal)) (x13 : (⟨S32x64, .f32⟩ : BufTy).Contents (Elt Ideal))
  (x14 : (⟨S64, .f32⟩ : BufTy).Contents (Elt Ideal)) (x15 : (⟨S64x1, .f32⟩ : BufTy).Contents (Elt Ideal)) (x16 : (⟨S1, .f32⟩ : BufTy).Contents (Elt Ideal))

local notation "𝔻" => Cert.Spec.dataOf x0 x1 x2 x3 x4 x5 x6 x7 x8 x9 x10 x11 x12 x13 x14 x15 x16

theorem xout_val
    (hrow : ∀ e : Fin 2000000, 0 ≤ (x0 (ix2 (0 : Fin 2) e)).toInt ∧ (x0 (ix2 (0 : Fin 2) e)).toInt < 100000)
    (hcol : ∀ e : Fin 2000000, 100000 ≤ (x0 (ix2 (1 : Fin 2) e)).toInt ∧ (x0 (ix2 (1 : Fin 2) e)).toInt < 150000)
    (i : Fin 150000) (h : Fin 64) :
    val_main_v189 (F := Ideal) x0 x1 x2 x3 x4 x5 x6 x7 x8 x9 x10 x11 x12 (ix2 i h) = R.xout 𝔻 i h := by
  have hd1 : ∀ i : Fin 150000, val_main_v12 (F := Ideal) x0 (ix1 i) = (𝔻).dinv i := fun i => by
    have hv := RDinv.dinv12 (x0 := x0) i
    dsimp only [dataOf]
    exact hv
  have hd2 : ∀ i : Fin 150000, val_main_v82 (F := Ideal) x0 (ix1 i) = (𝔻).dinv i := fun i => by
    have hv := RDinv.dinv82 (x0 := x0) i
    dsimp only [dataOf]
    exact hv
  have hd3 : ∀ i : Fin 150000, val_main_v152 (F := Ideal) x0 (ix1 i) = (𝔻).dinv i := fun i => by
    have hv := RDinv.dinv152 (x0 := x0) i
    dsimp only [dataOf]
    exact hv
  have hP1 : ∀ (i : Fin 150000) (h : Fin 64),
      val_main_v48 (F := Ideal) x0 x1 x2 x3 x4 (ix2 i h) = R.pre1 𝔻 i h :=
    fun i h => RLayer1b.pre1 (x0 := x0) (x1 := x1) (x2 := x2) (x3 := x3) (x4 := x4) (x5 := x5)
      (x6 := x6) (x7 := x7) (x8 := x8) (x9 := x9) (x10 := x10) (x11 := x11) (x12 := x12) (x13 := x13) (x14 := x14)
      (x15 := x15) (x16 := x16) hd1 hrow hcol i h
  have hY1 : ∀ (i : Fin 150000) (k : Fin 64),
      val_main_v74 (F := Ideal) x0 x1 x2 x3 x4 x9 x10 (ix2 i k) = R.y1 𝔻 i k :=
    fun i k => RLayer1.y1 (x0 := x0) (x1 := x1) (x2 := x2) (x3 := x3) (x4 := x4) (x5 := x5)
      (x6 := x6) (x7 := x7) (x8 := x8) (x9 := x9) (x10 := x10) (x11 := x11) (x12 := x12) (x13 := x13) (x14 := x14)
      (x15 := x15) (x16 := x16) (R.pre1 𝔻) hP1 i k
  have hP2 : ∀ (i : Fin 150000) (h : Fin 64),
      val_main_v118 (F := Ideal) x0 x1 x2 x3 x4 x5 x6 x9 x10 (ix2 i h) = R.pre2 𝔻 i h :=
    fun i h => RLayer23.pre2 (x0 := x0) (x1 := x1) (x2 := x2) (x3 := x3) (x4 := x4) (x5 := x5)
      (x6 := x6) (x7 := x7) (x8 := x8) (x9 := x9) (x10 := x10) (x11 := x11) (x12 := x12) (x13 := x13) (x14 := x14)
      (x15 := x15) (x16 := x16) (R.y1 𝔻) hY1 hd2 hrow hcol i h
  have hY2 : ∀ (i : Fin 150000) (k : Fin 64),
      val_main_v144 (F := Ideal) x0 x1 x2 x3 x4 x5 x6 x9 x10 x11 x12 (ix2 i k) = R.y2 𝔻 i k :=
    fun i k => RLayer23.y2 (x0 := x0) (x1 := x1) (x2 := x2) (x3 := x3) (x4 := x4) (x5 := x5)
      (x6 := x6) (x7 := x7) (x8 := x8) (x9 := x9) (x10 := x10) (x11 := x11) (x12 := x12) (x13 := x13) (x14 := x14)
      (x15 := x15) (x16 := x16) (R.pre2 𝔻) hP2 i k
  have hP3 : ∀ (i : Fin 150000) (h : Fin 64),
      val_main_v188 (F := Ideal) x0 x1 x2 x3 x4 x5 x6 x7 x8 x9 x10 x11 x12 (ix2 i h) = R.pre3 𝔻 i h :=
    fun i h => RLayer23.pre3 (x0 := x0) (x1 := x1) (x2 := x2) (x3 := x3) (x4 := x4) (x5 := x5)
      (x6 := x6) (x7 := x7) (x8 := x8) (x9 := x9) (x10 := x10) (x11 := x11) (x12 := x12) (x13 := x13) (x14 := x14)
      (x15 := x15) (x16 := x16) (R.y2 𝔻) hY2 hd3 hrow hcol i h
  exact RLayer23.xout (x0 := x0) (x1 := x1) (x2 := x2) (x3 := x3) (x4 := x4) (x5 := x5) (x6 := x6) (x7 := x7)
    (x8 := x8) (x9 := x9) (x10 := x10) (x11 := x11) (x12 := x12) (R.pre3 𝔻) hP3 i h

theorem pred_val
    (hrow : ∀ e : Fin 2000000, 0 ≤ (x0 (ix2 (0 : Fin 2) e)).toInt ∧ (x0 (ix2 (0 : Fin 2) e)).toInt < 100000)
    (hcol : ∀ e : Fin 2000000, 100000 ≤ (x0 (ix2 (1 : Fin 2) e)).toInt ∧ (x0 (ix2 (1 : Fin 2) e)).toInt < 150000)
    (e : Fin 2000000) :
    val_main_v221 (F := Ideal) x0 x1 x2 x13 x14 x15 x16 (ix2 e (0 : Fin 1)) = R.pred 𝔻 e :=
  RMlp.pred (x0 := x0) (x1 := x1) (x2 := x2) (x3 := x3) (x4 := x4) (x5 := x5)
      (x6 := x6) (x7 := x7) (x8 := x8) (x9 := x9) (x10 := x10) (x11 := x11) (x12 := x12) (x13 := x13) (x14 := x14)
      (x15 := x15) (x16 := x16) hrow hcol e

end Cert.ReferenceIdeal.RChain

end
-- ==== Proof.MathBasic.lean ====
import proofs.«423179_j27462020891318_2_alg».proof.Proof.Spec
import proofs.«423179_j27462020891318_2_alg».proof.Proof.SpecData
import Mathlib.Data.EReal.Basic
import Mathlib.Data.EReal.Operations
import Mathlib.Data.EReal.Inv
import Mathlib.Algebra.BigOperators.Group.Finset.Basic
import Mathlib.Algebra.Order.BigOperators.Group.Finset
import Mathlib.Analysis.SpecialFunctions.Sqrt
import Mathlib.Tactic.Ring
import Mathlib.Tactic.NormNum
import Mathlib.Tactic.Positivity

noncomputable section

open scoped BigOperators

namespace Cert.Spec

open Idealize.ShloMosaic

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases max_choice x y with h | h
  · rw [h]; exact hx
  · rw [h]; exact hy

theorem isReal_zero : IsReal 0 := ⟨0, EReal.coe_zero.symm⟩

theorem isReal_coe (r : ℝ) : IsReal (r : EReal) := ⟨r, rfl⟩

theorem coe_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem isReal_sum {ι : Type*} (s : Finset ι) (f : ι → EReal) (hf : ∀ i ∈ s, IsReal (f i)) :
    IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

variable (D : Data)

theorem agg_isReal (f : EE → EReal) (hf : ∀ e, IsReal (f e)) (i : NN) : IsReal (agg D f i) := by
  unfold agg
  refine isReal_zero.add (isReal_sum _ _ fun e _ => ?_)
  split_ifs
  · exact hf e
  · exact isReal_zero

theorem lin_isReal {A : Type} [Fintype A] (z : NN → A → EReal) (W : A → HH → EReal)
    (hz : ∀ i k, IsReal (z i k)) (hW : ∀ k h, IsReal (W k h)) (i : NN) (h : HH) : IsReal (R.lin z W i h) := by
  unfold R.lin
  exact isReal_zero.add (isReal_sum _ _ fun k _ => (hz i k).mul (hW k h))

private theorem div_cnt (hD : D.Real) (x : EReal) : Ideal.div x D.cnt = x * (((1 / 150000 : ℝ) : ℝ) : EReal) := by
  rw [hD.cnt, Ideal.div_coe (by norm_num)]

theorem mean_isReal (hD : D.Real) (p : NN → HH → EReal) (hp : ∀ i h, IsReal (p i h)) (h : HH) :
    IsReal (mean D p h) := by
  unfold mean
  rw [div_cnt D hD]
  exact (isReal_zero.add (isReal_sum _ _ fun i _ => hp i h)).mul (isReal_coe _)

theorem var_real_nonneg (hD : D.Real) (p : NN → HH → EReal) (hp : ∀ i h, IsReal (p i h)) (h : HH) :
    ∃ r : ℝ, 0 ≤ r ∧ var D p h = (r : EReal) := by
  obtain ⟨m, hm⟩ := mean_isReal D hD p hp h
  choose q hq using fun i => hp i h
  refine ⟨(∑ i : NN, (q i - m) * (q i - m)) * (1 / 150000), ?_, ?_⟩
  · exact mul_nonneg (Finset.sum_nonneg fun i _ => mul_self_nonneg _) (by norm_num)
  · unfold var
    have hs : (∑ i : NN, (p i h - (m : EReal)) * (p i h - (m : EReal)))
        = ∑ i : NN, (((q i - m) * (q i - m) : ℝ) : EReal) :=
      Finset.sum_congr rfl fun i _ => by rw [hq i, ← EReal.coe_sub, ← EReal.coe_mul]
    rw [div_cnt D hD, hm, zero_add, hs, coe_sum, ← EReal.coe_mul]

theorem bnRelu_isReal (hD : D.Real) (p : NN → HH → EReal) (hp : ∀ i h, IsReal (p i h)) (g be : HH → EReal)
    (hg : ∀ h, IsReal (g h)) (hbe : ∀ h, IsReal (be h)) (i : NN) (h : HH) : IsReal (bnRelu D p g be i h) := by
  obtain ⟨v, hv0, hv⟩ := var_real_nonneg D hD p hp h
  obtain ⟨e, he0, he⟩ := hD.eps
  have hpos : 0 < v + e := by linarith
  have hrs : IsReal (Ideal.rsqrt (var D p h + D.eps)) := by
    rw [hv, he, ← EReal.coe_add, Ideal.rsqrt_coe, if_neg (not_lt.mpr hpos.le), if_neg hpos.ne']
    exact isReal_coe _
  unfold bnRelu
  exact (((((hp i h).sub (mean_isReal D hD p hp h)).mul hrs).mul (hg h)).add (hbe h)).max isReal_zero

private theorem rsqrt_pos_isReal {r : ℝ} (hr : 0 < r) : IsReal (Ideal.rsqrt (r : EReal)) := by
  rw [Ideal.rsqrt_coe, if_neg (not_lt.mpr hr.le), if_neg hr.ne']
  exact isReal_coe _

private theorem count_real_nonneg {ι : Type*} (s : Finset ι) (c : ι → Prop) [DecidablePred c] :
    ∃ n : ℝ, 0 ≤ n ∧ (0 + ∑ e ∈ s, if c e then (1 : EReal) else 0) = (n : EReal) := by
  refine ⟨∑ e ∈ s, if c e then (1 : ℝ) else 0, Finset.sum_nonneg fun e _ => ?_, ?_⟩
  · split_ifs <;> norm_num
  · rw [zero_add, ← coe_sum]
    refine Finset.sum_congr rfl fun e _ => ?_
    split_ifs <;> simp

open Idealize.ShloMosaic.ValueIdx in

theorem dataOf_real
    (a0 : (⟨2, ![2, 2000000]⟩ : Shape).Idx → BitVec 32)
    (user : (⟨2, ![100000, 16]⟩ : Shape).Idx → EReal) (item : (⟨2, ![50000, 16]⟩ : Shape).Idx → EReal)
    (w1 : (⟨2, ![16, 64]⟩ : Shape).Idx → EReal) (b1 : (⟨1, ![64]⟩ : Shape).Idx → EReal)
    (w2 : (⟨2, ![64, 64]⟩ : Shape).Idx → EReal) (b2 : (⟨1, ![64]⟩ : Shape).Idx → EReal)
    (w3 : (⟨2, ![64, 64]⟩ : Shape).Idx → EReal) (b3 : (⟨1, ![64]⟩ : Shape).Idx → EReal)
    (g1 be1 g2 be2 : (⟨1, ![64]⟩ : Shape).Idx → EReal)
    (fw1 : (⟨2, ![32, 64]⟩ : Shape).Idx → EReal) (fb1 : (⟨1, ![64]⟩ : Shape).Idx → EReal)
    (fw2 : (⟨2, ![64, 1]⟩ : Shape).Idx → EReal) (fb2 : (⟨1, ![1]⟩ : Shape).Idx → EReal)
    (huser : ∀ j, IsReal (user j)) (hitem : ∀ j, IsReal (item j))
    (hw1 : ∀ j, IsReal (w1 j)) (hb1 : ∀ j, IsReal (b1 j))
    (hw2 : ∀ j, IsReal (w2 j)) (hb2 : ∀ j, IsReal (b2 j))
    (hw3 : ∀ j, IsReal (w3 j)) (hb3 : ∀ j, IsReal (b3 j))
    (hg1 : ∀ j, IsReal (g1 j)) (hbe1 : ∀ j, IsReal (be1 j))
    (hg2 : ∀ j, IsReal (g2 j)) (hbe2 : ∀ j, IsReal (be2 j))
    (hfw1 : ∀ j, IsReal (fw1 j)) (hfb1 : ∀ j, IsReal (fb1 j))
    (hfw2 : ∀ j, IsReal (fw2 j)) (hfb2 : ∀ j, IsReal (fb2 j))
    (hrow : ∀ e : EE, 0 ≤ (a0 (ValueIdx.ix2 (0 : Fin 2) e)).toInt ∧ (a0 (ValueIdx.ix2 (0 : Fin 2) e)).toInt < 100000)
    (hcol : ∀ e : EE, 100000 ≤ (a0 (ValueIdx.ix2 (1 : Fin 2) e)).toInt
      ∧ (a0 (ValueIdx.ix2 (1 : Fin 2) e)).toInt < 150000) :
    (dataOf a0 user item w1 b1 w2 b2 w3 b3 g1 be1 g2 be2 fw1 fb1 fw2 fb2).Real where
  x0 i d := by
    show IsReal (dite _ _ _)
    split
    · exact huser _
    · exact hitem _
  dinv i := by
    obtain ⟨n, hn0, hn⟩ := count_real_nonneg (Finset.univ : Finset EE)
      (fun e => (a0 (ix2 (1 : Fin 2) e)).toInt = ((i.val : ℕ) : ℤ))
    dsimp only [dataOf]
    rw [hn, ← EReal.coe_one, ← EReal.coe_add]
    exact rsqrt_pos_isReal (by linarith)
  ue e d := huser _
  ie e d := hitem _
  W1 d h := hw1 _
  b1 h := hb1 _
  W2 k h := hw2 _
  b2 h := hb2 _
  W3 k h := hw3 _
  b3 h := hb3 _
  g1 h := hg1 _
  be1 h := hbe1 _
  g2 h := hg2 _
  be2 h := hbe2 _
  fW1 k h := hfw1 _
  fb1 h := hfb1 _
  fW2 h := hfw2 _
  fb2 := hfb2 _
  eps := by
    show ∃ r : ℝ, 0 < r ∧ Ideal.ofBits .f32 0x3727C5AC#32 = (r : EReal)
    refine ⟨10995116 * (2 : ℝ) ^ (-40 : ℤ), by positivity, ?_⟩
    simp [Ideal.ofBits, Ideal.ieee, -EReal.coe_mul]
  cnt := by
    show Ideal.ofBits .f32 0x48127C00#32 = ((150000 : ℝ) : EReal)
    simp [Ideal.ofBits, Ideal.ieee, -EReal.coe_mul]
    norm_num
  col e := by
    obtain ⟨h1, h2⟩ := hcol e
    show (a0 (ix2 (1 : Fin 2) e)).toInt = ((min (a0 (ix2 (1 : Fin 2) e)).toInt.toNat 149999 : ℕ) : ℤ)
    omega

end Cert.Spec

end
-- ==== Proof.MathConv.lean ====
import proofs.«423179_j27462020891318_2_alg».proof.Proof.MathBasic
import Mathlib.Data.EReal.Basic
import Mathlib.Data.EReal.Operations
import Mathlib.Algebra.BigOperators.Fin
import Mathlib.Algebra.BigOperators.Ring.Finset
import Mathlib.Tactic.Ring

noncomputable section

open scoped BigOperators

namespace Cert.Spec

open Idealize.ShloMosaic

variable (D : Data)

private theorem cN_eq_of_colI (hD : D.Real) {e : EE} {i : NN} (hc : D.colI e = ((i.val : ℕ) : ℤ)) :
    D.cN e = i := by
  rw [hD.col e] at hc
  exact Fin.ext (by exact_mod_cast hc)

private theorem agg_real (f : EE → ℝ) (i : NN) :
    agg D (fun e => (f e : EReal)) i
      = ((∑ e : EE, if D.colI e = ((i.val : ℕ) : ℤ) then f e else 0 : ℝ) : EReal) := by
  unfold agg
  rw [zero_add, ← coe_sum]
  refine Finset.sum_congr rfl (fun e _ => ?_)
  split_ifs
  · rfl
  · exact EReal.coe_zero.symm

private theorem agg_col (hD : D.Real) (g : EE → NN → EReal) (i : NN) :
    agg D (fun e => g e (D.cN e)) i = agg D (fun e => g e i) i := by
  unfold agg
  refine congrArg (fun t : EReal => 0 + t) ?_
  refine Finset.sum_congr rfl (fun e _ => ?_)
  split_ifs with hc
  · show g e (D.cN e) = g e i
    rw [cN_eq_of_colI D hD hc]
  · rfl

theorem combine_scaled_eq_conv (hD : D.Real) (xw : NN → HH → EReal) (hxw : ∀ i h, IsReal (xw i h))
    (b : HH → EReal) :
    K.combine D (fun i h => xw i h * D.dinv i) b = R.conv D xw b := by
  choose x hx using hxw
  choose dv hdv using hD.dinv
  funext i h
  show (agg D (fun e => xw (D.rN e) h * D.dinv (D.rN e)) i + xw i h * D.dinv i) * D.dinv i + b h
      = (agg D (fun e => xw (D.rN e) h * (D.dinv (D.rN e) * D.dinv (D.cN e))) i
          + xw i h * (D.dinv i * D.dinv i)) + b h
  refine congrArg (fun t : EReal => t + b h) ?_
  rw [agg_col D hD (fun e j => xw (D.rN e) h * (D.dinv (D.rN e) * D.dinv j)) i]
  have h1 : (fun e => xw (D.rN e) h * D.dinv (D.rN e))
      = fun e => ((x (D.rN e) h * dv (D.rN e) : ℝ) : EReal) := by
    funext e; rw [hx, hdv, EReal.coe_mul]
  have h2 : (fun e => xw (D.rN e) h * (D.dinv (D.rN e) * D.dinv i))
      = fun e => ((x (D.rN e) h * (dv (D.rN e) * dv i) : ℝ) : EReal) := by
    funext e; rw [hx, hdv, hdv, EReal.coe_mul, EReal.coe_mul]
  rw [h1, h2, agg_real, agg_real, hx, hdv, ← EReal.coe_mul, ← EReal.coe_add, ← EReal.coe_mul,
    ← EReal.coe_mul, ← EReal.coe_mul, ← EReal.coe_add]
  refine congrArg (fun r : ℝ => (r : EReal)) ?_
  rw [add_mul, Finset.sum_mul]
  refine congrArg₂ (fun r t : ℝ => r + t) (Finset.sum_congr rfl (fun e _ => ?_)) (by ring)
  split_ifs
  · ring
  · ring

theorem conv_isReal (hD : D.Real) (xw : NN → HH → EReal) (hxw : ∀ i h, IsReal (xw i h)) (b : HH → EReal)
    (hb : ∀ h, IsReal (b h)) (i : NN) (h : HH) : IsReal (R.conv D xw b i h) := by
  choose x hx using hxw
  choose dv hdv using hD.dinv
  obtain ⟨bh, hbh⟩ := hb h
  show IsReal ((agg D (fun e => xw (D.rN e) h * (D.dinv (D.rN e) * D.dinv (D.cN e))) i
      + xw i h * (D.dinv i * D.dinv i)) + b h)
  have h1 : (fun e => xw (D.rN e) h * (D.dinv (D.rN e) * D.dinv (D.cN e)))
      = fun e => ((x (D.rN e) h * (dv (D.rN e) * dv (D.cN e)) : ℝ) : EReal) := by
    funext e; rw [hx, hdv, hdv, EReal.coe_mul, EReal.coe_mul]
  rw [h1, agg_real, hx, hdv, hbh, ← EReal.coe_mul, ← EReal.coe_mul, ← EReal.coe_add, ← EReal.coe_add]
  exact ⟨_, rfl⟩

private theorem lin_real {A : Type} [Fintype A] (z : NN → A → ℝ) (W : A → HH → ℝ) (i : NN) (h : HH) :
    R.lin (fun i k => (z i k : EReal)) (fun k h => (W k h : EReal)) i h
      = ((∑ k : A, z i k * W k h : ℝ) : EReal) := by
  unfold R.lin
  rw [zero_add, ← coe_sum]
  refine Finset.sum_congr rfl (fun k _ => ?_)
  exact (EReal.coe_mul _ _).symm

theorem pre1_eq (hD : D.Real) : K.pre1 D = R.pre1 D := by
  choose X hX using hD.x0
  choose dv hdv using hD.dinv
  choose W hW using hD.W1
  have hx0 : D.x0 = fun i d => (X i d : EReal) := funext fun i => funext fun d => hX i d
  have hW1 : D.W1 = fun d h => (W d h : EReal) := funext fun d => funext fun h => hW d h
  have hlin : ∀ i h, R.lin D.x0 D.W1 i h = ((∑ k : DD, X i k * W k h : ℝ) : EReal) := by
    intro i h; rw [hx0, hW1]; exact lin_real X W i h
  unfold R.pre1
  rw [← combine_scaled_eq_conv D hD (R.lin D.x0 D.W1) (fun i h => ⟨_, hlin i h⟩) D.b1]
  funext i h
  show (0 + ∑ d : DD, ((agg D (fun e => D.x0 (D.rN e) d * D.dinv (D.rN e)) i + D.x0 i d * D.dinv i)
        * D.dinv i) * D.W1 d h) + D.b1 h
      = (agg D (fun e => R.lin D.x0 D.W1 (D.rN e) h * D.dinv (D.rN e)) i
          + R.lin D.x0 D.W1 i h * D.dinv i) * D.dinv i + D.b1 h
  refine congrArg (fun t : EReal => t + D.b1 h) ?_

  have hA : ∀ d : DD, (fun e => D.x0 (D.rN e) d * D.dinv (D.rN e))
      = fun e => ((X (D.rN e) d * dv (D.rN e) : ℝ) : EReal) := by
    intro d; funext e; rw [hX, hdv, EReal.coe_mul]
  have hL : (fun e => R.lin D.x0 D.W1 (D.rN e) h * D.dinv (D.rN e))
      = fun e => (((∑ k : DD, X (D.rN e) k * W k h) * dv (D.rN e) : ℝ) : EReal) := by
    funext e; rw [hlin, hdv, EReal.coe_mul]
  have hterm : ∀ d : DD,
      ((agg D (fun e => D.x0 (D.rN e) d * D.dinv (D.rN e)) i + D.x0 i d * D.dinv i) * D.dinv i) * D.W1 d h
        = (((((∑ e : EE, if D.colI e = ((i.val : ℕ) : ℤ) then X (D.rN e) d * dv (D.rN e) else 0)
              + X i d * dv i) * dv i) * W d h : ℝ) : EReal) := by
    intro d
    rw [hA d, agg_real, hX, hdv, hW, ← EReal.coe_mul, ← EReal.coe_add, ← EReal.coe_mul, ← EReal.coe_mul]
  rw [Finset.sum_congr rfl (fun d _ => hterm d), coe_sum, zero_add, hL, agg_real, hlin, hdv,
    ← EReal.coe_mul, ← EReal.coe_add, ← EReal.coe_mul]
  refine congrArg (fun r : ℝ => (r : EReal)) ?_

  have key : (∑ d : DD, (∑ e : EE, if D.colI e = ((i.val : ℕ) : ℤ) then X (D.rN e) d * dv (D.rN e) else 0) * W d h)
      = ∑ e : EE, if D.colI e = ((i.val : ℕ) : ℤ) then (∑ k : DD, X (D.rN e) k * W k h) * dv (D.rN e) else 0 := by
    simp only [Finset.sum_mul]
    rw [Finset.sum_comm]
    refine Finset.sum_congr rfl (fun e _ => ?_)
    split_ifs
    · exact Finset.sum_congr rfl (fun k _ => by ring)
    · simp
  calc (∑ d : DD, (((∑ e : EE, if D.colI e = ((i.val : ℕ) : ℤ) then X (D.rN e) d * dv (D.rN e) else 0)
            + X i d * dv i) * dv i) * W d h)
      = ∑ d : DD, ((∑ e : EE, if D.colI e = ((i.val : ℕ) : ℤ) then X (D.rN e) d * dv (D.rN e) else 0) * W d h * dv i
            + X i d * W d h * (dv i * dv i)) := Finset.sum_congr rfl (fun d _ => by ring)
    _ = (∑ d : DD, (∑ e : EE, if D.colI e = ((i.val : ℕ) : ℤ) then X (D.rN e) d * dv (D.rN e) else 0) * W d h) * dv i
            + (∑ d : DD, X i d * W d h) * (dv i * dv i) := by
        rw [Finset.sum_add_distrib, Finset.sum_mul, Finset.sum_mul]
    _ = ((∑ e : EE, if D.colI e = ((i.val : ℕ) : ℤ) then (∑ k : DD, X (D.rN e) k * W k h) * dv (D.rN e) else 0)
            + (∑ k : DD, X i k * W k h) * dv i) * dv i := by
        rw [key]; ring

private theorem cat_castAdd (e : EE) (k : DD) : R.cat D e (Fin.castAdd 16 k) = D.ue e k := by
  have hk : (Fin.castAdd 16 k : Fin 32).val < 16 := k.isLt
  unfold R.cat
  rw [dif_pos hk]
  rfl

private theorem cat_natAdd (e : EE) (k : DD) : R.cat D e (Fin.natAdd 16 k) = D.ie e k := by
  have hk : ¬ (Fin.natAdd 16 k : Fin 32).val < 16 := by
    show ¬ (16 + k.val < 16)
    omega
  unfold R.cat
  rw [dif_neg hk]
  refine congrArg (fun j : DD => D.ie e j) (Fin.ext ?_)
  show 16 + k.val - 16 = k.val
  omega

private theorem hid_eq : K.hid D = R.hid D := by
  funext e h
  show max (((0 + ∑ k : DD, D.ue e k * D.fW1 (Fin.castAdd 16 k) h)
        + (0 + ∑ k : DD, D.ie e k * D.fW1 (Fin.natAdd 16 k) h)) + D.fb1 h) 0
      = max ((0 + ∑ k : Fin 32, R.cat D e k * D.fW1 k h) + D.fb1 h) 0
  have hsplit : (∑ k : Fin 32, R.cat D e k * D.fW1 k h)
      = (∑ k : DD, D.ue e k * D.fW1 (Fin.castAdd 16 k) h) + ∑ k : DD, D.ie e k * D.fW1 (Fin.natAdd 16 k) h := by
    rw [Fin.sum_univ_add (a := 16) (b := 16) (fun k : Fin 32 => R.cat D e k * D.fW1 k h)]
    simp only [cat_castAdd, cat_natAdd]
  rw [hsplit, zero_add, zero_add, zero_add]

theorem pred_eq : K.pred D = R.pred D := by
  funext e
  show Ideal.logistic ((0 + ∑ h : HH, K.hid D e h * D.fW2 h) + D.fb2)
      = Ideal.logistic ((0 + ∑ h : HH, R.hid D e h * D.fW2 h) + D.fb2)
  rw [hid_eq]

end Cert.Spec

end
-- ==== Proof.MathMain.lean ====
import proofs.«423179_j27462020891318_2_alg».proof.Proof.MathBasic
import proofs.«423179_j27462020891318_2_alg».proof.Proof.MathConv

noncomputable section

open scoped BigOperators

namespace Cert.Spec

open Idealize.ShloMosaic

variable (D : Data)

private theorem scaled_eq (y : NN → HH → EReal) (W : HH → HH → EReal) :
    K.scaled D y W = fun i h => R.lin y W i h * D.dinv i := rfl

private theorem pre1_isReal (hD : D.Real) (i : NN) (h : HH) : IsReal (R.pre1 D i h) :=
  conv_isReal D hD (R.lin D.x0 D.W1) (lin_isReal D.x0 D.W1 hD.x0 hD.W1) D.b1 hD.b1 i h

private theorem y1_eq (hD : D.Real) : K.y1 D = R.y1 D := by
  have h1 : K.y1 D = bnRelu D (K.pre1 D) D.g1 D.be1 := rfl
  rw [h1, pre1_eq D hD]
  rfl

private theorem y1_isReal (hD : D.Real) (i : NN) (h : HH) : IsReal (R.y1 D i h) :=
  bnRelu_isReal D hD (R.pre1 D) (pre1_isReal D hD) D.g1 D.be1 hD.g1 hD.be1 i h

private theorem pre2_eq (hD : D.Real) : K.pre2 D = R.pre2 D := by
  have h1 : K.pre2 D = K.combine D (K.scaled D (K.y1 D) D.W2) D.b2 := rfl
  rw [h1, scaled_eq, y1_eq D hD]
  exact combine_scaled_eq_conv D hD (R.lin (R.y1 D) D.W2)
    (lin_isReal (R.y1 D) D.W2 (y1_isReal D hD) hD.W2) D.b2

private theorem pre2_isReal (hD : D.Real) (i : NN) (h : HH) : IsReal (R.pre2 D i h) :=
  conv_isReal D hD (R.lin (R.y1 D) D.W2) (lin_isReal (R.y1 D) D.W2 (y1_isReal D hD) hD.W2) D.b2 hD.b2 i h

private theorem y2_eq (hD : D.Real) : K.y2 D = R.y2 D := by
  have h1 : K.y2 D = bnRelu D (K.pre2 D) D.g2 D.be2 := rfl
  rw [h1, pre2_eq D hD]
  rfl

private theorem y2_isReal (hD : D.Real) (i : NN) (h : HH) : IsReal (R.y2 D i h) :=
  bnRelu_isReal D hD (R.pre2 D) (pre2_isReal D hD) D.g2 D.be2 hD.g2 hD.be2 i h

private theorem pre3_eq (hD : D.Real) : K.pre3 D = R.pre3 D := by
  have h1 : K.pre3 D = K.combine D (K.scaled D (K.y2 D) D.W3) D.b3 := rfl
  rw [h1, scaled_eq, y2_eq D hD]
  exact combine_scaled_eq_conv D hD (R.lin (R.y2 D) D.W3)
    (lin_isReal (R.y2 D) D.W3 (y2_isReal D hD) hD.W3) D.b3

theorem xout_eq (hD : D.Real) : K.xout D = R.xout D := by
  funext i h
  have h1 : K.xout D i h = max (K.pre3 D i h) 0 := rfl
  rw [h1, pre3_eq D hD]
  rfl

end Cert.Spec

end
-- ==== Proof.PreDecode.lean ====
import proofs.«423179_j27462020891318_2_alg».proof.Defs
import proofs.«423179_j27462020891318_2_alg».proof.Pre_finite_inputs
import proofs.«423179_j27462020891318_2_alg».proof.Proof.Gen.Pre_finite_inputs
import proofs.«423179_j27462020891318_2_alg».proof.Proof.SpecData
import Idealize.ShloMosaic.Lib.ReduceAll
import Idealize.ShloMosaic.Lib.StableHlo.Predicate
import Idealize.ShloMosaic.Lib.ValueIdx
import Idealize.ShloMosaic.Lib.Pipeline.Value

noncomputable section

namespace Cert.Proof.PreDecode

open Idealize.ShloMosaic Idealize.ShloMosaic.ValueIdx Idealize.SL.Sem
open Cert.Pre_finite_inputs

instance scalarIdx_subsingleton : Subsingleton S_.Idx := ⟨fun a b => funext fun d => d.elim0⟩

theorem inf_bits : Ideal.ofBits .f32 0x7F800000#32 = (⊤ : EReal) := by
  simp [Ideal.ofBits, Ideal.ieee]

theorem isReal_of_abs_lt_top (x : EReal) (h : Ideal.cmp .olt (max x (-x)) ⊤ = 1#1) : Cert.Spec.IsReal x := by
  induction x using EReal.rec with
  | bot => simp [Ideal.cmp] at h
  | top => simp [Ideal.cmp] at h
  | coe r => exact ⟨r, rfl⟩

theorem toInt_zero : (0#32 : BitVec 32).toInt = 0 := by decide
theorem toInt_100000 : (100000#32 : BitVec 32).toInt = 100000 := by decide
theorem toInt_150000 : (150000#32 : BitVec 32).toInt = 150000 := by decide

theorem and_ix0 {x y : IVec S_ 1} (h : andi x y ix0 = 1#1) : x ix0 = 1#1 ∧ y ix0 = 1#1 := IntOp.andi_eq_one.1 h

theorem real_of_all {s : Shape} {axes : List (Fin s.rank)} (x : FVec Ideal s .f32)
    (hb : S_.BroadcastsInDim s (![] : Fin 0 → Fin s.rank)) (hr : s.ReducesTo axes S_) (h0 : 0 < S_.numel)
    (e : Host.reduce IntOp.andi
          (cmpf .olt (Host.absf x) (broadcastInDim s ![] hb (constant (F := Ideal) S_ .f32 0x7F800000#32)))
          (constantI S_ 1 1#1) hr h0 ix0 = 1#1)
    (j : s.Idx) : Cert.Spec.IsReal (x j) := by
  have e1 := Host.reduce_andi_all _ _ hr h0 ix0 e j
  rw [cmpf_apply, StableHlo.Predicate.bcast_scalar hb h0, constant_apply, inf_bits] at e1
  exact isReal_of_abs_lt_top _ e1

theorem range_of_all (a0 : IVec S2x2000000 32) (off0 : ℕ) (r : Fin 2) (hro : r.val = off0)
    (hs : S2x2000000.Slices ![off0, 0] S1x2000000)
    (hc : S1x2000000.ShapeCasts S2000000) (hb : S_.BroadcastsInDim S2000000 (![] : Fin 0 → Fin S2000000.rank))
    (hr : S2000000.ReducesTo [0] S_) (h0 : 0 < S_.numel) (lo hi : BitVec 32)
    (e : Host.reduce IntOp.andi
          (andi
            (cmpi .sge (shapeCast S2000000 (extractStridedSlice S1x2000000 ![off0, 0] a0 hs) hc)
              (broadcastInDim S2000000 ![] hb (constantI S_ 32 lo)))
            (cmpi .slt (shapeCast S2000000 (extractStridedSlice S1x2000000 ![off0, 0] a0 hs) hc)
              (broadcastInDim S2000000 ![] hb (constantI S_ 32 hi))))
          (constantI S_ 1 1#1) hr h0 ix0 = 1#1)
    (k : Fin 2000000) :
    lo.toInt ≤ (a0 (ix2 r k)).toInt ∧ (a0 (ix2 r k)).toInt < hi.toInt := by
  have e1 := Host.reduce_andi_all _ _ hr h0 ix0 e (ix1 k)

  have hread : shapeCast S2000000 (extractStridedSlice S1x2000000 ![off0, 0] a0 hs) hc (ix1 k) = a0 (ix2 r k) := by
    refine (shapeCast_apply _ hc (ix1 k) (ix2 (0 : Fin 1) k) ?_).trans ?_
    · rw [Shape.rowMajor_val_two, Shape.rowMajor_val_one]
      show (0 : ℕ) * 2000000 + k.val = k.val
      omega
    · refine extractStridedSlice_apply _ a0 hs _ (ix2 r k) ?_
      intro a
      match a with
      | ⟨0, _⟩ => show r.val = off0 + 0; omega
      | ⟨1, _⟩ => show k.val = 0 + k.val; omega
  obtain ⟨e2, e3⟩ := IntOp.andi_eq_one.1 e1
  change IntOp.cmpi .sge (shapeCast S2000000 (extractStridedSlice S1x2000000 ![off0, 0] a0 hs) hc (ix1 k))
      (broadcastInDim S2000000 ![] hb (constantI S_ 32 lo) (ix1 k)) = 1#1 at e2
  change IntOp.cmpi .slt (shapeCast S2000000 (extractStridedSlice S1x2000000 ![off0, 0] a0 hs) hc (ix1 k))
      (broadcastInDim S2000000 ![] hb (constantI S_ 32 hi) (ix1 k)) = 1#1 at e3
  rw [hread, StableHlo.Predicate.bcast_scalar hb h0] at e2 e3
  exact ⟨IntOp.cmpi_sge.1 e2, IntOp.cmpi_slt.1 e3⟩

theorem fn_decode [Facts] (a0 : IVec S2x2000000 32) (a1 : FVec Ideal S100000x16 .f32) (a2 : FVec Ideal S50000x16 .f32)
    (a3 : FVec Ideal S16x64 .f32) (a4 : FVec Ideal S64 .f32) (a5 : FVec Ideal S64x64 .f32) (a6 : FVec Ideal S64 .f32)
    (a7 : FVec Ideal S64x64 .f32) (a8 : FVec Ideal S64 .f32) (a9 : FVec Ideal S64 .f32) (a10 : FVec Ideal S64 .f32)
    (a11 : FVec Ideal S64 .f32) (a12 : FVec Ideal S64 .f32) (a13 : FVec Ideal S32x64 .f32) (a14 : FVec Ideal S64 .f32)
    (a15 : FVec Ideal S64x1 .f32) (a16 : FVec Ideal S1 .f32)
    (h : fn (F := Ideal) a0 a1 a2 a3 a4 a5 a6 a7 a8 a9 a10 a11 a12 a13 a14 a15 a16 = fun _ => 1#1) :
    (∀ j, Cert.Spec.IsReal (a1 j)) ∧ (∀ j, Cert.Spec.IsReal (a2 j)) ∧ (∀ j, Cert.Spec.IsReal (a3 j)) ∧
      (∀ j, Cert.Spec.IsReal (a4 j)) ∧ (∀ j, Cert.Spec.IsReal (a5 j)) ∧ (∀ j, Cert.Spec.IsReal (a6 j)) ∧
      (∀ j, Cert.Spec.IsReal (a7 j)) ∧ (∀ j, Cert.Spec.IsReal (a8 j)) ∧ (∀ j, Cert.Spec.IsReal (a9 j)) ∧
      (∀ j, Cert.Spec.IsReal (a10 j)) ∧ (∀ j, Cert.Spec.IsReal (a11 j)) ∧ (∀ j, Cert.Spec.IsReal (a12 j)) ∧
      (∀ j, Cert.Spec.IsReal (a13 j)) ∧ (∀ j, Cert.Spec.IsReal (a14 j)) ∧ (∀ j, Cert.Spec.IsReal (a15 j)) ∧
      (∀ j, Cert.Spec.IsReal (a16 j)) ∧
      (∀ k : Fin 2000000, 0 ≤ (a0 (ix2 (0 : Fin 2) k)).toInt ∧ (a0 (ix2 (0 : Fin 2) k)).toInt < 100000) ∧
      (∀ k : Fin 2000000, 100000 ≤ (a0 (ix2 (1 : Fin 2) k)).toInt ∧ (a0 (ix2 (1 : Fin 2) k)).toInt < 150000) := by
  have e := congrFun h ix0
  dsimp only [fn, fn_part1, fn_part2, fn_part3, fn_part4, fn_part5] at e
  obtain ⟨e, hcol⟩ := and_ix0 e
  obtain ⟨e, hrow⟩ := and_ix0 e
  obtain ⟨e, h16⟩ := and_ix0 e
  obtain ⟨e, h15⟩ := and_ix0 e
  obtain ⟨e, h14⟩ := and_ix0 e
  obtain ⟨e, h13⟩ := and_ix0 e
  obtain ⟨e, h12⟩ := and_ix0 e
  obtain ⟨e, h11⟩ := and_ix0 e
  obtain ⟨e, h10⟩ := and_ix0 e
  obtain ⟨e, h9⟩ := and_ix0 e
  obtain ⟨e, h8⟩ := and_ix0 e
  obtain ⟨e, h7⟩ := and_ix0 e
  obtain ⟨e, h6⟩ := and_ix0 e
  obtain ⟨e, h5⟩ := and_ix0 e
  obtain ⟨e, h4⟩ := and_ix0 e
  obtain ⟨e, h3⟩ := and_ix0 e
  obtain ⟨h1, h2⟩ := and_ix0 e
  refine ⟨real_of_all a1 _ _ _ h1, real_of_all a2 _ _ _ h2, real_of_all a3 _ _ _ h3, real_of_all a4 _ _ _ h4,
    real_of_all a5 _ _ _ h5, real_of_all a6 _ _ _ h6, real_of_all a7 _ _ _ h7, real_of_all a8 _ _ _ h8,
    real_of_all a9 _ _ _ h9, real_of_all a10 _ _ _ h10, real_of_all a11 _ _ _ h11, real_of_all a12 _ _ _ h12,
    real_of_all a13 _ _ _ h13, real_of_all a14 _ _ _ h14, real_of_all a15 _ _ _ h15, real_of_all a16 _ _ _ h16,
    fun k => ?_, fun k => ?_⟩
  · have hk := range_of_all a0 0 0 rfl _ _ _ _ _ _ _ hrow k
    rwa [toInt_zero, toInt_100000] at hk
  · have hk := range_of_all a0 1 1 rfl _ _ _ _ _ _ _ hcol k
    rwa [toInt_100000, toInt_150000] at hk

structure Decoded (m : (ℓ : Loc Cert.KernelIdeal.nD Cert.KernelIdeal.τ Cert.KernelIdeal.sig) → Buf (Elt Ideal) ℓ)
    (c : Dev Cert.KernelIdeal.nD) : Prop where
  real1 : ∀ j, Cert.Spec.IsReal (m ((c.tc : Thread Cert.KernelIdeal.nD Cert.KernelIdeal.τ).loc Cert.KernelIdeal.main_arg1) j)
  real2 : ∀ j, Cert.Spec.IsReal (m ((c.tc : Thread Cert.KernelIdeal.nD Cert.KernelIdeal.τ).loc Cert.KernelIdeal.main_arg2) j)
  real3 : ∀ j, Cert.Spec.IsReal (m ((c.tc : Thread Cert.KernelIdeal.nD Cert.KernelIdeal.τ).loc Cert.KernelIdeal.main_arg3) j)
  real4 : ∀ j, Cert.Spec.IsReal (m ((c.tc : Thread Cert.KernelIdeal.nD Cert.KernelIdeal.τ).loc Cert.KernelIdeal.main_arg4) j)
  real5 : ∀ j, Cert.Spec.IsReal (m ((c.tc : Thread Cert.KernelIdeal.nD Cert.KernelIdeal.τ).loc Cert.KernelIdeal.main_arg5) j)
  real6 : ∀ j, Cert.Spec.IsReal (m ((c.tc : Thread Cert.KernelIdeal.nD Cert.KernelIdeal.τ).loc Cert.KernelIdeal.main_arg6) j)
  real7 : ∀ j, Cert.Spec.IsReal (m ((c.tc : Thread Cert.KernelIdeal.nD Cert.KernelIdeal.τ).loc Cert.KernelIdeal.main_arg7) j)
  real8 : ∀ j, Cert.Spec.IsReal (m ((c.tc : Thread Cert.KernelIdeal.nD Cert.KernelIdeal.τ).loc Cert.KernelIdeal.main_arg8) j)
  real9 : ∀ j, Cert.Spec.IsReal (m ((c.tc : Thread Cert.KernelIdeal.nD Cert.KernelIdeal.τ).loc Cert.KernelIdeal.main_arg9) j)
  real10 : ∀ j, Cert.Spec.IsReal (m ((c.tc : Thread Cert.KernelIdeal.nD Cert.KernelIdeal.τ).loc Cert.KernelIdeal.main_arg10) j)
  real11 : ∀ j, Cert.Spec.IsReal (m ((c.tc : Thread Cert.KernelIdeal.nD Cert.KernelIdeal.τ).loc Cert.KernelIdeal.main_arg11) j)
  real12 : ∀ j, Cert.Spec.IsReal (m ((c.tc : Thread Cert.KernelIdeal.nD Cert.KernelIdeal.τ).loc Cert.KernelIdeal.main_arg12) j)
  real13 : ∀ j, Cert.Spec.IsReal (m ((c.tc : Thread Cert.KernelIdeal.nD Cert.KernelIdeal.τ).loc Cert.KernelIdeal.main_arg13) j)
  real14 : ∀ j, Cert.Spec.IsReal (m ((c.tc : Thread Cert.KernelIdeal.nD Cert.KernelIdeal.τ).loc Cert.KernelIdeal.main_arg14) j)
  real15 : ∀ j, Cert.Spec.IsReal (m ((c.tc : Thread Cert.KernelIdeal.nD Cert.KernelIdeal.τ).loc Cert.KernelIdeal.main_arg15) j)
  real16 : ∀ j, Cert.Spec.IsReal (m ((c.tc : Thread Cert.KernelIdeal.nD Cert.KernelIdeal.τ).loc Cert.KernelIdeal.main_arg16) j)
  row : ∀ e : Fin 2000000,
    0 ≤ (m ((c.tc : Thread Cert.KernelIdeal.nD Cert.KernelIdeal.τ).loc Cert.KernelIdeal.main_arg0) (ix2 (0 : Fin 2) e)).toInt
      ∧ (m ((c.tc : Thread Cert.KernelIdeal.nD Cert.KernelIdeal.τ).loc Cert.KernelIdeal.main_arg0) (ix2 (0 : Fin 2) e)).toInt < 100000
  col : ∀ e : Fin 2000000,
    100000 ≤ (m ((c.tc : Thread Cert.KernelIdeal.nD Cert.KernelIdeal.τ).loc Cert.KernelIdeal.main_arg0) (ix2 (1 : Fin 2) e)).toInt
      ∧ (m ((c.tc : Thread Cert.KernelIdeal.nD Cert.KernelIdeal.τ).loc Cert.KernelIdeal.main_arg0) (ix2 (1 : Fin 2) e)).toInt < 150000

theorem decoded [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) : Decoded m c := by
  obtain ⟨h1, h2, h3, h4, h5, h6, h7, h8, h9, h10, h11, h12, h13, h14, h15, h16, hrow, hcol⟩ :=
    fn_decode _ _ _ _ _ _ _ _ _ _ _ _ _ _ _ _ _ (h c)
  exact ⟨h1, h2, h3, h4, h5, h6, h7, h8, h9, h10, h11, h12, h13, h14, h15, h16, hrow, hcol⟩

end Cert.Proof.PreDecode

end
-- ==== Proof.lean ====
import proofs.«423179_j27462020891318_2_alg».proof.Defs
import proofs.«423179_j27462020891318_2_alg».proof.Proof.Gen.Kernel
import proofs.«423179_j27462020891318_2_alg».proof.Proof.Gen.Kernel.Skeleton
import proofs.«423179_j27462020891318_2_alg».proof.Proof.Gen.Kernel.Launch
import proofs.«423179_j27462020891318_2_alg».proof.Proof.Gen.Kernel.Points
import proofs.«423179_j27462020891318_2_alg».proof.Proof.Gen.Kernel.Frame
import proofs.«423179_j27462020891318_2_alg».proof.Proof.Gen.KernelIdeal
import proofs.«423179_j27462020891318_2_alg».proof.Proof.Gen.KernelIdeal.Skeleton
import proofs.«423179_j27462020891318_2_alg».proof.Proof.Gen.KernelIdeal.Launch
import proofs.«423179_j27462020891318_2_alg».proof.Proof.Gen.KernelIdeal.Points
import proofs.«423179_j27462020891318_2_alg».proof.Proof.Gen.KernelIdeal.Frame
import proofs.«423179_j27462020891318_2_alg».proof.Proof.Gen.ReferenceIdeal
import proofs.«423179_j27462020891318_2_alg».proof.Proof.Gen.Pre_finite_inputs
import proofs.«423179_j27462020891318_2_alg».proof.Proof.KernelRun
import proofs.«423179_j27462020891318_2_alg».proof.Proof.KChain
import proofs.«423179_j27462020891318_2_alg».proof.Proof.RefRead
import proofs.«423179_j27462020891318_2_alg».proof.Proof.RefRun
import proofs.«423179_j27462020891318_2_alg».proof.Proof.RChain
import proofs.«423179_j27462020891318_2_alg».proof.Proof.MathBasic
import proofs.«423179_j27462020891318_2_alg».proof.Proof.MathMain
import proofs.«423179_j27462020891318_2_alg».proof.Proof.PreDecode
import Idealize.ShloMosaic.Adequacy
import Idealize.ShloMosaic.Init

noncomputable section

namespace Cert.Proof

open Idealize.ShloMosaic Idealize.ShloMosaic.TcCoe Idealize.ShloMosaic.ValueIdx Idealize.SL.Sem

/-- The reference's argument buffer `b`, as launched on device `c`. -/
abbrev rarg (m' : (ℓ : Loc Cert.ReferenceIdeal.nD Cert.ReferenceIdeal.τ Cert.ReferenceIdeal.sig) → Buf (Elt Ideal) ℓ)
    (c : Dev Cert.ReferenceIdeal.nD) (b : Ref Cert.ReferenceIdeal.sig .tc) :=
  m' ((c.tc : Thread Cert.ReferenceIdeal.nD Cert.ReferenceIdeal.τ).loc b)

theorem frame_kernel : Cert.frame_Kernel := fun m ρ _ => Cert.Kernel.Gen.frame m ρ

theorem frame_kernelIdeal : Cert.frame_KernelIdeal := fun m ρ _ => Cert.KernelIdeal.Gen.frame m ρ

/-- The reference's run, with its two results dropped, is its frame. -/
theorem frame_referenceIdeal : Cert.frame_ReferenceIdeal := fun m ρ _ =>
  (θ_run Cert.ReferenceIdeal.defs _ _).mono (fun _ h c => (h c).2.2) (Cert.ReferenceIdeal.RefRun.run (F := Ideal) m ρ)

/-- Both programs end at the specification's two results of the same data: the kernel's chain of regions on one side, the reference's layers read entry by entry on the other, joined by the two identities of the specification, which hold on real data. -/
theorem algebraic : Cert.algebraic_KernelIdeal_ReferenceIdeal := by
  intro m ρ m' ρ' hpre hagree
  refine ⟨fun c => Cert.KernelIdeal.Gen.W20 m ρ c (Proc.devRef .tc Cert.KernelIdeal.main_v70),
    fun c => Cert.KernelIdeal.Gen.W20 m ρ c (Proc.devRef .tc Cert.KernelIdeal.main_v61),
    Cert.KernelIdeal.Gen.run (F := Ideal) m ρ, ?_⟩
  refine (θ_run Cert.ReferenceIdeal.defs _ _).mono (fun r h c => ⟨(h c).1.trans ?_, (h c).2.1.trans ?_, (h c).2.2⟩)
    (Cert.ReferenceIdeal.RefRun.run (F := Ideal) m' ρ')
  all_goals
    have hdec := Cert.Proof.PreDecode.decoded m hpre c
    have hReal : (Cert.KernelIdeal.KChain.KD m c).Real :=
      Cert.Spec.dataOf_real _ _ _ _ _ _ _ _ _ _ _ _ _ _ _ _ _ hdec.real1 hdec.real2 hdec.real3 hdec.real4 hdec.real5 hdec.real6 hdec.real7
        hdec.real8 hdec.real9 hdec.real10 hdec.real11 hdec.real12 hdec.real13 hdec.real14 hdec.real15 hdec.real16 hdec.row hdec.col
    obtain ⟨h0, h1, h2, h3, h4, h5, h6, h7, h8, h9, h10, h11, h12, h13, h14, h15, h16⟩ := hagree c
    have hD : Cert.Spec.dataOf (rarg m' c Cert.ReferenceIdeal.main_arg0) (rarg m' c Cert.ReferenceIdeal.main_arg1) (rarg m' c Cert.ReferenceIdeal.main_arg2) (rarg m' c Cert.ReferenceIdeal.main_arg3) (rarg m' c Cert.ReferenceIdeal.main_arg4) (rarg m' c Cert.ReferenceIdeal.main_arg5) (rarg m' c Cert.ReferenceIdeal.main_arg6) (rarg m' c Cert.ReferenceIdeal.main_arg7) (rarg m' c Cert.ReferenceIdeal.main_arg8) (rarg m' c Cert.ReferenceIdeal.main_arg9) (rarg m' c Cert.ReferenceIdeal.main_arg10) (rarg m' c Cert.ReferenceIdeal.main_arg11) (rarg m' c Cert.ReferenceIdeal.main_arg12) (rarg m' c Cert.ReferenceIdeal.main_arg13) (rarg m' c Cert.ReferenceIdeal.main_arg14) (rarg m' c Cert.ReferenceIdeal.main_arg15) (rarg m' c Cert.ReferenceIdeal.main_arg16) = Cert.KernelIdeal.KChain.KD m c := by
      unfold rarg
      rw [h0, h1, h2, h3, h4, h5, h6, h7, h8, h9, h10, h11, h12, h13, h14, h15, h16]
    have hrow' : ∀ e : Fin 2000000, 0 ≤ ((rarg m' c Cert.ReferenceIdeal.main_arg0) (ix2 (0 : Fin 2) e)).toInt ∧ ((rarg m' c Cert.ReferenceIdeal.main_arg0) (ix2 (0 : Fin 2) e)).toInt < 100000 := by
      unfold rarg; rw [h0]; exact hdec.row
    have hcol' : ∀ e : Fin 2000000, 100000 ≤ ((rarg m' c Cert.ReferenceIdeal.main_arg0) (ix2 (1 : Fin 2) e)).toInt ∧ ((rarg m' c Cert.ReferenceIdeal.main_arg0) (ix2 (1 : Fin 2) e)).toInt < 150000 := by
      unfold rarg; rw [h0]; exact hdec.col
  · funext j
    obtain ⟨e, q, rfl⟩ : ∃ (e : Fin 2000000) (q : Fin 1), j = ix2 e q := ⟨j 0, j 1, eq_ix2 j⟩
    obtain rfl : q = 0 := Subsingleton.elim _ _
    refine (Cert.ReferenceIdeal.RChain.pred_val (x0 := (rarg m' c Cert.ReferenceIdeal.main_arg0)) (x1 := (rarg m' c Cert.ReferenceIdeal.main_arg1)) (x2 := (rarg m' c Cert.ReferenceIdeal.main_arg2)) (x3 := (rarg m' c Cert.ReferenceIdeal.main_arg3)) (x4 := (rarg m' c Cert.ReferenceIdeal.main_arg4)) (x5 := (rarg m' c Cert.ReferenceIdeal.main_arg5)) (x6 := (rarg m' c Cert.ReferenceIdeal.main_arg6)) (x7 := (rarg m' c Cert.ReferenceIdeal.main_arg7)) (x8 := (rarg m' c Cert.ReferenceIdeal.main_arg8)) (x9 := (rarg m' c Cert.ReferenceIdeal.main_arg9)) (x10 := (rarg m' c Cert.ReferenceIdeal.main_arg10)) (x11 := (rarg m' c Cert.ReferenceIdeal.main_arg11)) (x12 := (rarg m' c Cert.ReferenceIdeal.main_arg12)) (x13 := (rarg m' c Cert.ReferenceIdeal.main_arg13)) (x14 := (rarg m' c Cert.ReferenceIdeal.main_arg14)) (x15 := (rarg m' c Cert.ReferenceIdeal.main_arg15)) (x16 := (rarg m' c Cert.ReferenceIdeal.main_arg16)) hrow' hcol' e).trans ?_
    rw [hD, ← Cert.Spec.pred_eq]
    exact (Cert.KernelIdeal.KChain.pred_W20 m ρ c hdec.row hdec.col e).symm
  · funext j
    obtain ⟨i, h, rfl⟩ : ∃ (i : Fin 150000) (h : Fin 64), j = ix2 i h := ⟨j 0, j 1, eq_ix2 j⟩
    refine (Cert.ReferenceIdeal.RChain.xout_val (x0 := (rarg m' c Cert.ReferenceIdeal.main_arg0)) (x1 := (rarg m' c Cert.ReferenceIdeal.main_arg1)) (x2 := (rarg m' c Cert.ReferenceIdeal.main_arg2)) (x3 := (rarg m' c Cert.ReferenceIdeal.main_arg3)) (x4 := (rarg m' c Cert.ReferenceIdeal.main_arg4)) (x5 := (rarg m' c Cert.ReferenceIdeal.main_arg5)) (x6 := (rarg m' c Cert.ReferenceIdeal.main_arg6)) (x7 := (rarg m' c Cert.ReferenceIdeal.main_arg7)) (x8 := (rarg m' c Cert.ReferenceIdeal.main_arg8)) (x9 := (rarg m' c Cert.ReferenceIdeal.main_arg9)) (x10 := (rarg m' c Cert.ReferenceIdeal.main_arg10)) (x11 := (rarg m' c Cert.ReferenceIdeal.main_arg11)) (x12 := (rarg m' c Cert.ReferenceIdeal.main_arg12)) (x13 := (rarg m' c Cert.ReferenceIdeal.main_arg13)) (x14 := (rarg m' c Cert.ReferenceIdeal.main_arg14)) (x15 := (rarg m' c Cert.ReferenceIdeal.main_arg15)) (x16 := (rarg m' c Cert.ReferenceIdeal.main_arg16)) hrow' hcol' i h).trans ?_
    rw [hD, ← Cert.Spec.xout_eq _ hReal]
    exact (Cert.KernelIdeal.KChain.xout_W20 m ρ c hdec.row i h).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
